-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v191)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v191) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v243) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S3x1000000 : Shape := ⟨2, ![3, 1000000]⟩
abbrev S64x64 : Shape := ⟨2, ![64, 64]⟩
abbrev S64 : Shape := ⟨1, ![64]⟩
abbrev S128x64 : Shape := ⟨2, ![128, 64]⟩
abbrev S64x2 : Shape := ⟨2, ![64, 2]⟩
abbrev S2 : Shape := ⟨1, ![2]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S128x64 : S_.BroadcastsInDim S128x64 (![] : Fin 0 → Fin S128x64.rank)
  reducesTo_S128x64_S_d0_1 : S128x64.ReducesTo [0, 1] S_
  bcast_S_S64x2 : S_.BroadcastsInDim S64x2 (![] : Fin 0 → Fin S64x2.rank)
  reducesTo_S64x2_S_d0_1 : S64x2.ReducesTo [0, 1] S_
  bcast_S_S2 : S_.BroadcastsInDim S2 (![] : Fin 0 → Fin S2.rank)
  reducesTo_S2_S_d0 : S2.ReducesTo [0] S_

variable [Facts]

def fn_part3 {F : FTy → Type} [FloatOps F] (main_arg13 : FVec F S64x2 .f32) (main_arg14 : FVec F S2 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64x2 .f32 := Host.absf main_arg13
  let main_cst_20 : FVec F S_ .f32 := constant S_ .f32 0x7F800000#32
  let main_v55 : FVec F S64x2 .f32 := broadcastInDim S64x2 ![] bcast_S_S64x2 main_cst_20
  let main_v56 : IVec S64x2 1 := cmpf .olt main_v54 main_v55
  let main_c_21 : IVec S_ 1 := constantI S_ 1 1#1
  let main_v57 : IVec S_ 1 := (fun x v => Host.reduce IntOp.andi x v reducesTo_S64x2_S_d0_1 h_S_) main_v56 main_c_21
  let main_v58 : IVec S_ 1 := andi main_v53 main_v57
  let main_v59 : FVec F S2 .f32 := Host.absf main_arg14
  let main_cst_22 : FVec F S_ .f32 := constant S_ .f32 0x7F800000#32
  let main_v60 : FVec F S2 .f32 := broadcastInDim S2 ![] bcast_S_S2 main_cst_22
  let main_v61 : IVec S2 1 := cmpf .olt main_v59 main_v60
  let main_c_23 : IVec S_ 1 := constantI S_ 1 1#1
  let main_v62 : IVec S_ 1 := (fun x v => Host.reduce IntOp.andi x v reducesTo_S2_S_d0 h_S_) main_v61 main_c_23
  let main_v63 : IVec S_ 1 := andi main_v58 main_v62
  main_v63

def fn_part2 {F : FTy → Type} [FloatOps F] (main_arg9 : FVec F S128x64 .f32) (main_arg10 : FVec F S64 .f32) (main_arg11 : FVec F S128x64 .f32) (main_arg12 : FVec F S64 .f32) (main_arg13 : FVec F S64x2 .f32) (main_arg14 : FVec F S2 .f32) (main_v33 : IVec S_ 1) : IVec S_ 1 :=
  let main_v34 : FVec F S128x64 .f32 := Host.absf main_arg9
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S128x64 .f32 := Host.absf main_arg11
  let main_cst_16 : FVec F S_ .f32 := constant S_ .f32 0x7F800000#32
  let main_v45 : FVec F S128x64 .f32 := broadcastInDim S128x64 ![] bcast_S_S128x64 main_cst_16
  let main_v46 : IVec S128x64 1 := cmpf .olt main_v44 main_v45
  let main_c_17 : IVec S_ 1 := constantI S_ 1 1#1
  let main_v47 : IVec S_ 1 := (fun x v => Host.reduce IntOp.andi x v reducesTo_S128x64_S_d0_1 h_S_) main_v46 main_c_17
  let main_v48 : IVec S_ 1 := andi main_v43 main_v47
  let main_v49 : FVec F S64 .f32 := Host.absf main_arg12
  let main_cst_18 : FVec F S_ .f32 := constant S_ .f32 0x7F800000#32
  let main_v50 : FVec F S64 .f32 := broadcastInDim S64 ![] bcast_S_S64 main_cst_18
  fn_part3 (F := F) main_arg13 main_arg14 main_v48 main_v49 main_v50

def fn_part1 {F : FTy → Type} [FloatOps F] (main_arg6 : FVec F S64 .f32) (main_arg7 : FVec F S128x64 .f32) (main_arg8 : FVec F S64 .f32) (main_arg9 : FVec F S128x64 .f32) (main_arg10 : FVec F S64 .f32) (main_arg11 : FVec F S128x64 .f32) (main_arg12 : FVec F S64 .f32) (main_arg13 : FVec F S64x2 .f32) (main_arg14 : FVec F S2 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S128x64 .f32 := Host.absf main_arg7
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_arg11 main_arg12 main_arg13 main_arg14 main_v33

def fn {F : FTy → Type} [FloatOps F] (main_arg0 : FVec F S100000x64 .f32) (main_arg1 : IVec S3x1000000 32) (main_arg2 : IVec S3x1000000 32) (main_arg3 : FVec F S64x64 .f32) (main_arg4 : FVec F S64 .f32) (main_arg5 : FVec F S64x64 .f32) (main_arg6 : FVec F S64 .f32) (main_arg7 : FVec F S128x64 .f32) (main_arg8 : FVec F S64 .f32) (main_arg9 : FVec F S128x64 .f32) (main_arg10 : FVec F S64 .f32) (main_arg11 : FVec F S128x64 .f32) (main_arg12 : FVec F S64 .f32) (main_arg13 : FVec F S64x2 .f32) (main_arg14 : FVec F S2 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg3
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_arg9 main_arg10 main_arg11 main_arg12 main_arg13 main_arg14 main_v13 main_v16
-- ==== Kernel.lean ====
abbrev S100000x64 : Shape := ⟨2, ![100000, 64]⟩
abbrev S3x1000000 : Shape := ⟨2, ![3, 1000000]⟩
abbrev S64x64 : Shape := ⟨2, ![64, 64]⟩
abbrev S64 : Shape := ⟨1, ![64]⟩
abbrev S128x64 : Shape := ⟨2, ![128, 64]⟩
abbrev S64x2 : Shape := ⟨2, ![64, 2]⟩
abbrev S2 : Shape := ⟨1, ![2]⟩
abbrev S1x64 : Shape := ⟨2, ![1, 64]⟩
abbrev S10000x64 : Shape := ⟨2, ![10000, 64]⟩
abbrev S_ : Shape := ⟨0, ![]⟩
abbrev S1x1000000 : Shape := ⟨2, ![1, 1000000]⟩
abbrev S1000000 : Shape := ⟨1, ![1000000]⟩
abbrev S100000 : Shape := ⟨1, ![100000]⟩
abbrev S1000000x1 : Shape := ⟨2, ![1000000, 1]⟩
abbrev S100000x1 : Shape := ⟨2, ![100000, 1]⟩
abbrev S1000000x64 : Shape := ⟨2, ![1000000, 64]⟩
abbrev S1x2 : Shape := ⟨2, ![1, 2]⟩
abbrev S100000x2 : Shape := ⟨2, ![100000, 2]⟩
abbrev S10000x2 : Shape := ⟨2, ![10000, 2]⟩

abbrev nBuf : Space → Nat
  | .hbm => 271
  | .vmem => 107
  | .smem => 0
  | _ => 0

abbrev hbmTy0_0 (i : Nat) : BufTy := match i % 128 with
  | 0 => ⟨S100000x64, .f32⟩
  | 1 => ⟨S3x1000000, .i32⟩
  | 2 => ⟨S3x1000000, .i32⟩
  | 3 => ⟨S64x64, .f32⟩
  | 4 => ⟨S64, .f32⟩
  | 5 => ⟨S64x64, .f32⟩
  | 6 => ⟨S64, .f32⟩
  | 7 => ⟨S128x64, .f32⟩
  | 8 => ⟨S64, .f32⟩
  | 9 => ⟨S128x64, .f32⟩
  | 10 => ⟨S64, .f32⟩
  | 11 => ⟨S128x64, .f32⟩
  | 12 => ⟨S64, .f32⟩
  | 13 => ⟨S64x2, .f32⟩
  | 14 => ⟨S2, .f32⟩
  | 15 => ⟨S1x64, .f32⟩
  | 16 => ⟨S1x64, .f32⟩
  | 17 => ⟨S100000x64, .f32⟩
  | 18 => ⟨S64x64, .f32⟩
  | 19 => ⟨S64x64, .f32⟩
  | 20 => ⟨S64x64, .f32⟩
  | 21 => ⟨S64x64, .f32⟩
  | 22 => ⟨S64x64, .f32⟩
  | 23 => ⟨S64x64, .f32⟩
  | 24 => ⟨S_, .f32⟩
  | 25 => ⟨S100000x64, .f32⟩
  | 26 => ⟨S1x1000000, .i32⟩
  | 27 => ⟨S1000000, .i32⟩
  | 28 => ⟨S1x1000000, .i32⟩
  | 29 => ⟨S1000000, .i32⟩
  | 30 => ⟨S_, .f32⟩
  | 31 => ⟨S1000000, .f32⟩
  | 32 => ⟨S_, .f32⟩
  | 33 => ⟨S100000, .f32⟩
  | 34 => ⟨S1000000x1, .i32⟩
  | 35 => ⟨S100000, .f32⟩
  | 36 => ⟨S_, .f32⟩
  | 37 => ⟨S100000, .f32⟩
  | 38 => ⟨S100000, .i1⟩
  | 39 => ⟨S_, .f32⟩
  | 40 => ⟨S_, .f32⟩
  | 41 => ⟨S100000, .f32⟩
  | 42 => ⟨S100000, .f32⟩
  | 43 => ⟨S_, .f32⟩
  | 44 => ⟨S100000, .f32⟩
  | 45 => ⟨S100000, .f32⟩
  | 46 => ⟨S100000x1, .f32⟩
  | 47 => ⟨S100000x64, .f32⟩
  | 48 => ⟨S100000x64, .f32⟩
  | 49 => ⟨S_, .i32⟩
  | 50 => ⟨S1000000, .i32⟩
  | 51 => ⟨S1000000, .i1⟩
  | 52 => ⟨S_, .i32⟩
  | 53 => ⟨S1000000, .i32⟩
  | 54 => ⟨S1000000, .i32⟩
  | 55 => ⟨S1000000, .i32⟩
  | 56 => ⟨S1000000x1, .i32⟩
  | 57 => ⟨S1000000x64, .f32⟩
  | 58 => ⟨S100000x1, .f32⟩
  | 59 => ⟨S_, .f32⟩
  | 60 => ⟨S100000x64, .f32⟩
  | 61 => ⟨S1000000x1, .i32⟩
  | 62 => ⟨S100000x64, .f32⟩
  | 63 => ⟨S100000x64, .f32⟩
  | 64 => ⟨S100000x64, .f32⟩
  | 65 => ⟨S1x64, .f32⟩
  | 66 => ⟨S100000x64, .f32⟩
  | 67 => ⟨S_, .f32⟩
  | 68 => ⟨S1000000, .f32⟩
  | 69 => ⟨S_, .f32⟩
  | 70 => ⟨S100000, .f32⟩
  | 71 => ⟨S1000000x1, .i32⟩
  | 72 => ⟨S100000, .f32⟩
  | 73 => ⟨S_, .f32⟩
  | 74 => ⟨S100000, .f32⟩
  | 75 => ⟨S100000, .i1⟩
  | 76 => ⟨S_, .f32⟩
  | 77 => ⟨S_, .f32⟩
  | 78 => ⟨S100000, .f32⟩
  | 79 => ⟨S100000, .f32⟩
  | 80 => ⟨S_, .f32⟩
  | 81 => ⟨S100000, .f32⟩
  | 82 => ⟨S100000, .f32⟩
  | 83 => ⟨S100000x1, .f32⟩
  | 84 => ⟨S100000x64, .f32⟩
  | 85 => ⟨S100000x64, .f32⟩
  | 86 => ⟨S_, .i32⟩
  | 87 => ⟨S1000000, .i32⟩
  | 88 => ⟨S1000000, .i1⟩
  | 89 => ⟨S_, .i32⟩
  | 90 => ⟨S1000000, .i32⟩
  | 91 => ⟨S1000000, .i32⟩
  | 92 => ⟨S1000000, .i32⟩
  | 93 => ⟨S1000000x1, .i32⟩
  | 94 => ⟨S1000000x64, .f32⟩
  | 95 => ⟨S100000x1, .f32⟩
  | 96 => ⟨S_, .f32⟩
  | 97 => ⟨S100000x64, .f32⟩
  | 98 => ⟨S1000000x1, .i32⟩
  | 99 => ⟨S100000x64, .f32⟩
  | 100 => ⟨S100000x64, .f32⟩
  | 101 => ⟨S100000x64, .f32⟩
  | 102 => ⟨S1x64, .f32⟩
  | 103 => ⟨S100000x64, .f32⟩
  | 104 => ⟨S1x64, .f32⟩
  | 105 => ⟨S100000x64, .f32⟩
  | 106 => ⟨S100000x64, .f32⟩
  | 107 => ⟨S1x1000000, .i32⟩
  | 108 => ⟨S1000000, .i32⟩
  | 109 => ⟨S1x1000000, .i32⟩
  | 110 => ⟨S1000000, .i32⟩
  | 111 => ⟨S_, .f32⟩
  | 112 => ⟨S1000000, .f32⟩
  | 113 => ⟨S_, .f32⟩
  | 114 => ⟨S100000, .f32⟩
  | 115 => ⟨S1000000x1, .i32⟩
  | 116 => ⟨S100000, .f32⟩
  | 117 => ⟨S_, .f32⟩
  | 118 => ⟨S100000, .f32⟩
  | 119 => ⟨S100000, .i1⟩
  | 120 => ⟨S_, .f32⟩
  | 121 => ⟨S_, .f32⟩
  | 122 => ⟨S100000, .f32⟩
  | 123 => ⟨S100000, .f32⟩
  | 124 => ⟨S_, .f32⟩
  | 125 => ⟨S100000, .f32⟩
  | 126 => ⟨S100000, .f32⟩
  | 127 => ⟨S100000x1, .f32⟩
  | _ => ⟨S100000x64, .f32⟩

abbrev hbmTy0_1 (i : Nat) : BufTy := match i % 128 with
  | 0 => ⟨S100000x64, .f32⟩
  | 1 => ⟨S100000x64, .f32⟩
  | 2 => ⟨S_, .i32⟩
  | 3 => ⟨S1000000, .i32⟩
  | 4 => ⟨S1000000, .i1⟩
  | 5 => ⟨S_, .i32⟩
  | 6 => ⟨S1000000, .i32⟩
  | 7 => ⟨S1000000, .i32⟩
  | 8 => ⟨S1000000, .i32⟩
  | 9 => ⟨S1000000x1, .i32⟩
  | 10 => ⟨S1000000x64, .f32⟩
  | 11 => ⟨S100000x1, .f32⟩
  | 12 => ⟨S_, .f32⟩
  | 13 => ⟨S100000x64, .f32⟩
  | 14 => ⟨S1000000x1, .i32⟩
  | 15 => ⟨S100000x64, .f32⟩
  | 16 => ⟨S100000x64, .f32⟩
  | 17 => ⟨S100000x64, .f32⟩
  | 18 => ⟨S1x64, .f32⟩
  | 19 => ⟨S100000x64, .f32⟩
  | 20 => ⟨S_, .f32⟩
  | 21 => ⟨S1000000, .f32⟩
  | 22 => ⟨S_, .f32⟩
  | 23 => ⟨S100000, .f32⟩
  | 24 => ⟨S1000000x1, .i32⟩
  | 25 => ⟨S100000, .f32⟩
  | 26 => ⟨S_, .f32⟩
  | 27 => ⟨S100000, .f32⟩
  | 28 => ⟨S100000, .i1⟩
  | 29 => ⟨S_, .f32⟩
  | 30 => ⟨S_, .f32⟩
  | 31 => ⟨S100000, .f32⟩
  | 32 => ⟨S100000, .f32⟩
  | 33 => ⟨S_, .f32⟩
  | 34 => ⟨S100000, .f32⟩
  | 35 => ⟨S100000, .f32⟩
  | 36 => ⟨S100000x1, .f32⟩
  | 37 => ⟨S100000x64, .f32⟩
  | 38 => ⟨S100000x64, .f32⟩
  | 39 => ⟨S_, .i32⟩
  | 40 => ⟨S1000000, .i32⟩
  | 41 => ⟨S1000000, .i1⟩
  | 42 => ⟨S_, .i32⟩
  | 43 => ⟨S1000000, .i32⟩
  | 44 => ⟨S1000000, .i32⟩
  | 45 => ⟨S1000000, .i32⟩
  | 46 => ⟨S1000000x1, .i32⟩
  | 47 => ⟨S1000000x64, .f32⟩
  | 48 => ⟨S100000x1, .f32⟩
  | 49 => ⟨S_, .f32⟩
  | 50 => ⟨S100000x64, .f32⟩
  | 51 => ⟨S1000000x1, .i32⟩
  | 52 => ⟨S100000x64, .f32⟩
  | 53 => ⟨S100000x64, .f32⟩
  | 54 => ⟨S100000x64, .f32⟩
  | 55 => ⟨S1x64, .f32⟩
  | 56 => ⟨S100000x64, .f32⟩
  | 57 => ⟨S1x64, .f32⟩
  | 58 => ⟨S100000x64, .f32⟩
  | 59 => ⟨S100000x64, .f32⟩
  | 60 => ⟨S1x1000000, .i32⟩
  | 61 => ⟨S1000000, .i32⟩
  | 62 => ⟨S1x1000000, .i32⟩
  | 63 => ⟨S1000000, .i32⟩
  | 64 => ⟨S_, .f32⟩
  | 65 => ⟨S1000000, .f32⟩
  | 66 => ⟨S_, .f32⟩
  | 67 => ⟨S100000, .f32⟩
  | 68 => ⟨S1000000x1, .i32⟩
  | 69 => ⟨S100000, .f32⟩
  | 70 => ⟨S_, .f32⟩
  | 71 => ⟨S100000, .f32⟩
  | 72 => ⟨S100000, .i1⟩
  | 73 => ⟨S_, .f32⟩
  | 74 => ⟨S_, .f32⟩
  | 75 => ⟨S100000, .f32⟩
  | 76 => ⟨S100000, .f32⟩
  | 77 => ⟨S_, .f32⟩
  | 78 => ⟨S100000, .f32⟩
  | 79 => ⟨S100000, .f32⟩
  | 80 => ⟨S100000x1, .f32⟩
  | 81 => ⟨S100000x64, .f32⟩
  | 82 => ⟨S100000x64, .f32⟩
  | 83 => ⟨S_, .i32⟩
  | 84 => ⟨S1000000, .i32⟩
  | 85 => ⟨S1000000, .i1⟩
  | 86 => ⟨S_, .i32⟩
  | 87 => ⟨S1000000, .i32⟩
  | 88 => ⟨S1000000, .i32⟩
  | 89 => ⟨S1000000, .i32⟩
  | 90 => ⟨S1000000x1, .i32⟩
  | 91 => ⟨S1000000x64, .f32⟩
  | 92 => ⟨S100000x1, .f32⟩
  | 93 => ⟨S_, .f32⟩
  | 94 => ⟨S100000x64, .f32⟩
  | 95 => ⟨S1000000x1, .i32⟩
  | 96 => ⟨S100000x64, .f32⟩
  | 97 => ⟨S100000x64, .f32⟩
  | 98 => ⟨S100000x64, .f32⟩
  | 99 => ⟨S1x64, .f32⟩
  | 100 => ⟨S100000x64, .f32⟩
  | 101 => ⟨S_, .f32⟩
  | 102 => ⟨S1000000, .f32⟩
  | 103 => ⟨S_, .f32⟩
  | 104 => ⟨S100000, .f32⟩
  | 105 => ⟨S1000000x1, .i32⟩
  | 106 => ⟨S100000, .f32⟩
  | 107 => ⟨S_, .f32⟩
  | 108 => ⟨S100000, .f32⟩
  | 109 => ⟨S100000, .i1⟩
  | 110 => ⟨S_, .f32⟩
  | 111 => ⟨S_, .f32⟩
  | 112 => ⟨S100000, .f32⟩
  | 113 => ⟨S100000, .f32⟩
  | 114 => ⟨S_, .f32⟩
  | 115 => ⟨S100000, .f32⟩
  | 116 => ⟨S100000, .f32⟩
  | 117 => ⟨S100000x1, .f32⟩
  | 118 => ⟨S100000x64, .f32⟩
  | 119 => ⟨S100000x64, .f32⟩
  | 120 => ⟨S_, .i32⟩
  | 121 => ⟨S1000000, .i32⟩
  | 122 => ⟨S1000000, .i1⟩
  | 123 => ⟨S_, .i32⟩
  | 124 => ⟨S1000000, .i32⟩
  | 125 => ⟨S1000000, .i32⟩
  | 126 => ⟨S1000000, .i32⟩
  | 127 => ⟨S1000000x1, .i32⟩
  | _ => ⟨S100000x64, .f32⟩

abbrev hbmTy0_2 (i : Nat) : BufTy := match i % 128 with
  | 0 => ⟨S1000000x64, .f32⟩
  | 1 => ⟨S100000x1, .f32⟩
  | 2 => ⟨S_, .f32⟩
  | 3 => ⟨S100000x64, .f32⟩
  | 4 => ⟨S1000000x1, .i32⟩
  | 5 => ⟨S100000x64, .f32⟩
  | 6 => ⟨S100000x64, .f32⟩
  | 7 => ⟨S100000x64, .f32⟩
  | 8 => ⟨S1x64, .f32⟩
  | 9 => ⟨S100000x64, .f32⟩
  | 10 => ⟨S1x64, .f32⟩
  | 11 => ⟨S100000x64, .f32⟩
  | 12 => ⟨S100000x64, .f32⟩
  | 13 => ⟨S1x2, .f32⟩
  | 14 => ⟨S100000x2, .f32⟩
  | _ => ⟨S100000x64, .f32⟩

abbrev hbmTy (i : Nat) : BufTy := match i / 128 with
  | 0 => hbmTy0_0 i
  | 1 => hbmTy0_1 i
  | 2 => hbmTy0_2 i
  | _ => ⟨S100000x64, .f32⟩

abbrev bufTy : (tb : Table) → Fin (tcTables nBuf tb) → BufTy
  | .hbm, ⟨i, _⟩ => hbmTy i
  | .local _ .vmem, ⟨0, _⟩ => ⟨S10000x64, .f32⟩
  | .local _ .vmem, ⟨1, _⟩ => ⟨S10000x64, .f32⟩
  | .local _ .vmem, ⟨2, _⟩ => ⟨S64x64, .f32⟩
  | .local _ .vmem, ⟨3, _⟩ => ⟨S1x64, .f32⟩
  | .local _ .vmem, ⟨4, _⟩ => ⟨S64x64, .f32⟩
  | .local _ .vmem, ⟨5, _⟩ => ⟨S1x64, .f32⟩
  | .local _ .vmem, ⟨6, _⟩ => ⟨S10000x64, .f32⟩
  | .local _ .vmem, ⟨7, _⟩ => ⟨S10000x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S64x64, .f32⟩
  | .local _ .vmem, ⟨13, _⟩ => ⟨S64x64, .f32⟩
  | .local _ .vmem, ⟨14, _⟩ => ⟨S1x64, .f32⟩
  | .local _ .vmem, ⟨15, _⟩ => ⟨S10000x64, .f32⟩
  | .local _ .vmem, ⟨16, _⟩ => ⟨S10000x64, .f32⟩
  | .local _ .vmem, ⟨17, _⟩ => ⟨S10000x64, .f32⟩
  | .local _ .vmem, ⟨18, _⟩ => ⟨S10000x64, .f32⟩
  | .local _ .vmem, ⟨19, _⟩ => ⟨S10000x64, .f32⟩
  | .local _ .vmem, ⟨20, _⟩ => ⟨S10000x64, .f32⟩
  | .local _ .vmem, ⟨21, _⟩ => ⟨S64x64, .f32⟩
  | .local _ .vmem, ⟨22, _⟩ => ⟨S64x64, .f32⟩
  | .local _ .vmem, ⟨23, _⟩ => ⟨S1x64, .f32⟩
  | .local _ .vmem, ⟨24, _⟩ => ⟨S10000x64, .f32⟩
  | .local _ .vmem, ⟨25, _⟩ => ⟨S10000x64, .f32⟩
  | .local _ .vmem, ⟨26, _⟩ => ⟨S10000x64, .f32⟩
  | .local _ .vmem, ⟨27, _⟩ => ⟨S10000x64, .f32⟩
  | .local _ .vmem, ⟨28, _⟩ => ⟨S10000x64, .f32⟩
  | .local _ .vmem, ⟨29, _⟩ => ⟨S10000x64, .f32⟩
  | .local _ .vmem, ⟨30, _⟩ => ⟨S64x64, .f32⟩
  | .local _ .vmem, ⟨31, _⟩ => ⟨S64x64, .f32⟩
  | .local _ .vmem, ⟨32, _⟩ => ⟨S1x64, .f32⟩
  | .local _ .vmem, ⟨33, _⟩ => ⟨S10000x64, .f32⟩
  | .local _ .vmem, ⟨34, _⟩ => ⟨S10000x64, .f32⟩
  | .local _ .vmem, ⟨35, _⟩ => ⟨S10000x64, .f32⟩
  | .local _ .vmem, ⟨36, _⟩ => ⟨S10000x64, .f32⟩
  | .local _ .vmem, ⟨37, _⟩ => ⟨S10000x64, .f32⟩
  | .local _ .vmem, ⟨38, _⟩ => ⟨S10000x64, .f32⟩
  | .local _ .vmem, ⟨39, _⟩ => ⟨S10000x64, .f32⟩
  | .local _ .vmem, ⟨40, _⟩ => ⟨S10000x64, .f32⟩
  | .local _ .vmem, ⟨41, _⟩ => ⟨S10000x64, .f32⟩
  | .local _ .vmem, ⟨42, _⟩ => ⟨S10000x64, .f32⟩
  | .local _ .vmem, ⟨43, _⟩ => ⟨S64x64, .f32⟩
  | .local _ .vmem, ⟨44, _⟩ => ⟨S64x64, .f32⟩
  | .local _ .vmem, ⟨45, _⟩ => ⟨S1x64, .f32⟩
  | .local _ .vmem, ⟨46, _⟩ => ⟨S10000x64, .f32⟩
  | .local _ .vmem, ⟨47, _⟩ => ⟨S10000x64, .f32⟩
  | .local _ .vmem, ⟨48, _⟩ => ⟨S10000x64, .f32⟩
  | .local _ .vmem, ⟨49, _⟩ => ⟨S10000x64, .f32⟩
  | .local _ .vmem, ⟨50, _⟩ => ⟨S10000x64, .f32⟩
  | .local _ .vmem, ⟨51, _⟩ => ⟨S10000x64, .f32⟩
  | .local _ .vmem, ⟨52, _⟩ => ⟨S64x64, .f32⟩
  | .local _ .vmem, ⟨53, _⟩ => ⟨S64x64, .f32⟩
  | .local _ .vmem, ⟨54, _⟩ => ⟨S1x64, .f32⟩
  | .local _ .vmem, ⟨55, _⟩ => ⟨S10000x64, .f32⟩
  | .local _ .vmem, ⟨56, _⟩ => ⟨S10000x64, .f32⟩
  | .local _ .vmem, ⟨57, _⟩ => ⟨S10000x64, .f32⟩
  | .local _ .vmem, ⟨58, _⟩ => ⟨S10000x64, .f32⟩
  | .local _ .vmem, ⟨59, _⟩ => ⟨S10000x64, .f32⟩
  | .local _ .vmem, ⟨60, _⟩ => ⟨S10000x64, .f32⟩
  | .local _ .vmem, ⟨61, _⟩ => ⟨S64x64, .f32⟩
  | .local _ .vmem, ⟨62, _⟩ => ⟨S64x64, .f32⟩
  | .local _ .vmem, ⟨63, _⟩ => ⟨S1x64, .f32⟩
  | .local _ .vmem, ⟨64, _⟩ => ⟨S10000x64, .f32⟩
  | .local _ .vmem, ⟨65, _⟩ => ⟨S10000x64, .f32⟩
  | .local _ .vmem, ⟨66, _⟩ => ⟨S10000x64, .f32⟩
  | .local _ .vmem, ⟨67, _⟩ => ⟨S10000x64, .f32⟩
  | .local _ .vmem, ⟨68, _⟩ => ⟨S10000x64, .f32⟩
  | .local _ .vmem, ⟨69, _⟩ => ⟨S10000x64, .f32⟩
  | .local _ .vmem, ⟨70, _⟩ => ⟨S10000x64, .f32⟩
  | .local _ .vmem, ⟨71, _⟩ => ⟨S10000x64, .f32⟩
  | .local _ .vmem, ⟨72, _⟩ => ⟨S10000x64, .f32⟩
  | .local _ .vmem, ⟨73, _⟩ => ⟨S10000x64, .f32⟩
  | .local _ .vmem, ⟨74, _⟩ => ⟨S64x64, .f32⟩
  | .local _ .vmem, ⟨75, _⟩ => ⟨S64x64, .f32⟩
  | .local _ .vmem, ⟨76, _⟩ => ⟨S1x64, .f32⟩
  | .local _ .vmem, ⟨77, _⟩ => ⟨S10000x64, .f32⟩
  | .local _ .vmem, ⟨78, _⟩ => ⟨S10000x64, .f32⟩
  | .local _ .vmem, ⟨79, _⟩ => ⟨S10000x64, .f32⟩
  | .local _ .vmem, ⟨80, _⟩ => ⟨S10000x64, .f32⟩
  | .local _ .vmem, ⟨81, _⟩ => ⟨S10000x64, .f32⟩
  | .local _ .vmem, ⟨82, _⟩ => ⟨S10000x64, .f32⟩
  | .local _ .vmem, ⟨83, _⟩ => ⟨S64x64, .f32⟩
  | .local _ .vmem, ⟨84, _⟩ => ⟨S64x64, .f32⟩
  | .local _ .vmem, ⟨85, _⟩ => ⟨S1x64, .f32⟩
  | .local _ .vmem, ⟨86, _⟩ => ⟨S10000x64, .f32⟩
  | .local _ .vmem, ⟨87, _⟩ => ⟨S10000x64, .f32⟩
  | .local _ .vmem, ⟨88, _⟩ => ⟨S10000x64, .f32⟩
  | .local _ .vmem, ⟨89, _⟩ => ⟨S10000x64, .f32⟩
  | .local _ .vmem, ⟨90, _⟩ => ⟨S10000x64, .f32⟩
  | .local _ .vmem, ⟨91, _⟩ => ⟨S10000x64, .f32⟩
  | .local _ .vmem, ⟨92, _⟩ => ⟨S64x64, .f32⟩
  | .local _ .vmem, ⟨93, _⟩ => ⟨S64x64, .f32⟩
  | .local _ .vmem, ⟨94, _⟩ => ⟨S1x64, .f32⟩
  | .local _ .vmem, ⟨95, _⟩ => ⟨S10000x64, .f32⟩
  | .local _ .vmem, ⟨96, _⟩ => ⟨S10000x64, .f32⟩
  | .local _ .vmem, ⟨97, _⟩ => ⟨S10000x64, .f32⟩
  | .local _ .vmem, ⟨98, _⟩ => ⟨S10000x64, .f32⟩
  | .local _ .vmem, ⟨99, _⟩ => ⟨S10000x64, .f32⟩
  | .local _ .vmem, ⟨100, _⟩ => ⟨S10000x64, .f32⟩
  | .local _ .vmem, ⟨101, _⟩ => ⟨S10000x64, .f32⟩
  | .local _ .vmem, ⟨102, _⟩ => ⟨S10000x64, .f32⟩
  | .local _ .vmem, ⟨103, _⟩ => ⟨S64x2, .f32⟩
  | .local _ .vmem, ⟨104, _⟩ => ⟨S1x2, .f32⟩
  | .local _ .vmem, ⟨105, _⟩ => ⟨S10000x2, .f32⟩
  | .local _ .vmem, ⟨106, _⟩ => ⟨S10000x2, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | .vmem, ⟨100, _⟩ => true
  | .vmem, ⟨101, _⟩ => true
  | .vmem, ⟨102, _⟩ => true
  | .vmem, ⟨103, _⟩ => true
  | .vmem, ⟨104, _⟩ => true
  | .vmem, ⟨105, _⟩ => true
  | .vmem, ⟨106, _⟩ => true
  | _, _ => false

abbrev semScoped : Fin 0 → Bool
  | ⟨_, h⟩ => absurd h (Nat.not_lt_zero _)

abbrev dmaSemScoped : Fin 107 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | _ => false

abbrev sig : RefSig :=
  ofTc nBuf bufTy 0 107 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_cst : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_0 : Ref sig .tc := ⟨.hbm, 30, rfl⟩
abbrev main_v14 : Ref sig .tc := ⟨.hbm, 31, rfl⟩
abbrev main_cst_1 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_2 : Ref sig .tc := ⟨.hbm, 36, rfl⟩
abbrev main_v18 : Ref sig .tc := ⟨.hbm, 37, rfl⟩
abbrev main_v19 : Ref sig .tc := ⟨.hbm, 38, rfl⟩
abbrev main_cst_3 : Ref sig .tc := ⟨.hbm, 39, rfl⟩
abbrev main_call0_v0 : Ref sig .tc := ⟨.hbm, 40, rfl⟩
abbrev main_call0_v1 : Ref sig .tc := ⟨.hbm, 41, rfl⟩
abbrev main_v20 : Ref sig .tc := ⟨.hbm, 42, rfl⟩
abbrev main_cst_4 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_c : Ref sig .tc := ⟨.hbm, 49, rfl⟩
abbrev main_v26 : Ref sig .tc := ⟨.hbm, 50, rfl⟩
abbrev main_v27 : Ref sig .tc := ⟨.hbm, 51, rfl⟩
abbrev main_c_5 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_cst_6 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_cst_7 : Ref sig .tc := ⟨.hbm, 67, rfl⟩
abbrev main_v41 : Ref sig .tc := ⟨.hbm, 68, rfl⟩
abbrev main_cst_8 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_cst_9 : Ref sig .tc := ⟨.hbm, 73, rfl⟩
abbrev main_v45 : Ref sig .tc := ⟨.hbm, 74, rfl⟩
abbrev main_v46 : Ref sig .tc := ⟨.hbm, 75, rfl⟩
abbrev main_cst_10 : Ref sig .tc := ⟨.hbm, 76, rfl⟩
abbrev main_call1_v0 : Ref sig .tc := ⟨.hbm, 77, rfl⟩
abbrev main_call1_v1 : Ref sig .tc := ⟨.hbm, 78, rfl⟩
abbrev main_v47 : Ref sig .tc := ⟨.hbm, 79, rfl⟩
abbrev main_cst_11 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_c_12 : Ref sig .tc := ⟨.hbm, 86, rfl⟩
abbrev main_v53 : Ref sig .tc := ⟨.hbm, 87, rfl⟩
abbrev main_v54 : Ref sig .tc := ⟨.hbm, 88, rfl⟩
abbrev main_c_13 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_cst_14 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69_0 : Ref sig .tc := ⟨.hbm, 105, rfl⟩
abbrev main_v69_1 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_cst_15 : Ref sig .tc := ⟨.hbm, 111, rfl⟩
abbrev main_v74 : Ref sig .tc := ⟨.hbm, 112, rfl⟩
abbrev main_cst_16 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_cst_17 : Ref sig .tc := ⟨.hbm, 117, rfl⟩
abbrev main_v78 : Ref sig .tc := ⟨.hbm, 118, rfl⟩
abbrev main_v79 : Ref sig .tc := ⟨.hbm, 119, rfl⟩
abbrev main_cst_18 : Ref sig .tc := ⟨.hbm, 120, rfl⟩
abbrev main_call2_v0 : Ref sig .tc := ⟨.hbm, 121, rfl⟩
abbrev main_call2_v1 : Ref sig .tc := ⟨.hbm, 122, rfl⟩
abbrev main_v80 : Ref sig .tc := ⟨.hbm, 123, rfl⟩
abbrev main_cst_19 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_c_20 : Ref sig .tc := ⟨.hbm, 130, rfl⟩
abbrev main_v86 : Ref sig .tc := ⟨.hbm, 131, rfl⟩
abbrev main_v87 : Ref sig .tc := ⟨.hbm, 132, rfl⟩
abbrev main_c_21 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_cst_22 : Ref sig .tc := ⟨.hbm, 140, rfl⟩
abbrev main_v94 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_v100 : Ref sig .tc := ⟨.hbm, 147, rfl⟩
abbrev main_cst_23 : Ref sig .tc := ⟨.hbm, 148, rfl⟩
abbrev main_v101 : Ref sig .tc := ⟨.hbm, 149, rfl⟩
abbrev main_cst_24 : Ref sig .tc := ⟨.hbm, 150, rfl⟩
abbrev main_v102 : Ref sig .tc := ⟨.hbm, 151, rfl⟩
abbrev main_v103 : Ref sig .tc := ⟨.hbm, 152, rfl⟩
abbrev main_v104 : Ref sig .tc := ⟨.hbm, 153, rfl⟩
abbrev main_cst_25 : Ref sig .tc := ⟨.hbm, 154, rfl⟩
abbrev main_v105 : Ref sig .tc := ⟨.hbm, 155, rfl⟩
abbrev main_v106 : Ref sig .tc := ⟨.hbm, 156, rfl⟩
abbrev main_cst_26 : Ref sig .tc := ⟨.hbm, 157, rfl⟩
abbrev main_call3_v0 : Ref sig .tc := ⟨.hbm, 158, rfl⟩
abbrev main_call3_v1 : Ref sig .tc := ⟨.hbm, 159, rfl⟩
abbrev main_v107 : Ref sig .tc := ⟨.hbm, 160, rfl⟩
abbrev main_cst_27 : Ref sig .tc := ⟨.hbm, 161, rfl⟩
abbrev main_v108 : Ref sig .tc := ⟨.hbm, 162, rfl⟩
abbrev main_v109 : Ref sig .tc := ⟨.hbm, 163, rfl⟩
abbrev main_v110 : Ref sig .tc := ⟨.hbm, 164, rfl⟩
abbrev main_v111 : Ref sig .tc := ⟨.hbm, 165, rfl⟩
abbrev main_v112 : Ref sig .tc := ⟨.hbm, 166, rfl⟩
abbrev main_c_28 : Ref sig .tc := ⟨.hbm, 167, rfl⟩
abbrev main_v113 : Ref sig .tc := ⟨.hbm, 168, rfl⟩
abbrev main_v114 : Ref sig .tc := ⟨.hbm, 169, rfl⟩
abbrev main_c_29 : Ref sig .tc := ⟨.hbm, 170, rfl⟩
abbrev main_v115 : Ref sig .tc := ⟨.hbm, 171, rfl⟩
abbrev main_v116 : Ref sig .tc := ⟨.hbm, 172, rfl⟩
abbrev main_v117 : Ref sig .tc := ⟨.hbm, 173, rfl⟩
abbrev main_v118 : Ref sig .tc := ⟨.hbm, 174, rfl⟩
abbrev main_v119 : Ref sig .tc := ⟨.hbm, 175, rfl⟩
abbrev main_v120 : Ref sig .tc := ⟨.hbm, 176, rfl⟩
abbrev main_cst_30 : Ref sig .tc := ⟨.hbm, 177, rfl⟩
abbrev main_v121 : Ref sig .tc := ⟨.hbm, 178, rfl⟩
abbrev main_v122 : Ref sig .tc := ⟨.hbm, 179, rfl⟩
abbrev main_v123 : Ref sig .tc := ⟨.hbm, 180, rfl⟩
abbrev main_v124 : Ref sig .tc := ⟨.hbm, 181, rfl⟩
abbrev main_v125 : Ref sig .tc := ⟨.hbm, 182, rfl⟩
abbrev main_v126 : Ref sig .tc := ⟨.hbm, 183, rfl⟩
abbrev main_v127 : Ref sig .tc := ⟨.hbm, 184, rfl⟩
abbrev main_v128 : Ref sig .tc := ⟨.hbm, 185, rfl⟩
abbrev main_v129_0 : Ref sig .tc := ⟨.hbm, 186, rfl⟩
abbrev main_v129_1 : Ref sig .tc := ⟨.hbm, 187, rfl⟩
abbrev main_v130 : Ref sig .tc := ⟨.hbm, 188, rfl⟩
abbrev main_v131 : Ref sig .tc := ⟨.hbm, 189, rfl⟩
abbrev main_v132 : Ref sig .tc := ⟨.hbm, 190, rfl⟩
abbrev main_v133 : Ref sig .tc := ⟨.hbm, 191, rfl⟩
abbrev main_cst_31 : Ref sig .tc := ⟨.hbm, 192, rfl⟩
abbrev main_v134 : Ref sig .tc := ⟨.hbm, 193, rfl⟩
abbrev main_cst_32 : Ref sig .tc := ⟨.hbm, 194, rfl⟩
abbrev main_v135 : Ref sig .tc := ⟨.hbm, 195, rfl⟩
abbrev main_v136 : Ref sig .tc := ⟨.hbm, 196, rfl⟩
abbrev main_v137 : Ref sig .tc := ⟨.hbm, 197, rfl⟩
abbrev main_cst_33 : Ref sig .tc := ⟨.hbm, 198, rfl⟩
abbrev main_v138 : Ref sig .tc := ⟨.hbm, 199, rfl⟩
abbrev main_v139 : Ref sig .tc := ⟨.hbm, 200, rfl⟩
abbrev main_cst_34 : Ref sig .tc := ⟨.hbm, 201, rfl⟩
abbrev main_call4_v0 : Ref sig .tc := ⟨.hbm, 202, rfl⟩
abbrev main_call4_v1 : Ref sig .tc := ⟨.hbm, 203, rfl⟩
abbrev main_v140 : Ref sig .tc := ⟨.hbm, 204, rfl⟩
abbrev main_cst_35 : Ref sig .tc := ⟨.hbm, 205, rfl⟩
abbrev main_v141 : Ref sig .tc := ⟨.hbm, 206, rfl⟩
abbrev main_v142 : Ref sig .tc := ⟨.hbm, 207, rfl⟩
abbrev main_v143 : Ref sig .tc := ⟨.hbm, 208, rfl⟩
abbrev main_v144 : Ref sig .tc := ⟨.hbm, 209, rfl⟩
abbrev main_v145 : Ref sig .tc := ⟨.hbm, 210, rfl⟩
abbrev main_c_36 : Ref sig .tc := ⟨.hbm, 211, rfl⟩
abbrev main_v146 : Ref sig .tc := ⟨.hbm, 212, rfl⟩
abbrev main_v147 : Ref sig .tc := ⟨.hbm, 213, rfl⟩
abbrev main_c_37 : Ref sig .tc := ⟨.hbm, 214, rfl⟩
abbrev main_v148 : Ref sig .tc := ⟨.hbm, 215, rfl⟩
abbrev main_v149 : Ref sig .tc := ⟨.hbm, 216, rfl⟩
abbrev main_v150 : Ref sig .tc := ⟨.hbm, 217, rfl⟩
abbrev main_v151 : Ref sig .tc := ⟨.hbm, 218, rfl⟩
abbrev main_v152 : Ref sig .tc := ⟨.hbm, 219, rfl⟩
abbrev main_v153 : Ref sig .tc := ⟨.hbm, 220, rfl⟩
abbrev main_cst_38 : Ref sig .tc := ⟨.hbm, 221, rfl⟩
abbrev main_v154 : Ref sig .tc := ⟨.hbm, 222, rfl⟩
abbrev main_v155 : Ref sig .tc := ⟨.hbm, 223, rfl⟩
abbrev main_v156 : Ref sig .tc := ⟨.hbm, 224, rfl⟩
abbrev main_v157 : Ref sig .tc := ⟨.hbm, 225, rfl⟩
abbrev main_v158 : Ref sig .tc := ⟨.hbm, 226, rfl⟩
abbrev main_v159 : Ref sig .tc := ⟨.hbm, 227, rfl⟩
abbrev main_v160 : Ref sig .tc := ⟨.hbm, 228, rfl⟩
abbrev main_cst_39 : Ref sig .tc := ⟨.hbm, 229, rfl⟩
abbrev main_v161 : Ref sig .tc := ⟨.hbm, 230, rfl⟩
abbrev main_cst_40 : Ref sig .tc := ⟨.hbm, 231, rfl⟩
abbrev main_v162 : Ref sig .tc := ⟨.hbm, 232, rfl⟩
abbrev main_v163 : Ref sig .tc := ⟨.hbm, 233, rfl⟩
abbrev main_v164 : Ref sig .tc := ⟨.hbm, 234, rfl⟩
abbrev main_cst_41 : Ref sig .tc := ⟨.hbm, 235, rfl⟩
abbrev main_v165 : Ref sig .tc := ⟨.hbm, 236, rfl⟩
abbrev main_v166 : Ref sig .tc := ⟨.hbm, 237, rfl⟩
abbrev main_cst_42 : Ref sig .tc := ⟨.hbm, 238, rfl⟩
abbrev main_call5_v0 : Ref sig .tc := ⟨.hbm, 239, rfl⟩
abbrev main_call5_v1 : Ref sig .tc := ⟨.hbm, 240, rfl⟩
abbrev main_v167 : Ref sig .tc := ⟨.hbm, 241, rfl⟩
abbrev main_cst_43 : Ref sig .tc := ⟨.hbm, 242, rfl⟩
abbrev main_v168 : Ref sig .tc := ⟨.hbm, 243, rfl⟩
abbrev main_v169 : Ref sig .tc := ⟨.hbm, 244, rfl⟩
abbrev main_v170 : Ref sig .tc := ⟨.hbm, 245, rfl⟩
abbrev main_v171 : Ref sig .tc := ⟨.hbm, 246, rfl⟩
abbrev main_v172 : Ref sig .tc := ⟨.hbm, 247, rfl⟩
abbrev main_c_44 : Ref sig .tc := ⟨.hbm, 248, rfl⟩
abbrev main_v173 : Ref sig .tc := ⟨.hbm, 249, rfl⟩
abbrev main_v174 : Ref sig .tc := ⟨.hbm, 250, rfl⟩
abbrev main_c_45 : Ref sig .tc := ⟨.hbm, 251, rfl⟩
abbrev main_v175 : Ref sig .tc := ⟨.hbm, 252, rfl⟩
abbrev main_v176 : Ref sig .tc := ⟨.hbm, 253, rfl⟩
abbrev main_v177 : Ref sig .tc := ⟨.hbm, 254, rfl⟩
abbrev main_v178 : Ref sig .tc := ⟨.hbm, 255, rfl⟩
abbrev main_v179 : Ref sig .tc := ⟨.hbm, 256, rfl⟩
abbrev main_v180 : Ref sig .tc := ⟨.hbm, 257, rfl⟩
abbrev main_cst_46 : Ref sig .tc := ⟨.hbm, 258, rfl⟩
abbrev main_v181 : Ref sig .tc := ⟨.hbm, 259, rfl⟩
abbrev main_v182 : Ref sig .tc := ⟨.hbm, 260, rfl⟩
abbrev main_v183 : Ref sig .tc := ⟨.hbm, 261, rfl⟩
abbrev main_v184 : Ref sig .tc := ⟨.hbm, 262, rfl⟩
abbrev main_v185 : Ref sig .tc := ⟨.hbm, 263, rfl⟩
abbrev main_v186 : Ref sig .tc := ⟨.hbm, 264, rfl⟩
abbrev main_v187 : Ref sig .tc := ⟨.hbm, 265, rfl⟩
abbrev main_v188 : Ref sig .tc := ⟨.hbm, 266, rfl⟩
abbrev main_v189_0 : Ref sig .tc := ⟨.hbm, 267, rfl⟩
abbrev main_v189_1 : Ref sig .tc := ⟨.hbm, 268, rfl⟩
abbrev main_v190 : Ref sig .tc := ⟨.hbm, 269, rfl⟩
abbrev main_v191 : Ref sig .tc := ⟨.hbm, 270, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg5_1 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg1_1 : Ref sig .tc := ⟨.vmem, 29, rfl⟩
abbrev cc3_stg2_0 : Ref sig .tc := ⟨.vmem, 30, rfl⟩
abbrev cc3_stg3_0 : Ref sig .tc := ⟨.vmem, 31, rfl⟩
abbrev cc3_stg4_0 : Ref sig .tc := ⟨.vmem, 32, rfl⟩
abbrev cc3_stg5_0 : Ref sig .tc := ⟨.vmem, 33, rfl⟩
abbrev cc3_stg5_1 : Ref sig .tc := ⟨.vmem, 34, rfl⟩
abbrev cc3_stg6_0 : Ref sig .tc := ⟨.vmem, 35, rfl⟩
abbrev cc3_stg6_1 : Ref sig .tc := ⟨.vmem, 36, rfl⟩
abbrev cc3_stg7_0 : Ref sig .tc := ⟨.vmem, 37, rfl⟩
abbrev cc3_stg7_1 : Ref sig .tc := ⟨.vmem, 38, rfl⟩
abbrev cc4_stg0_0 : Ref sig .tc := ⟨.vmem, 39, rfl⟩
abbrev cc4_stg0_1 : Ref sig .tc := ⟨.vmem, 40, rfl⟩
abbrev cc4_stg1_0 : Ref sig .tc := ⟨.vmem, 41, rfl⟩
abbrev cc4_stg1_1 : Ref sig .tc := ⟨.vmem, 42, rfl⟩
abbrev cc4_stg2_0 : Ref sig .tc := ⟨.vmem, 43, rfl⟩
abbrev cc4_stg3_0 : Ref sig .tc := ⟨.vmem, 44, rfl⟩
abbrev cc4_stg4_0 : Ref sig .tc := ⟨.vmem, 45, rfl⟩
abbrev cc4_stg5_0 : Ref sig .tc := ⟨.vmem, 46, rfl⟩
abbrev cc4_stg5_1 : Ref sig .tc := ⟨.vmem, 47, rfl⟩
abbrev cc5_stg0_0 : Ref sig .tc := ⟨.vmem, 48, rfl⟩
abbrev cc5_stg0_1 : Ref sig .tc := ⟨.vmem, 49, rfl⟩
abbrev cc5_stg1_0 : Ref sig .tc := ⟨.vmem, 50, rfl⟩
abbrev cc5_stg1_1 : Ref sig .tc := ⟨.vmem, 51, rfl⟩
abbrev cc5_stg2_0 : Ref sig .tc := ⟨.vmem, 52, rfl⟩
abbrev cc5_stg3_0 : Ref sig .tc := ⟨.vmem, 53, rfl⟩
abbrev cc5_stg4_0 : Ref sig .tc := ⟨.vmem, 54, rfl⟩
abbrev cc5_stg5_0 : Ref sig .tc := ⟨.vmem, 55, rfl⟩
abbrev cc5_stg5_1 : Ref sig .tc := ⟨.vmem, 56, rfl⟩
abbrev cc6_stg0_0 : Ref sig .tc := ⟨.vmem, 57, rfl⟩
abbrev cc6_stg0_1 : Ref sig .tc := ⟨.vmem, 58, rfl⟩
abbrev cc6_stg1_0 : Ref sig .tc := ⟨.vmem, 59, rfl⟩
abbrev cc6_stg1_1 : Ref sig .tc := ⟨.vmem, 60, rfl⟩
abbrev cc6_stg2_0 : Ref sig .tc := ⟨.vmem, 61, rfl⟩
abbrev cc6_stg3_0 : Ref sig .tc := ⟨.vmem, 62, rfl⟩
abbrev cc6_stg4_0 : Ref sig .tc := ⟨.vmem, 63, rfl⟩
abbrev cc6_stg5_0 : Ref sig .tc := ⟨.vmem, 64, rfl⟩
abbrev cc6_stg5_1 : Ref sig .tc := ⟨.vmem, 65, rfl⟩
abbrev cc6_stg6_0 : Ref sig .tc := ⟨.vmem, 66, rfl⟩
abbrev cc6_stg6_1 : Ref sig .tc := ⟨.vmem, 67, rfl⟩
abbrev cc6_stg7_0 : Ref sig .tc := ⟨.vmem, 68, rfl⟩
abbrev cc6_stg7_1 : Ref sig .tc := ⟨.vmem, 69, rfl⟩
abbrev cc7_stg0_0 : Ref sig .tc := ⟨.vmem, 70, rfl⟩
abbrev cc7_stg0_1 : Ref sig .tc := ⟨.vmem, 71, rfl⟩
abbrev cc7_stg1_0 : Ref sig .tc := ⟨.vmem, 72, rfl⟩
abbrev cc7_stg1_1 : Ref sig .tc := ⟨.vmem, 73, rfl⟩
abbrev cc7_stg2_0 : Ref sig .tc := ⟨.vmem, 74, rfl⟩
abbrev cc7_stg3_0 : Ref sig .tc := ⟨.vmem, 75, rfl⟩
abbrev cc7_stg4_0 : Ref sig .tc := ⟨.vmem, 76, rfl⟩
abbrev cc7_stg5_0 : Ref sig .tc := ⟨.vmem, 77, rfl⟩
abbrev cc7_stg5_1 : Ref sig .tc := ⟨.vmem, 78, rfl⟩
abbrev cc8_stg0_0 : Ref sig .tc := ⟨.vmem, 79, rfl⟩
abbrev cc8_stg0_1 : Ref sig .tc := ⟨.vmem, 80, rfl⟩
abbrev cc8_stg1_0 : Ref sig .tc := ⟨.vmem, 81, rfl⟩
abbrev cc8_stg1_1 : Ref sig .tc := ⟨.vmem, 82, rfl⟩
abbrev cc8_stg2_0 : Ref sig .tc := ⟨.vmem, 83, rfl⟩
abbrev cc8_stg3_0 : Ref sig .tc := ⟨.vmem, 84, rfl⟩
abbrev cc8_stg4_0 : Ref sig .tc := ⟨.vmem, 85, rfl⟩
abbrev cc8_stg5_0 : Ref sig .tc := ⟨.vmem, 86, rfl⟩
abbrev cc8_stg5_1 : Ref sig .tc := ⟨.vmem, 87, rfl⟩
abbrev cc9_stg0_0 : Ref sig .tc := ⟨.vmem, 88, rfl⟩
abbrev cc9_stg0_1 : Ref sig .tc := ⟨.vmem, 89, rfl⟩
abbrev cc9_stg1_0 : Ref sig .tc := ⟨.vmem, 90, rfl⟩
abbrev cc9_stg1_1 : Ref sig .tc := ⟨.vmem, 91, rfl⟩
abbrev cc9_stg2_0 : Ref sig .tc := ⟨.vmem, 92, rfl⟩
abbrev cc9_stg3_0 : Ref sig .tc := ⟨.vmem, 93, rfl⟩
abbrev cc9_stg4_0 : Ref sig .tc := ⟨.vmem, 94, rfl⟩
abbrev cc9_stg5_0 : Ref sig .tc := ⟨.vmem, 95, rfl⟩
abbrev cc9_stg5_1 : Ref sig .tc := ⟨.vmem, 96, rfl⟩
abbrev cc9_stg6_0 : Ref sig .tc := ⟨.vmem, 97, rfl⟩
abbrev cc9_stg6_1 : Ref sig .tc := ⟨.vmem, 98, rfl⟩
abbrev cc9_stg7_0 : Ref sig .tc := ⟨.vmem, 99, rfl⟩
abbrev cc9_stg7_1 : Ref sig .tc := ⟨.vmem, 100, rfl⟩
abbrev cc10_stg0_0 : Ref sig .tc := ⟨.vmem, 101, rfl⟩
abbrev cc10_stg0_1 : Ref sig .tc := ⟨.vmem, 102, rfl⟩
abbrev cc10_stg1_0 : Ref sig .tc := ⟨.vmem, 103, rfl⟩
abbrev cc10_stg2_0 : Ref sig .tc := ⟨.vmem, 104, rfl⟩
abbrev cc10_stg3_0 : Ref sig .tc := ⟨.vmem, 105, rfl⟩
abbrev cc10_stg3_1 : Ref sig .tc := ⟨.vmem, 106, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem5_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem3_0 : DmaSem sig := 22
abbrev cc2_sem4_0 : DmaSem sig := 23
abbrev cc2_sem5_0 : DmaSem sig := 24
abbrev cc2_sem5_1 : DmaSem sig := 25
abbrev cc3_sem0_0 : DmaSem sig := 26
abbrev cc3_sem0_1 : DmaSem sig := 27
abbrev cc3_sem1_0 : DmaSem sig := 28
abbrev cc3_sem1_1 : DmaSem sig := 29
abbrev cc3_sem2_0 : DmaSem sig := 30
abbrev cc3_sem3_0 : DmaSem sig := 31
abbrev cc3_sem4_0 : DmaSem sig := 32
abbrev cc3_sem5_0 : DmaSem sig := 33
abbrev cc3_sem5_1 : DmaSem sig := 34
abbrev cc3_sem6_0 : DmaSem sig := 35
abbrev cc3_sem6_1 : DmaSem sig := 36
abbrev cc3_sem7_0 : DmaSem sig := 37
abbrev cc3_sem7_1 : DmaSem sig := 38
abbrev cc4_sem0_0 : DmaSem sig := 39
abbrev cc4_sem0_1 : DmaSem sig := 40
abbrev cc4_sem1_0 : DmaSem sig := 41
abbrev cc4_sem1_1 : DmaSem sig := 42
abbrev cc4_sem2_0 : DmaSem sig := 43
abbrev cc4_sem3_0 : DmaSem sig := 44
abbrev cc4_sem4_0 : DmaSem sig := 45
abbrev cc4_sem5_0 : DmaSem sig := 46
abbrev cc4_sem5_1 : DmaSem sig := 47
abbrev cc5_sem0_0 : DmaSem sig := 48
abbrev cc5_sem0_1 : DmaSem sig := 49
abbrev cc5_sem1_0 : DmaSem sig := 50
abbrev cc5_sem1_1 : DmaSem sig := 51
abbrev cc5_sem2_0 : DmaSem sig := 52
abbrev cc5_sem3_0 : DmaSem sig := 53
abbrev cc5_sem4_0 : DmaSem sig := 54
abbrev cc5_sem5_0 : DmaSem sig := 55
abbrev cc5_sem5_1 : DmaSem sig := 56
abbrev cc6_sem0_0 : DmaSem sig := 57
abbrev cc6_sem0_1 : DmaSem sig := 58
abbrev cc6_sem1_0 : DmaSem sig := 59
abbrev cc6_sem1_1 : DmaSem sig := 60
abbrev cc6_sem2_0 : DmaSem sig := 61
abbrev cc6_sem3_0 : DmaSem sig := 62
abbrev cc6_sem4_0 : DmaSem sig := 63
abbrev cc6_sem5_0 : DmaSem sig := 64
abbrev cc6_sem5_1 : DmaSem sig := 65
abbrev cc6_sem6_0 : DmaSem sig := 66
abbrev cc6_sem6_1 : DmaSem sig := 67
abbrev cc6_sem7_0 : DmaSem sig := 68
abbrev cc6_sem7_1 : DmaSem sig := 69
abbrev cc7_sem0_0 : DmaSem sig := 70
abbrev cc7_sem0_1 : DmaSem sig := 71
abbrev cc7_sem1_0 : DmaSem sig := 72
abbrev cc7_sem1_1 : DmaSem sig := 73
abbrev cc7_sem2_0 : DmaSem sig := 74
abbrev cc7_sem3_0 : DmaSem sig := 75
abbrev cc7_sem4_0 : DmaSem sig := 76
abbrev cc7_sem5_0 : DmaSem sig := 77
abbrev cc7_sem5_1 : DmaSem sig := 78
abbrev cc8_sem0_0 : DmaSem sig := 79
abbrev cc8_sem0_1 : DmaSem sig := 80
abbrev cc8_sem1_0 : DmaSem sig := 81
abbrev cc8_sem1_1 : DmaSem sig := 82
abbrev cc8_sem2_0 : DmaSem sig := 83
abbrev cc8_sem3_0 : DmaSem sig := 84
abbrev cc8_sem4_0 : DmaSem sig := 85
abbrev cc8_sem5_0 : DmaSem sig := 86
abbrev cc8_sem5_1 : DmaSem sig := 87
abbrev cc9_sem0_0 : DmaSem sig := 88
abbrev cc9_sem0_1 : DmaSem sig := 89
abbrev cc9_sem1_0 : DmaSem sig := 90
abbrev cc9_sem1_1 : DmaSem sig := 91
abbrev cc9_sem2_0 : DmaSem sig := 92
abbrev cc9_sem3_0 : DmaSem sig := 93
abbrev cc9_sem4_0 : DmaSem sig := 94
abbrev cc9_sem5_0 : DmaSem sig := 95
abbrev cc9_sem5_1 : DmaSem sig := 96
abbrev cc9_sem6_0 : DmaSem sig := 97
abbrev cc9_sem6_1 : DmaSem sig := 98
abbrev cc9_sem7_0 : DmaSem sig := 99
abbrev cc9_sem7_1 : DmaSem sig := 100
abbrev cc10_sem0_0 : DmaSem sig := 101
abbrev cc10_sem0_1 : DmaSem sig := 102
abbrev cc10_sem1_0 : DmaSem sig := 103
abbrev cc10_sem2_0 : DmaSem sig := 104
abbrev cc10_sem3_0 : DmaSem sig := 105
abbrev cc10_sem3_1 : DmaSem sig := 106

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S10000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S64x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S10000x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S10000x64 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev stage3_7 : Fin 2 → Memref sig .tc .vmem S10000x64 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S10000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S64x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S64x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S10000x64 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S10000x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S64x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S64x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S10000x64 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_6 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_7 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S10000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S10000x64 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S64x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S64x64 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x64 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S10000x64 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev stage6_6 : Fin 2 → Memref sig .tc .vmem S10000x64 .f32 := fun | 0 => Memref.whole cc6_stg6_0 | 1 => Memref.whole cc6_stg6_1 | ⟨_ + 2, h⟩ => absurd h (Nat.not_lt.2 (Nat.le_add_left _ _))
abbrev sem6_6 : Fin 2 → DmaSem sig := fun | 0 => cc6_sem6_0 | 1 => cc6_sem6_1 | ⟨_ + 2, h⟩ => absurd h (Nat.not_lt.2 (Nat.le_add_left _ _))
abbrev reads6_6 : Fin grid6.rank → Bool := ![true]

abbrev stage6_7 : Fin 2 → Memref sig .tc .vmem S10000x64 .f32 := fun | 0 => Memref.whole cc6_stg7_0 | 1 => Memref.whole cc6_stg7_1 | ⟨_ + 2, h⟩ => absurd h (Nat.not_lt.2 (Nat.le_add_left _ _))
abbrev sem6_7 : Fin 2 → DmaSem sig := fun | 0 => cc6_sem7_0 | 1 => cc6_sem7_1 | ⟨_ + 2, h⟩ => absurd h (Nat.not_lt.2 (Nat.le_add_left _ _))
abbrev reads6_7 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S10000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S10000x64 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S64x64 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S64x64 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x64 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 2 → Memref sig .tc .vmem S10000x64 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

abbrev grid8 : Pipeline.Grid := ⟨1, ![10], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S10000x64 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S10000x64 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 1 → Memref sig .tc .vmem S64x64 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S64x64 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x64 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 2 → Memref sig .tc .vmem S10000x64 .f32 := fun | 0 => Memref.whole cc8_stg5_0 | 1 => Memref.whole cc8_stg5_1 | ⟨_ + 2, h⟩ => absurd h (Nat.not_lt.2 (Nat.le_add_left _ _))
abbrev sem8_5 : Fin 2 → DmaSem sig := fun | 0 => cc8_sem5_0 | 1 => cc8_sem5_1 | ⟨_ + 2, h⟩ => absurd h (Nat.not_lt.2 (Nat.le_add_left _ _))
abbrev reads8_5 : Fin grid8.rank → Bool := ![true]

abbrev grid9 : Pipeline.Grid := ⟨1, ![10], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_5 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_6 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_7 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S10000x64 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S10000x64 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 1 → Memref sig .tc .vmem S64x64 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S64x64 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S1x64 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 2 → Memref sig .tc .vmem S10000x64 .f32 := fun | 0 => Memref.whole cc9_stg5_0 | 1 => Memref.whole cc9_stg5_1 | ⟨_ + 2, h⟩ => absurd h (Nat.not_lt.2 (Nat.le_add_left _ _))
abbrev sem9_5 : Fin 2 → DmaSem sig := fun | 0 => cc9_sem5_0 | 1 => cc9_sem5_1 | ⟨_ + 2, h⟩ => absurd h (Nat.not_lt.2 (Nat.le_add_left _ _))
abbrev reads9_5 : Fin grid9.rank → Bool := ![true]

abbrev stage9_6 : Fin 2 → Memref sig .tc .vmem S10000x64 .f32 := fun | 0 => Memref.whole cc9_stg6_0 | 1 => Memref.whole cc9_stg6_1 | ⟨_ + 2, h⟩ => absurd h (Nat.not_lt.2 (Nat.le_add_left _ _))
abbrev sem9_6 : Fin 2 → DmaSem sig := fun | 0 => cc9_sem6_0 | 1 => cc9_sem6_1 | ⟨_ + 2, h⟩ => absurd h (Nat.not_lt.2 (Nat.le_add_left _ _))
abbrev reads9_6 : Fin grid9.rank → Bool := ![true]

abbrev stage9_7 : Fin 2 → Memref sig .tc .vmem S10000x64 .f32 := fun | 0 => Memref.whole cc9_stg7_0 | 1 => Memref.whole cc9_stg7_1 | ⟨_ + 2, h⟩ => absurd h (Nat.not_lt.2 (Nat.le_add_left _ _))
abbrev sem9_7 : Fin 2 → DmaSem sig := fun | 0 => cc9_sem7_0 | 1 => cc9_sem7_1 | ⟨_ + 2, h⟩ => absurd h (Nat.not_lt.2 (Nat.le_add_left _ _))
abbrev reads9_7 : Fin grid9.rank → Bool := ![true]

abbrev grid10 : Pipeline.Grid := ⟨1, ![10], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S10000x64 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S64x2 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 1 → Memref sig .tc .vmem S1x2 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 2 → Memref sig .tc .vmem S10000x2 .f32 := fun | 0 => Memref.whole cc10_stg3_0 | 1 => Memref.whole cc10_stg3_1 | ⟨_ + 2, h⟩ => absurd h (Nat.not_lt.2 (Nat.le_add_left _ _))
abbrev sem10_3 : Fin 2 → DmaSem sig := fun | 0 => cc10_sem3_0 | 1 => cc10_sem3_1 | ⟨_ + 2, h⟩ => absurd h (Nat.not_lt.2 (Nat.le_add_left _ _))
abbrev reads10_3 : Fin grid10.rank → Bool := ![true]

class Facts₀ : Prop where
  shapeCasts_S64_S1x64 : S64.ShapeCasts S1x64
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  slices_S128x64_S64x64_0_0 : S128x64.Slices ![0, 0] S64x64
  slices_S128x64_S64x64_64_0 : S128x64.Slices ![64, 0] S64x64
  bcast_S_S100000x64 : S_.BroadcastsInDim S100000x64 (![] : Fin 0 → Fin S100000x64.rank)
  slices_S3x1000000_S1x1000000_0_0 : S3x1000000.Slices ![0, 0] S1x1000000
  shapeCasts_S1x1000000_S1000000 : S1x1000000.ShapeCasts S1000000
  bcast_S_S1000000 : S_.BroadcastsInDim S1000000 (![] : Fin 0 → Fin S1000000.rank)
  bcast_S_S100000 : S_.BroadcastsInDim S100000 (![] : Fin 0 → Fin S100000.rank)
  bcast_S1000000_S1000000x1_0 : S1000000.BroadcastsInDim S1000000x1 (![0] : Fin 1 → Fin S1000000x1.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  shapeCasts_S10000x64_S10000x64 : S10000x64.ShapeCasts S10000x64
  shapeCasts_S64x64_S64x64 : S64x64.ShapeCasts S64x64
  slices_S3x1000000_S1x1000000_1_0 : S3x1000000.Slices ![1, 0] S1x1000000
  slices_S3x1000000_S1x1000000_2_0 : S3x1000000.Slices ![2, 0] S1x1000000
  shapeCasts_S2_S1x2 : S2.ShapeCasts S1x2
  inb_S64x2_S64x2_0_0 : ∀ a, (![0, 0] : Fin 2 → Nat) a + S64x2.size a ≤ S64x2.size a
  h_S64x2 : 0 < S64x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S10000x2 : S1x2.Broadcasts S10000x2
  inb_S10000x2_S10000x2_0_0 : ∀ a, (![0, 0] : Fin 2 → Nat) a + S10000x2.size a ≤ S10000x2.size a
  h_S10000x2 : 0 < S10000x2.numel
  dot_S10000x64_S64x64_S10000x64_1_0_0_1_n_n_wf : DotDims.WF S10000x64 S64x64 S10000x64 [1] [0] [0] [1] [] []
  scatter_S100000_S1000000x1_S1000000_n_0_0_1_wf : ScatterDims.WF S100000 S1000000x1 S1000000 [] [0] [0] 1
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  dot_S10000x64_S64x2_S10000x2_1_0_0_1_n_n_wf : DotDims.WF S10000x64 S64x2 S10000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x64.size a ≤ S100000x64.size a
  hwx0_5 : ∀ i : grid0.Coords, EltTy.bits .f32 = 32 ∨ (Rect.block (s := S100000x64) S10000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S100000x64.size a
  hwx1_1 : ∀ i : grid1.Coords, EltTy.bits .f32 = 32 ∨ (Rect.block (s := S100000x64) S10000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x64.size a ≤ S100000x64.size a
  hwx1_5 : ∀ i : grid1.Coords, EltTy.bits .f32 = 32 ∨ (Rect.block (s := S100000x64) S10000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x64.size a ≤ S100000x64.size a
  hwx2_1 : ∀ i : grid2.Coords, EltTy.bits .f32 = 32 ∨ (Rect.block (s := S100000x64) S10000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .f32 = 32 ∨ (Rect.block (s := S64x64) S64x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S10000x64.size a ≤ S100000x64.size a
  hwx2_5 : ∀ i : grid2.Coords, EltTy.bits .f32 = 32 ∨ (Rect.block (s := S100000x64) S10000x64.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x64.size a ≤ S100000x64.size a
  hwx3_1 : ∀ i : grid3.Coords, EltTy.bits .f32 = 32 ∨ (Rect.block (s := S100000x64) S10000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x64.size a ≤ S64x64.size a
  hwx3_2 : ∀ i : grid3.Coords, EltTy.bits .f32 = 32 ∨ (Rect.block (s := S64x64) S64x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x64.size a ≤ S64x64.size a
  hwx3_3 : ∀ i : grid3.Coords, EltTy.bits .f32 = 32 ∨ (Rect.block (s := S64x64) S64x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S10000x64.size a ≤ S100000x64.size a
  hwx3_5 : ∀ i : grid3.Coords, EltTy.bits .f32 = 32 ∨ (Rect.block (s := S100000x64) S10000x64.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S10000x64.size a ≤ S100000x64.size a
  hwx3_6 : ∀ i : grid3.Coords, EltTy.bits .f32 = 32 ∨ (Rect.block (s := S100000x64) S10000x64.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S10000x64.size a ≤ S100000x64.size a
  hwx3_7 : ∀ i : grid3.Coords, EltTy.bits .f32 = 32 ∨ (Rect.block (s := S100000x64) S10000x64.size (cc3_transform_7 i) (hinb3_7 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S100000x64.size a
  hwx4_0 : ∀ i : grid4.Coords, EltTy.bits .f32 = 32 ∨ (Rect.block (s := S100000x64) S10000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S10000x64.size a ≤ S100000x64.size a
  hwx4_1 : ∀ i : grid4.Coords, EltTy.bits .f32 = 32 ∨ (Rect.block (s := S100000x64) S10000x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S64x64.size a ≤ S64x64.size a
  hwx4_2 : ∀ i : grid4.Coords, EltTy.bits .f32 = 32 ∨ (Rect.block (s := S64x64) S64x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S64x64.size a ≤ S64x64.size a
  hwx4_3 : ∀ i : grid4.Coords, EltTy.bits .f32 = 32 ∨ (Rect.block (s := S64x64) S64x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x64.size a ≤ S1x64.size a
  hwx4_4 : ∀ i : grid4.Coords, EltTy.bits .f32 = 32 ∨ (Rect.block (s := S1x64) S1x64.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S10000x64.size a ≤ S100000x64.size a
  hwx4_5 : ∀ i : grid4.Coords, EltTy.bits .f32 = 32 ∨ (Rect.block (s := S100000x64) S10000x64.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x64.size a ≤ S100000x64.size a
  hwx5_0 : ∀ i : grid5.Coords, EltTy.bits .f32 = 32 ∨ (Rect.block (s := S100000x64) S10000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S10000x64.size a ≤ S100000x64.size a
  hwx5_1 : ∀ i : grid5.Coords, EltTy.bits .f32 = 32 ∨ (Rect.block (s := S100000x64) S10000x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S64x64.size a ≤ S64x64.size a
  hwx5_2 : ∀ i : grid5.Coords, EltTy.bits .f32 = 32 ∨ (Rect.block (s := S64x64) S64x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S64x64.size a ≤ S64x64.size a
  hwx5_3 : ∀ i : grid5.Coords, EltTy.bits .f32 = 32 ∨ (Rect.block (s := S64x64) S64x64.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x64.size a ≤ S1x64.size a
  hwx5_4 : ∀ i : grid5.Coords, EltTy.bits .f32 = 32 ∨ (Rect.block (s := S1x64) S1x64.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S10000x64.size a ≤ S100000x64.size a
  hwx5_5 : ∀ i : grid5.Coords, EltTy.bits .f32 = 32 ∨ (Rect.block (s := S100000x64) S10000x64.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S10000x64.size a ≤ S100000x64.size a
  hwx6_0 : ∀ i : grid6.Coords, EltTy.bits .f32 = 32 ∨ (Rect.block (s := S100000x64) S10000x64.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S10000x64.size a ≤ S100000x64.size a
  hwx6_1 : ∀ i : grid6.Coords, EltTy.bits .f32 = 32 ∨ (Rect.block (s := S100000x64) S10000x64.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S64x64.size a ≤ S64x64.size a
  hwx6_2 : ∀ i : grid6.Coords, EltTy.bits .f32 = 32 ∨ (Rect.block (s := S64x64) S64x64.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S64x64.size a ≤ S64x64.size a
  hwx6_3 : ∀ i : grid6.Coords, EltTy.bits .f32 = 32 ∨ (Rect.block (s := S64x64) S64x64.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x64.size a ≤ S1x64.size a
  hwx6_4 : ∀ i : grid6.Coords, EltTy.bits .f32 = 32 ∨ (Rect.block (s := S1x64) S1x64.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S10000x64.size a ≤ S100000x64.size a
  hwx6_5 : ∀ i : grid6.Coords, EltTy.bits .f32 = 32 ∨ (Rect.block (s := S100000x64) S10000x64.size (cc6_transform_5 i) (hinb6_5 i)).WholeWords (EltTy.packing .f32)
  hstage6_6 : ∀ j, (stage6_6 j).IsWhole
  nbuf6_6 : grid6.bufCount reads6_6 false = 2
  hreads6_6 : ∀ i i' : grid6.Coords, (∀ a, reads6_6 a = true → i a = i' a) → cc6_transform_6 i = cc6_transform_6 i'
  hinb6_6 : ∀ (i : grid6.Coords) a, (cc6_transform_6 i a + 1) * S10000x64.size a ≤ S100000x64.size a
  hwx6_6 : ∀ i : grid6.Coords, EltTy.bits .f32 = 32 ∨ (Rect.block (s := S100000x64) S10000x64.size (cc6_transform_6 i) (hinb6_6 i)).WholeWords (EltTy.packing .f32)
  hstage6_7 : ∀ j, (stage6_7 j).IsWhole
  nbuf6_7 : grid6.bufCount reads6_7 false = 2
  hreads6_7 : ∀ i i' : grid6.Coords, (∀ a, reads6_7 a = true → i a = i' a) → cc6_transform_7 i = cc6_transform_7 i'
  hinb6_7 : ∀ (i : grid6.Coords) a, (cc6_transform_7 i a + 1) * S10000x64.size a ≤ S100000x64.size a
  hwx6_7 : ∀ i : grid6.Coords, EltTy.bits .f32 = 32 ∨ (Rect.block (s := S100000x64) S10000x64.size (cc6_transform_7 i) (hinb6_7 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S10000x64.size a ≤ S100000x64.size a
  hwx7_0 : ∀ i : grid7.Coords, EltTy.bits .f32 = 32 ∨ (Rect.block (s := S100000x64) S10000x64.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S10000x64.size a ≤ S100000x64.size a
  hwx7_1 : ∀ i : grid7.Coords, EltTy.bits .f32 = 32 ∨ (Rect.block (s := S100000x64) S10000x64.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S64x64.size a ≤ S64x64.size a
  hwx7_2 : ∀ i : grid7.Coords, EltTy.bits .f32 = 32 ∨ (Rect.block (s := S64x64) S64x64.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S64x64.size a ≤ S64x64.size a
  hwx7_3 : ∀ i : grid7.Coords, EltTy.bits .f32 = 32 ∨ (Rect.block (s := S64x64) S64x64.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x64.size a ≤ S1x64.size a
  hwx7_4 : ∀ i : grid7.Coords, EltTy.bits .f32 = 32 ∨ (Rect.block (s := S1x64) S1x64.size (cc7_transform_4 i) (hinb7_4 i)).WholeWords (EltTy.packing .f32)
  hstage7_5 : ∀ j, (stage7_5 j).IsWhole
  nbuf7_5 : grid7.bufCount reads7_5 false = 2
  hreads7_5 : ∀ i i' : grid7.Coords, (∀ a, reads7_5 a = true → i a = i' a) → cc7_transform_5 i = cc7_transform_5 i'
  hinb7_5 : ∀ (i : grid7.Coords) a, (cc7_transform_5 i a + 1) * S10000x64.size a ≤ S100000x64.size a
  hwx7_5 : ∀ i : grid7.Coords, EltTy.bits .f32 = 32 ∨ (Rect.block (s := S100000x64) S10000x64.size (cc7_transform_5 i) (hinb7_5 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S10000x64.size a ≤ S100000x64.size a
  hwx8_0 : ∀ i : grid8.Coords, EltTy.bits .f32 = 32 ∨ (Rect.block (s := S100000x64) S10000x64.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S10000x64.size a ≤ S100000x64.size a
  hwx8_1 : ∀ i : grid8.Coords, EltTy.bits .f32 = 32 ∨ (Rect.block (s := S100000x64) S10000x64.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S64x64.size a ≤ S64x64.size a
  hwx8_2 : ∀ i : grid8.Coords, EltTy.bits .f32 = 32 ∨ (Rect.block (s := S64x64) S64x64.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S64x64.size a ≤ S64x64.size a
  hwx8_3 : ∀ i : grid8.Coords, EltTy.bits .f32 = 32 ∨ (Rect.block (s := S64x64) S64x64.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x64.size a ≤ S1x64.size a
  hwx8_4 : ∀ i : grid8.Coords, EltTy.bits .f32 = 32 ∨ (Rect.block (s := S1x64) S1x64.size (cc8_transform_4 i) (hinb8_4 i)).WholeWords (EltTy.packing .f32)
  hstage8_5 : ∀ j, (stage8_5 j).IsWhole
  nbuf8_5 : grid8.bufCount reads8_5 false = 2
  hreads8_5 : ∀ i i' : grid8.Coords, (∀ a, reads8_5 a = true → i a = i' a) → cc8_transform_5 i = cc8_transform_5 i'
  hinb8_5 : ∀ (i : grid8.Coords) a, (cc8_transform_5 i a + 1) * S10000x64.size a ≤ S100000x64.size a
  hwx8_5 : ∀ i : grid8.Coords, EltTy.bits .f32 = 32 ∨ (Rect.block (s := S100000x64) S10000x64.size (cc8_transform_5 i) (hinb8_5 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S10000x64.size a ≤ S100000x64.size a
  hwx9_0 : ∀ i : grid9.Coords, EltTy.bits .f32 = 32 ∨ (Rect.block (s := S100000x64) S10000x64.size (cc9_transform_0 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S10000x64.size a ≤ S100000x64.size a
  hwx9_1 : ∀ i : grid9.Coords, EltTy.bits .f32 = 32 ∨ (Rect.block (s := S100000x64) S10000x64.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S64x64.size a ≤ S64x64.size a
  hwx9_2 : ∀ i : grid9.Coords, EltTy.bits .f32 = 32 ∨ (Rect.block (s := S64x64) S64x64.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S64x64.size a ≤ S64x64.size a
  hwx9_3 : ∀ i : grid9.Coords, EltTy.bits .f32 = 32 ∨ (Rect.block (s := S64x64) S64x64.size (cc9_transform_3 i) (hinb9_3 i)).WholeWords (EltTy.packing .f32)
  hstage9_4 : ∀ j, (stage9_4 j).IsWhole
  nbuf9_4 : grid9.bufCount reads9_4 true = 1
  hreads9_4 : ∀ i i' : grid9.Coords, (∀ a, reads9_4 a = true → i a = i' a) → cc9_transform_4 i = cc9_transform_4 i'
  hinb9_4 : ∀ (i : grid9.Coords) a, (cc9_transform_4 i a + 1) * S1x64.size a ≤ S1x64.size a
  hwx9_4 : ∀ i : grid9.Coords, EltTy.bits .f32 = 32 ∨ (Rect.block (s := S1x64) S1x64.size (cc9_transform_4 i) (hinb9_4 i)).WholeWords (EltTy.packing .f32)
  hstage9_5 : ∀ j, (stage9_5 j).IsWhole
  nbuf9_5 : grid9.bufCount reads9_5 false = 2
  hreads9_5 : ∀ i i' : grid9.Coords, (∀ a, reads9_5 a = true → i a = i' a) → cc9_transform_5 i = cc9_transform_5 i'
  hinb9_5 : ∀ (i : grid9.Coords) a, (cc9_transform_5 i a + 1) * S10000x64.size a ≤ S100000x64.size a
  hwx9_5 : ∀ i : grid9.Coords, EltTy.bits .f32 = 32 ∨ (Rect.block (s := S100000x64) S10000x64.size (cc9_transform_5 i) (hinb9_5 i)).WholeWords (EltTy.packing .f32)
  hstage9_6 : ∀ j, (stage9_6 j).IsWhole
  nbuf9_6 : grid9.bufCount reads9_6 false = 2
  hreads9_6 : ∀ i i' : grid9.Coords, (∀ a, reads9_6 a = true → i a = i' a) → cc9_transform_6 i = cc9_transform_6 i'
  hinb9_6 : ∀ (i : grid9.Coords) a, (cc9_transform_6 i a + 1) * S10000x64.size a ≤ S100000x64.size a
  hwx9_6 : ∀ i : grid9.Coords, EltTy.bits .f32 = 32 ∨ (Rect.block (s := S100000x64) S10000x64.size (cc9_transform_6 i) (hinb9_6 i)).WholeWords (EltTy.packing .f32)
  hstage9_7 : ∀ j, (stage9_7 j).IsWhole
  nbuf9_7 : grid9.bufCount reads9_7 false = 2
  hreads9_7 : ∀ i i' : grid9.Coords, (∀ a, reads9_7 a = true → i a = i' a) → cc9_transform_7 i = cc9_transform_7 i'
  hinb9_7 : ∀ (i : grid9.Coords) a, (cc9_transform_7 i a + 1) * S10000x64.size a ≤ S100000x64.size a
  hwx9_7 : ∀ i : grid9.Coords, EltTy.bits .f32 = 32 ∨ (Rect.block (s := S100000x64) S10000x64.size (cc9_transform_7 i) (hinb9_7 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S10000x64.size a ≤ S100000x64.size a
  hwx10_0 : ∀ i : grid10.Coords, EltTy.bits .f32 = 32 ∨ (Rect.block (s := S100000x64) S10000x64.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S64x2.size a ≤ S64x2.size a
  hwx10_1 : ∀ i : grid10.Coords, EltTy.bits .f32 = 32 ∨ (Rect.block (s := S64x2) S64x2.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S1x2.size a ≤ S1x2.size a
  hwx10_2 : ∀ i : grid10.Coords, EltTy.bits .f32 = 32 ∨ (Rect.block (s := S1x2) S1x2.size (cc10_transform_2 i) (hinb10_2 i)).WholeWords (EltTy.packing .f32)
  hstage10_3 : ∀ j, (stage10_3 j).IsWhole
  nbuf10_3 : grid10.bufCount reads10_3 false = 2
  hreads10_3 : ∀ i i' : grid10.Coords, (∀ a, reads10_3 a = true → i a = i' a) → cc10_transform_3 i = cc10_transform_3 i'
  hinb10_3 : ∀ (i : grid10.Coords) a, (cc10_transform_3 i a + 1) * S10000x2.size a ≤ S100000x2.size a
  hwx10_3 : ∀ i : grid10.Coords, EltTy.bits .f32 = 32 ∨ (Rect.block (s := S100000x2) S10000x2.size (cc10_transform_3 i) (hinb10_3 i)).WholeWords (EltTy.packing .f32)

variable [Facts₀]

def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def dot_S10000x64_S64x2_S10000x2_1_0_0_1_n_n : DotDims S10000x64 S64x2 S10000x2 where
  lhsContracting := [1]
  rhsContracting := [0]
  lhsNonContracting := [0]
  rhsNonContracting := [1]
  lhsBatch := []
  rhsBatch := []
  wf := dot_S10000x64_S64x2_S10000x2_1_0_0_1_n_n_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S10000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v2) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v38) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v4) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v39) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v40) S10000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v40) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v65) S10000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v5) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v6) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v66) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v67) S10000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v40) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v67) S10000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v7) S64x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v8) S64x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v68) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v9) S10000x64.size cc3_transform_5 reads3_5 false false 2 stage3_5 sem3_5
    hrank3 hreads3_5 hinb3_5 nbuf3_5 (Memref.isWhole_whole _) hwx3_5 hstage3_5

abbrev win3_6 : Pipeline.Window sig grid3 :=
  Pipeline.Window.ofSpec (Memref.whole main_v69_0) S10000x64.size cc3_transform_6 reads3_6 true false 2 stage3_6 sem3_6
    hrank3 hreads3_6 hinb3_6 nbuf3_6 (Memref.isWhole_whole _) hwx3_6 hstage3_6

abbrev win3_7 : Pipeline.Window sig grid3 :=
  Pipeline.Window.ofSpec (Memref.whole main_v69_1) S10000x64.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

abbrev win4_0 : Pipeline.Window sig grid4 :=
  Pipeline.Window.ofSpec (Memref.whole main_v69_0) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v98) S10000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v3) S64x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v4) S64x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v99) S1x64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v100) S10000x64.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v100) S10000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v125) S10000x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v5) S64x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v6) S64x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v126) S1x64.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v127) S10000x64.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v100) S10000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v127) S10000x64.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v7) S64x64.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v8) S64x64.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v128) S1x64.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v69_1) S10000x64.size cc6_transform_5 reads6_5 false false 2 stage6_5 sem6_5
    hrank6 hreads6_5 hinb6_5 nbuf6_5 (Memref.isWhole_whole _) hwx6_5 hstage6_5

abbrev win6_6 : Pipeline.Window sig grid6 :=
  Pipeline.Window.ofSpec (Memref.whole main_v129_0) S10000x64.size cc6_transform_6 reads6_6 true false 2 stage6_6 sem6_6
    hrank6 hreads6_6 hinb6_6 nbuf6_6 (Memref.isWhole_whole _) hwx6_6 hstage6_6

abbrev win6_7 : Pipeline.Window sig grid6 :=
  Pipeline.Window.ofSpec (Memref.whole main_v129_1) S10000x64.size cc6_transform_7 reads6_7 true false 2 stage6_7 sem6_7
    hrank6 hreads6_7 hinb6_7 nbuf6_7 (Memref.isWhole_whole _) hwx6_7 hstage6_7

abbrev win6 : Fin 8 → Pipeline.Window sig grid6 := fun | 0 => win6_0 | 1 => win6_1 | 2 => win6_2 | 3 => win6_3 | 4 => win6_4 | 5 => win6_5 | 6 => win6_6 | 7 => win6_7 | ⟨_ + 8, h⟩ => absurd h (Nat.not_lt.2 (Nat.le_add_left _ _))
abbrev spec6 : Fin 8 → Pipeline.WinSpec sig grid6.rank := fun w => (win6 w).toWinSpec

abbrev win7_0 : Pipeline.Window sig grid7 :=
  Pipeline.Window.ofSpec (Memref.whole main_v129_0) S10000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v158) S10000x64.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v3) S64x64.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v4) S64x64.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v159) S1x64.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v160) S10000x64.size cc7_transform_5 reads7_5 true false 2 stage7_5 sem7_5
    hrank7 hreads7_5 hinb7_5 nbuf7_5 (Memref.isWhole_whole _) hwx7_5 hstage7_5

abbrev win7 : Fin 6 → Pipeline.Window sig grid7 := fun | 0 => win7_0 | 1 => win7_1 | 2 => win7_2 | 3 => win7_3 | 4 => win7_4 | 5 => win7_5 | ⟨_ + 6, h⟩ => absurd h (Nat.not_lt.2 (Nat.le_add_left _ _))
abbrev spec7 : Fin 6 → Pipeline.WinSpec sig grid7.rank := fun w => (win7 w).toWinSpec

abbrev win8_0 : Pipeline.Window sig grid8 :=
  Pipeline.Window.ofSpec (Memref.whole main_v160) S10000x64.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v185) S10000x64.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v5) S64x64.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v6) S64x64.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v186) S1x64.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v187) S10000x64.size cc8_transform_5 reads8_5 true false 2 stage8_5 sem8_5
    hrank8 hreads8_5 hinb8_5 nbuf8_5 (Memref.isWhole_whole _) hwx8_5 hstage8_5

abbrev win8 : Fin 6 → Pipeline.Window sig grid8 := fun | 0 => win8_0 | 1 => win8_1 | 2 => win8_2 | 3 => win8_3 | 4 => win8_4 | 5 => win8_5 | ⟨_ + 6, h⟩ => absurd h (Nat.not_lt.2 (Nat.le_add_left _ _))
abbrev spec8 : Fin 6 → Pipeline.WinSpec sig grid8.rank := fun w => (win8 w).toWinSpec

abbrev win9_0 : Pipeline.Window sig grid9 :=
  Pipeline.Window.ofSpec (Memref.whole main_v160) S10000x64.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v187) S10000x64.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v7) S64x64.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v8) S64x64.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v188) S1x64.size cc9_transform_4 reads9_4 false true 1 stage9_4 sem9_4
    hrank9 hreads9_4 hinb9_4 nbuf9_4 (Memref.isWhole_whole _) hwx9_4 hstage9_4

abbrev win9_5 : Pipeline.Window sig grid9 :=
  Pipeline.Window.ofSpec (Memref.whole main_v129_1) S10000x64.size cc9_transform_5 reads9_5 false false 2 stage9_5 sem9_5
    hrank9 hreads9_5 hinb9_5 nbuf9_5 (Memref.isWhole_whole _) hwx9_5 hstage9_5

abbrev win9_6 : Pipeline.Window sig grid9 :=
  Pipeline.Window.ofSpec (Memref.whole main_v189_0) S10000x64.size cc9_transform_6 reads9_6 true false 2 stage9_6 sem9_6
    hrank9 hreads9_6 hinb9_6 nbuf9_6 (Memref.isWhole_whole _) hwx9_6 hstage9_6

abbrev win9_7 : Pipeline.Window sig grid9 :=
  Pipeline.Window.ofSpec (Memref.whole main_v189_1) S10000x64.size cc9_transform_7 reads9_7 true false 2 stage9_7 sem9_7
    hrank9 hreads9_7 hinb9_7 nbuf9_7 (Memref.isWhole_whole _) hwx9_7 hstage9_7

abbrev win9 : Fin 8 → Pipeline.Window sig grid9 := fun | 0 => win9_0 | 1 => win9_1 | 2 => win9_2 | 3 => win9_3 | 4 => win9_4 | 5 => win9_5 | 6 => win9_6 | 7 => win9_7 | ⟨_ + 8, h⟩ => absurd h (Nat.not_lt.2 (Nat.le_add_left _ _))
abbrev spec9 : Fin 8 → Pipeline.WinSpec sig grid9.rank := fun w => (win9 w).toWinSpec

abbrev win10_0 : Pipeline.Window sig grid10 :=
  Pipeline.Window.ofSpec (Memref.whole main_v189_1) S10000x64.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_arg13) S64x2.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_v190) S1x2.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_v191) S10000x2.size cc10_transform_3 reads10_3 true false 2 stage10_3 sem10_3
    hrank10 hreads10_3 hinb10_3 nbuf10_3 (Memref.isWhole_whole _) hwx10_3 hstage10_3

abbrev win10 : Fin 4 → Pipeline.Window sig grid10 := fun | 0 => win10_0 | 1 => win10_1 | 2 => win10_2 | 3 => win10_3 | ⟨_ + 4, h⟩ => absurd h (Nat.not_lt.2 (Nat.le_add_left _ _))
abbrev spec10 : Fin 4 → Pipeline.WinSpec sig grid10.rank := fun w => (win10 w).toWinSpec

class Facts : Prop extends Facts₀ where

variable [Facts]
-- ==== ReferenceIdeal.lean ====
abbrev S100000x64 : Shape := ⟨2, ![100000, 64]⟩
abbrev S3x1000000 : Shape := ⟨2, ![3, 1000000]⟩
abbrev S64x64 : Shape := ⟨2, ![64, 64]⟩
abbrev S64 : Shape := ⟨1, ![64]⟩
abbrev S128x64 : Shape := ⟨2, ![128, 64]⟩
abbrev S64x2 : Shape := ⟨2, ![64, 2]⟩
abbrev S2 : Shape := ⟨1, ![2]⟩
abbrev S1x64 : Shape := ⟨2, ![1, 64]⟩
abbrev S_ : Shape := ⟨0, ![]⟩
abbrev S1x1000000 : Shape := ⟨2, ![1, 1000000]⟩
abbrev S1000000 : Shape := ⟨1, ![1000000]⟩
abbrev S100000 : Shape := ⟨1, ![100000]⟩
abbrev S1000000x1 : Shape := ⟨2, ![1000000, 1]⟩
abbrev S100000x1 : Shape := ⟨2, ![100000, 1]⟩
abbrev S1000000x64 : Shape := ⟨2, ![1000000, 64]⟩
abbrev S100000x128 : Shape := ⟨2, ![100000, 128]⟩
abbrev S100000x2 : Shape := ⟨2, ![100000, 2]⟩
abbrev S1x2 : Shape := ⟨2, ![1, 2]⟩

abbrev nBuf : Space → Nat
  | .hbm => 341
  | .vmem => 0
  | .smem => 0
  | _ => 0

abbrev hbmTy0_0 (i : Nat) : BufTy := match i % 128 with
  | 0 => ⟨S100000x64, .f32⟩
  | 1 => ⟨S3x1000000, .i32⟩
  | 2 => ⟨S3x1000000, .i32⟩
  | 3 => ⟨S64x64, .f32⟩
  | 4 => ⟨S64, .f32⟩
  | 5 => ⟨S64x64, .f32⟩
  | 6 => ⟨S64, .f32⟩
  | 7 => ⟨S128x64, .f32⟩
  | 8 => ⟨S64, .f32⟩
  | 9 => ⟨S128x64, .f32⟩
  | 10 => ⟨S64, .f32⟩
  | 11 => ⟨S128x64, .f32⟩
  | 12 => ⟨S64, .f32⟩
  | 13 => ⟨S64x2, .f32⟩
  | 14 => ⟨S2, .f32⟩
  | 15 => ⟨S100000x64, .f32⟩
  | 16 => ⟨S1x64, .f32⟩
  | 17 => ⟨S100000x64, .f32⟩
  | 18 => ⟨S100000x64, .f32⟩
  | 19 => ⟨S_, .f32⟩
  | 20 => ⟨S_, .f32⟩
  | 21 => ⟨S100000x64, .f32⟩
  | 22 => ⟨S100000x64, .i1⟩
  | 23 => ⟨S_, .f32⟩
  | 24 => ⟨S100000x64, .f32⟩
  | 25 => ⟨S100000x64, .f32⟩
  | 26 => ⟨S100000x64, .f32⟩
  | 27 => ⟨S100000x64, .f32⟩
  | 28 => ⟨S1x64, .f32⟩
  | 29 => ⟨S100000x64, .f32⟩
  | 30 => ⟨S100000x64, .f32⟩
  | 31 => ⟨S_, .f32⟩
  | 32 => ⟨S_, .f32⟩
  | 33 => ⟨S100000x64, .f32⟩
  | 34 => ⟨S100000x64, .i1⟩
  | 35 => ⟨S_, .f32⟩
  | 36 => ⟨S100000x64, .f32⟩
  | 37 => ⟨S100000x64, .f32⟩
  | 38 => ⟨S100000x64, .f32⟩
  | 39 => ⟨S_, .f32⟩
  | 40 => ⟨S100000x64, .f32⟩
  | 41 => ⟨S1x1000000, .i32⟩
  | 42 => ⟨S1000000, .i32⟩
  | 43 => ⟨S1x1000000, .i32⟩
  | 44 => ⟨S1000000, .i32⟩
  | 45 => ⟨S_, .f32⟩
  | 46 => ⟨S1000000, .f32⟩
  | 47 => ⟨S_, .f32⟩
  | 48 => ⟨S100000, .f32⟩
  | 49 => ⟨S1000000x1, .i32⟩
  | 50 => ⟨S100000, .f32⟩
  | 51 => ⟨S_, .f32⟩
  | 52 => ⟨S100000, .f32⟩
  | 53 => ⟨S100000, .i1⟩
  | 54 => ⟨S_, .f32⟩
  | 55 => ⟨S_, .f32⟩
  | 56 => ⟨S100000, .f32⟩
  | 57 => ⟨S100000, .f32⟩
  | 58 => ⟨S_, .f32⟩
  | 59 => ⟨S100000, .f32⟩
  | 60 => ⟨S100000, .f32⟩
  | 61 => ⟨S100000x1, .f32⟩
  | 62 => ⟨S100000x64, .f32⟩
  | 63 => ⟨S100000x64, .f32⟩
  | 64 => ⟨S_, .i32⟩
  | 65 => ⟨S1000000, .i32⟩
  | 66 => ⟨S1000000, .i1⟩
  | 67 => ⟨S_, .i32⟩
  | 68 => ⟨S1000000, .i32⟩
  | 69 => ⟨S1000000, .i32⟩
  | 70 => ⟨S1000000, .i32⟩
  | 71 => ⟨S1000000x1, .i32⟩
  | 72 => ⟨S1000000x64, .f32⟩
  | 73 => ⟨S100000x1, .f32⟩
  | 74 => ⟨S_, .f32⟩
  | 75 => ⟨S100000x64, .f32⟩
  | 76 => ⟨S1000000x1, .i32⟩
  | 77 => ⟨S100000x64, .f32⟩
  | 78 => ⟨S100000x64, .f32⟩
  | 79 => ⟨S100000x64, .f32⟩
  | 80 => ⟨S100000x64, .f32⟩
  | 81 => ⟨S100000x128, .f32⟩
  | 82 => ⟨S100000x64, .f32⟩
  | 83 => ⟨S1x64, .f32⟩
  | 84 => ⟨S100000x64, .f32⟩
  | 85 => ⟨S100000x64, .f32⟩
  | 86 => ⟨S1x1000000, .i32⟩
  | 87 => ⟨S1000000, .i32⟩
  | 88 => ⟨S1x1000000, .i32⟩
  | 89 => ⟨S1000000, .i32⟩
  | 90 => ⟨S_, .f32⟩
  | 91 => ⟨S1000000, .f32⟩
  | 92 => ⟨S_, .f32⟩
  | 93 => ⟨S100000, .f32⟩
  | 94 => ⟨S1000000x1, .i32⟩
  | 95 => ⟨S100000, .f32⟩
  | 96 => ⟨S_, .f32⟩
  | 97 => ⟨S100000, .f32⟩
  | 98 => ⟨S100000, .i1⟩
  | 99 => ⟨S_, .f32⟩
  | 100 => ⟨S_, .f32⟩
  | 101 => ⟨S100000, .f32⟩
  | 102 => ⟨S100000, .f32⟩
  | 103 => ⟨S_, .f32⟩
  | 104 => ⟨S100000, .f32⟩
  | 105 => ⟨S100000, .f32⟩
  | 106 => ⟨S100000x1, .f32⟩
  | 107 => ⟨S100000x64, .f32⟩
  | 108 => ⟨S100000x64, .f32⟩
  | 109 => ⟨S_, .i32⟩
  | 110 => ⟨S1000000, .i32⟩
  | 111 => ⟨S1000000, .i1⟩
  | 112 => ⟨S_, .i32⟩
  | 113 => ⟨S1000000, .i32⟩
  | 114 => ⟨S1000000, .i32⟩
  | 115 => ⟨S1000000, .i32⟩
  | 116 => ⟨S1000000x1, .i32⟩
  | 117 => ⟨S1000000x64, .f32⟩
  | 118 => ⟨S100000x1, .f32⟩
  | 119 => ⟨S_, .f32⟩
  | 120 => ⟨S100000x64, .f32⟩
  | 121 => ⟨S1000000x1, .i32⟩
  | 122 => ⟨S100000x64, .f32⟩
  | 123 => ⟨S100000x64, .f32⟩
  | 124 => ⟨S100000x64, .f32⟩
  | 125 => ⟨S100000x64, .f32⟩
  | 126 => ⟨S100000x128, .f32⟩
  | 127 => ⟨S100000x64, .f32⟩
  | _ => ⟨S100000x64, .f32⟩

abbrev hbmTy0_1 (i : Nat) : BufTy := match i % 128 with
  | 0 => ⟨S1x64, .f32⟩
  | 1 => ⟨S100000x64, .f32⟩
  | 2 => ⟨S100000x64, .f32⟩
  | 3 => ⟨S100000x128, .f32⟩
  | 4 => ⟨S100000x64, .f32⟩
  | 5 => ⟨S1x64, .f32⟩
  | 6 => ⟨S100000x64, .f32⟩
  | 7 => ⟨S100000x64, .f32⟩
  | 8 => ⟨S100000x64, .f32⟩
  | 9 => ⟨S1x1000000, .i32⟩
  | 10 => ⟨S1000000, .i32⟩
  | 11 => ⟨S1x1000000, .i32⟩
  | 12 => ⟨S1000000, .i32⟩
  | 13 => ⟨S_, .f32⟩
  | 14 => ⟨S1000000, .f32⟩
  | 15 => ⟨S_, .f32⟩
  | 16 => ⟨S100000, .f32⟩
  | 17 => ⟨S1000000x1, .i32⟩
  | 18 => ⟨S100000, .f32⟩
  | 19 => ⟨S_, .f32⟩
  | 20 => ⟨S100000, .f32⟩
  | 21 => ⟨S100000, .i1⟩
  | 22 => ⟨S_, .f32⟩
  | 23 => ⟨S_, .f32⟩
  | 24 => ⟨S100000, .f32⟩
  | 25 => ⟨S100000, .f32⟩
  | 26 => ⟨S_, .f32⟩
  | 27 => ⟨S100000, .f32⟩
  | 28 => ⟨S100000, .f32⟩
  | 29 => ⟨S100000x1, .f32⟩
  | 30 => ⟨S100000x64, .f32⟩
  | 31 => ⟨S100000x64, .f32⟩
  | 32 => ⟨S_, .i32⟩
  | 33 => ⟨S1000000, .i32⟩
  | 34 => ⟨S1000000, .i1⟩
  | 35 => ⟨S_, .i32⟩
  | 36 => ⟨S1000000, .i32⟩
  | 37 => ⟨S1000000, .i32⟩
  | 38 => ⟨S1000000, .i32⟩
  | 39 => ⟨S1000000x1, .i32⟩
  | 40 => ⟨S1000000x64, .f32⟩
  | 41 => ⟨S100000x1, .f32⟩
  | 42 => ⟨S_, .f32⟩
  | 43 => ⟨S100000x64, .f32⟩
  | 44 => ⟨S1000000x1, .i32⟩
  | 45 => ⟨S100000x64, .f32⟩
  | 46 => ⟨S100000x64, .f32⟩
  | 47 => ⟨S100000x64, .f32⟩
  | 48 => ⟨S100000x64, .f32⟩
  | 49 => ⟨S100000x128, .f32⟩
  | 50 => ⟨S100000x64, .f32⟩
  | 51 => ⟨S1x64, .f32⟩
  | 52 => ⟨S100000x64, .f32⟩
  | 53 => ⟨S100000x64, .f32⟩
  | 54 => ⟨S1x1000000, .i32⟩
  | 55 => ⟨S1000000, .i32⟩
  | 56 => ⟨S1x1000000, .i32⟩
  | 57 => ⟨S1000000, .i32⟩
  | 58 => ⟨S_, .f32⟩
  | 59 => ⟨S1000000, .f32⟩
  | 60 => ⟨S_, .f32⟩
  | 61 => ⟨S100000, .f32⟩
  | 62 => ⟨S1000000x1, .i32⟩
  | 63 => ⟨S100000, .f32⟩
  | 64 => ⟨S_, .f32⟩
  | 65 => ⟨S100000, .f32⟩
  | 66 => ⟨S100000, .i1⟩
  | 67 => ⟨S_, .f32⟩
  | 68 => ⟨S_, .f32⟩
  | 69 => ⟨S100000, .f32⟩
  | 70 => ⟨S100000, .f32⟩
  | 71 => ⟨S_, .f32⟩
  | 72 => ⟨S100000, .f32⟩
  | 73 => ⟨S100000, .f32⟩
  | 74 => ⟨S100000x1, .f32⟩
  | 75 => ⟨S100000x64, .f32⟩
  | 76 => ⟨S100000x64, .f32⟩
  | 77 => ⟨S_, .i32⟩
  | 78 => ⟨S1000000, .i32⟩
  | 79 => ⟨S1000000, .i1⟩
  | 80 => ⟨S_, .i32⟩
  | 81 => ⟨S1000000, .i32⟩
  | 82 => ⟨S1000000, .i32⟩
  | 83 => ⟨S1000000, .i32⟩
  | 84 => ⟨S1000000x1, .i32⟩
  | 85 => ⟨S1000000x64, .f32⟩
  | 86 => ⟨S100000x1, .f32⟩
  | 87 => ⟨S_, .f32⟩
  | 88 => ⟨S100000x64, .f32⟩
  | 89 => ⟨S1000000x1, .i32⟩
  | 90 => ⟨S100000x64, .f32⟩
  | 91 => ⟨S100000x64, .f32⟩
  | 92 => ⟨S100000x64, .f32⟩
  | 93 => ⟨S100000x64, .f32⟩
  | 94 => ⟨S100000x128, .f32⟩
  | 95 => ⟨S100000x64, .f32⟩
  | 96 => ⟨S1x64, .f32⟩
  | 97 => ⟨S100000x64, .f32⟩
  | 98 => ⟨S100000x64, .f32⟩
  | 99 => ⟨S100000x128, .f32⟩
  | 100 => ⟨S100000x64, .f32⟩
  | 101 => ⟨S1x64, .f32⟩
  | 102 => ⟨S100000x64, .f32⟩
  | 103 => ⟨S100000x64, .f32⟩
  | 104 => ⟨S100000x64, .f32⟩
  | 105 => ⟨S1x1000000, .i32⟩
  | 106 => ⟨S1000000, .i32⟩
  | 107 => ⟨S1x1000000, .i32⟩
  | 108 => ⟨S1000000, .i32⟩
  | 109 => ⟨S_, .f32⟩
  | 110 => ⟨S1000000, .f32⟩
  | 111 => ⟨S_, .f32⟩
  | 112 => ⟨S100000, .f32⟩
  | 113 => ⟨S1000000x1, .i32⟩
  | 114 => ⟨S100000, .f32⟩
  | 115 => ⟨S_, .f32⟩
  | 116 => ⟨S100000, .f32⟩
  | 117 => ⟨S100000, .i1⟩
  | 118 => ⟨S_, .f32⟩
  | 119 => ⟨S_, .f32⟩
  | 120 => ⟨S100000, .f32⟩
  | 121 => ⟨S100000, .f32⟩
  | 122 => ⟨S_, .f32⟩
  | 123 => ⟨S100000, .f32⟩
  | 124 => ⟨S100000, .f32⟩
  | 125 => ⟨S100000x1, .f32⟩
  | 126 => ⟨S100000x64, .f32⟩
  | 127 => ⟨S100000x64, .f32⟩
  | _ => ⟨S100000x64, .f32⟩

abbrev hbmTy0_2 (i : Nat) : BufTy := match i % 128 with
  | 0 => ⟨S_, .i32⟩
  | 1 => ⟨S1000000, .i32⟩
  | 2 => ⟨S1000000, .i1⟩
  | 3 => ⟨S_, .i32⟩
  | 4 => ⟨S1000000, .i32⟩
  | 5 => ⟨S1000000, .i32⟩
  | 6 => ⟨S1000000, .i32⟩
  | 7 => ⟨S1000000x1, .i32⟩
  | 8 => ⟨S1000000x64, .f32⟩
  | 9 => ⟨S100000x1, .f32⟩
  | 10 => ⟨S_, .f32⟩
  | 11 => ⟨S100000x64, .f32⟩
  | 12 => ⟨S1000000x1, .i32⟩
  | 13 => ⟨S100000x64, .f32⟩
  | 14 => ⟨S100000x64, .f32⟩
  | 15 => ⟨S100000x64, .f32⟩
  | 16 => ⟨S100000x64, .f32⟩
  | 17 => ⟨S100000x128, .f32⟩
  | 18 => ⟨S100000x64, .f32⟩
  | 19 => ⟨S1x64, .f32⟩
  | 20 => ⟨S100000x64, .f32⟩
  | 21 => ⟨S100000x64, .f32⟩
  | 22 => ⟨S1x1000000, .i32⟩
  | 23 => ⟨S1000000, .i32⟩
  | 24 => ⟨S1x1000000, .i32⟩
  | 25 => ⟨S1000000, .i32⟩
  | 26 => ⟨S_, .f32⟩
  | 27 => ⟨S1000000, .f32⟩
  | 28 => ⟨S_, .f32⟩
  | 29 => ⟨S100000, .f32⟩
  | 30 => ⟨S1000000x1, .i32⟩
  | 31 => ⟨S100000, .f32⟩
  | 32 => ⟨S_, .f32⟩
  | 33 => ⟨S100000, .f32⟩
  | 34 => ⟨S100000, .i1⟩
  | 35 => ⟨S_, .f32⟩
  | 36 => ⟨S_, .f32⟩
  | 37 => ⟨S100000, .f32⟩
  | 38 => ⟨S100000, .f32⟩
  | 39 => ⟨S_, .f32⟩
  | 40 => ⟨S100000, .f32⟩
  | 41 => ⟨S100000, .f32⟩
  | 42 => ⟨S100000x1, .f32⟩
  | 43 => ⟨S100000x64, .f32⟩
  | 44 => ⟨S100000x64, .f32⟩
  | 45 => ⟨S_, .i32⟩
  | 46 => ⟨S1000000, .i32⟩
  | 47 => ⟨S1000000, .i1⟩
  | 48 => ⟨S_, .i32⟩
  | 49 => ⟨S1000000, .i32⟩
  | 50 => ⟨S1000000, .i32⟩
  | 51 => ⟨S1000000, .i32⟩
  | 52 => ⟨S1000000x1, .i32⟩
  | 53 => ⟨S1000000x64, .f32⟩
  | 54 => ⟨S100000x1, .f32⟩
  | 55 => ⟨S_, .f32⟩
  | 56 => ⟨S100000x64, .f32⟩
  | 57 => ⟨S1000000x1, .i32⟩
  | 58 => ⟨S100000x64, .f32⟩
  | 59 => ⟨S100000x64, .f32⟩
  | 60 => ⟨S100000x64, .f32⟩
  | 61 => ⟨S100000x64, .f32⟩
  | 62 => ⟨S100000x128, .f32⟩
  | 63 => ⟨S100000x64, .f32⟩
  | 64 => ⟨S1x64, .f32⟩
  | 65 => ⟨S100000x64, .f32⟩
  | 66 => ⟨S100000x64, .f32⟩
  | 67 => ⟨S100000x128, .f32⟩
  | 68 => ⟨S100000x64, .f32⟩
  | 69 => ⟨S1x64, .f32⟩
  | 70 => ⟨S100000x64, .f32⟩
  | 71 => ⟨S100000x64, .f32⟩
  | 72 => ⟨S100000x64, .f32⟩
  | 73 => ⟨S_, .f32⟩
  | 74 => ⟨S_, .f32⟩
  | 75 => ⟨S100000x64, .f32⟩
  | 76 => ⟨S100000x64, .i1⟩
  | 77 => ⟨S_, .f32⟩
  | 78 => ⟨S100000x64, .f32⟩
  | 79 => ⟨S100000x64, .f32⟩
  | 80 => ⟨S100000x64, .f32⟩
  | 81 => ⟨S100000x2, .f32⟩
  | 82 => ⟨S1x2, .f32⟩
  | 83 => ⟨S100000x2, .f32⟩
  | 84 => ⟨S100000x2, .f32⟩
  | _ => ⟨S100000x64, .f32⟩

abbrev hbmTy (i : Nat) : BufTy := match i / 128 with
  | 0 => hbmTy0_0 i
  | 1 => hbmTy0_1 i
  | 2 => hbmTy0_2 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst : Ref sig .tc := ⟨.hbm, 19, rfl⟩
abbrev main_call0_cst : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_cst_0 : Ref sig .tc := ⟨.hbm, 31, rfl⟩
abbrev main_call1_cst : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_v9 : Ref sig .tc := ⟨.hbm, 38, rfl⟩
abbrev main_cst_1 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_cst_2 : Ref sig .tc := ⟨.hbm, 45, rfl⟩
abbrev main_v15 : Ref sig .tc := ⟨.hbm, 46, rfl⟩
abbrev main_cst_3 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_cst_4 : Ref sig .tc := ⟨.hbm, 51, rfl⟩
abbrev main_v19 : Ref sig .tc := ⟨.hbm, 52, rfl⟩
abbrev main_v20 : Ref sig .tc := ⟨.hbm, 53, rfl⟩
abbrev main_cst_5 : Ref sig .tc := ⟨.hbm, 54, rfl⟩
abbrev main_call2_v0 : Ref sig .tc := ⟨.hbm, 55, rfl⟩
abbrev main_call2_v1 : Ref sig .tc := ⟨.hbm, 56, rfl⟩
abbrev main_v21 : Ref sig .tc := ⟨.hbm, 57, rfl⟩
abbrev main_cst_6 : Ref sig .tc := ⟨.hbm, 58, rfl⟩
abbrev main_v22 : Ref sig .tc := ⟨.hbm, 59, rfl⟩
abbrev main_v23 : Ref sig .tc := ⟨.hbm, 60, rfl⟩
abbrev main_v24 : Ref sig .tc := ⟨.hbm, 61, rfl⟩
abbrev main_v25 : Ref sig .tc := ⟨.hbm, 62, rfl⟩
abbrev main_v26 : Ref sig .tc := ⟨.hbm, 63, rfl⟩
abbrev main_c : Ref sig .tc := ⟨.hbm, 64, rfl⟩
abbrev main_v27 : Ref sig .tc := ⟨.hbm, 65, rfl⟩
abbrev main_v28 : Ref sig .tc := ⟨.hbm, 66, rfl⟩
abbrev main_c_7 : Ref sig .tc := ⟨.hbm, 67, rfl⟩
abbrev main_v29 : Ref sig .tc := ⟨.hbm, 68, rfl⟩
abbrev main_v30 : Ref sig .tc := ⟨.hbm, 69, rfl⟩
abbrev main_v31 : Ref sig .tc := ⟨.hbm, 70, rfl⟩
abbrev main_v32 : Ref sig .tc := ⟨.hbm, 71, rfl⟩
abbrev main_v33 : Ref sig .tc := ⟨.hbm, 72, rfl⟩
abbrev main_v34 : Ref sig .tc := ⟨.hbm, 73, rfl⟩
abbrev main_cst_8 : Ref sig .tc := ⟨.hbm, 74, rfl⟩
abbrev main_v35 : Ref sig .tc := ⟨.hbm, 75, rfl⟩
abbrev main_v36 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_cst_9 : Ref sig .tc := ⟨.hbm, 90, rfl⟩
abbrev main_v50 : Ref sig .tc := ⟨.hbm, 91, rfl⟩
abbrev main_cst_10 : Ref sig .tc := ⟨.hbm, 92, rfl⟩
abbrev main_v51 : Ref sig .tc := ⟨.hbm, 93, rfl⟩
abbrev main_v52 : Ref sig .tc := ⟨.hbm, 94, rfl⟩
abbrev main_v53 : Ref sig .tc := ⟨.hbm, 95, rfl⟩
abbrev main_cst_11 : Ref sig .tc := ⟨.hbm, 96, rfl⟩
abbrev main_v54 : Ref sig .tc := ⟨.hbm, 97, rfl⟩
abbrev main_v55 : Ref sig .tc := ⟨.hbm, 98, rfl⟩
abbrev main_cst_12 : Ref sig .tc := ⟨.hbm, 99, rfl⟩
abbrev main_call3_v0 : Ref sig .tc := ⟨.hbm, 100, rfl⟩
abbrev main_call3_v1 : Ref sig .tc := ⟨.hbm, 101, rfl⟩
abbrev main_v56 : Ref sig .tc := ⟨.hbm, 102, rfl⟩
abbrev main_cst_13 : Ref sig .tc := ⟨.hbm, 103, rfl⟩
abbrev main_v57 : Ref sig .tc := ⟨.hbm, 104, rfl⟩
abbrev main_v58 : Ref sig .tc := ⟨.hbm, 105, rfl⟩
abbrev main_v59 : Ref sig .tc := ⟨.hbm, 106, rfl⟩
abbrev main_v60 : Ref sig .tc := ⟨.hbm, 107, rfl⟩
abbrev main_v61 : Ref sig .tc := ⟨.hbm, 108, rfl⟩
abbrev main_c_14 : Ref sig .tc := ⟨.hbm, 109, rfl⟩
abbrev main_v62 : Ref sig .tc := ⟨.hbm, 110, rfl⟩
abbrev main_v63 : Ref sig .tc := ⟨.hbm, 111, rfl⟩
abbrev main_c_15 : Ref sig .tc := ⟨.hbm, 112, rfl⟩
abbrev main_v64 : Ref sig .tc := ⟨.hbm, 113, rfl⟩
abbrev main_v65 : Ref sig .tc := ⟨.hbm, 114, rfl⟩
abbrev main_v66 : Ref sig .tc := ⟨.hbm, 115, rfl⟩
abbrev main_v67 : Ref sig .tc := ⟨.hbm, 116, rfl⟩
abbrev main_v68 : Ref sig .tc := ⟨.hbm, 117, rfl⟩
abbrev main_v69 : Ref sig .tc := ⟨.hbm, 118, rfl⟩
abbrev main_cst_16 : Ref sig .tc := ⟨.hbm, 119, rfl⟩
abbrev main_v70 : Ref sig .tc := ⟨.hbm, 120, rfl⟩
abbrev main_v71 : Ref sig .tc := ⟨.hbm, 121, rfl⟩
abbrev main_v72 : Ref sig .tc := ⟨.hbm, 122, rfl⟩
abbrev main_v73 : Ref sig .tc := ⟨.hbm, 123, rfl⟩
abbrev main_v74 : Ref sig .tc := ⟨.hbm, 124, rfl⟩
abbrev main_v75 : Ref sig .tc := ⟨.hbm, 125, rfl⟩
abbrev main_v76 : Ref sig .tc := ⟨.hbm, 126, rfl⟩
abbrev main_v77 : Ref sig .tc := ⟨.hbm, 127, rfl⟩
abbrev main_v78 : Ref sig .tc := ⟨.hbm, 128, rfl⟩
abbrev main_v79 : Ref sig .tc := ⟨.hbm, 129, rfl⟩
abbrev main_v80 : Ref sig .tc := ⟨.hbm, 130, rfl⟩
abbrev main_v81 : Ref sig .tc := ⟨.hbm, 131, rfl⟩
abbrev main_v82 : Ref sig .tc := ⟨.hbm, 132, rfl⟩
abbrev main_v83 : Ref sig .tc := ⟨.hbm, 133, rfl⟩
abbrev main_v84 : Ref sig .tc := ⟨.hbm, 134, rfl⟩
abbrev main_v85 : Ref sig .tc := ⟨.hbm, 135, rfl⟩
abbrev main_v86 : Ref sig .tc := ⟨.hbm, 136, rfl⟩
abbrev main_v87 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_cst_17 : Ref sig .tc := ⟨.hbm, 141, rfl⟩
abbrev main_v91 : Ref sig .tc := ⟨.hbm, 142, rfl⟩
abbrev main_cst_18 : Ref sig .tc := ⟨.hbm, 143, rfl⟩
abbrev main_v92 : Ref sig .tc := ⟨.hbm, 144, rfl⟩
abbrev main_v93 : Ref sig .tc := ⟨.hbm, 145, rfl⟩
abbrev main_v94 : Ref sig .tc := ⟨.hbm, 146, rfl⟩
abbrev main_cst_19 : Ref sig .tc := ⟨.hbm, 147, rfl⟩
abbrev main_v95 : Ref sig .tc := ⟨.hbm, 148, rfl⟩
abbrev main_v96 : Ref sig .tc := ⟨.hbm, 149, rfl⟩
abbrev main_cst_20 : Ref sig .tc := ⟨.hbm, 150, rfl⟩
abbrev main_call4_v0 : Ref sig .tc := ⟨.hbm, 151, rfl⟩
abbrev main_call4_v1 : Ref sig .tc := ⟨.hbm, 152, rfl⟩
abbrev main_v97 : Ref sig .tc := ⟨.hbm, 153, rfl⟩
abbrev main_cst_21 : Ref sig .tc := ⟨.hbm, 154, rfl⟩
abbrev main_v98 : Ref sig .tc := ⟨.hbm, 155, rfl⟩
abbrev main_v99 : Ref sig .tc := ⟨.hbm, 156, rfl⟩
abbrev main_v100 : Ref sig .tc := ⟨.hbm, 157, rfl⟩
abbrev main_v101 : Ref sig .tc := ⟨.hbm, 158, rfl⟩
abbrev main_v102 : Ref sig .tc := ⟨.hbm, 159, rfl⟩
abbrev main_c_22 : Ref sig .tc := ⟨.hbm, 160, rfl⟩
abbrev main_v103 : Ref sig .tc := ⟨.hbm, 161, rfl⟩
abbrev main_v104 : Ref sig .tc := ⟨.hbm, 162, rfl⟩
abbrev main_c_23 : Ref sig .tc := ⟨.hbm, 163, rfl⟩
abbrev main_v105 : Ref sig .tc := ⟨.hbm, 164, rfl⟩
abbrev main_v106 : Ref sig .tc := ⟨.hbm, 165, rfl⟩
abbrev main_v107 : Ref sig .tc := ⟨.hbm, 166, rfl⟩
abbrev main_v108 : Ref sig .tc := ⟨.hbm, 167, rfl⟩
abbrev main_v109 : Ref sig .tc := ⟨.hbm, 168, rfl⟩
abbrev main_v110 : Ref sig .tc := ⟨.hbm, 169, rfl⟩
abbrev main_cst_24 : Ref sig .tc := ⟨.hbm, 170, rfl⟩
abbrev main_v111 : Ref sig .tc := ⟨.hbm, 171, rfl⟩
abbrev main_v112 : Ref sig .tc := ⟨.hbm, 172, rfl⟩
abbrev main_v113 : Ref sig .tc := ⟨.hbm, 173, rfl⟩
abbrev main_v114 : Ref sig .tc := ⟨.hbm, 174, rfl⟩
abbrev main_v115 : Ref sig .tc := ⟨.hbm, 175, rfl⟩
abbrev main_v116 : Ref sig .tc := ⟨.hbm, 176, rfl⟩
abbrev main_v117 : Ref sig .tc := ⟨.hbm, 177, rfl⟩
abbrev main_v118 : Ref sig .tc := ⟨.hbm, 178, rfl⟩
abbrev main_v119 : Ref sig .tc := ⟨.hbm, 179, rfl⟩
abbrev main_v120 : Ref sig .tc := ⟨.hbm, 180, rfl⟩
abbrev main_v121 : Ref sig .tc := ⟨.hbm, 181, rfl⟩
abbrev main_v122 : Ref sig .tc := ⟨.hbm, 182, rfl⟩
abbrev main_v123 : Ref sig .tc := ⟨.hbm, 183, rfl⟩
abbrev main_v124 : Ref sig .tc := ⟨.hbm, 184, rfl⟩
abbrev main_v125 : Ref sig .tc := ⟨.hbm, 185, rfl⟩
abbrev main_cst_25 : Ref sig .tc := ⟨.hbm, 186, rfl⟩
abbrev main_v126 : Ref sig .tc := ⟨.hbm, 187, rfl⟩
abbrev main_cst_26 : Ref sig .tc := ⟨.hbm, 188, rfl⟩
abbrev main_v127 : Ref sig .tc := ⟨.hbm, 189, rfl⟩
abbrev main_v128 : Ref sig .tc := ⟨.hbm, 190, rfl⟩
abbrev main_v129 : Ref sig .tc := ⟨.hbm, 191, rfl⟩
abbrev main_cst_27 : Ref sig .tc := ⟨.hbm, 192, rfl⟩
abbrev main_v130 : Ref sig .tc := ⟨.hbm, 193, rfl⟩
abbrev main_v131 : Ref sig .tc := ⟨.hbm, 194, rfl⟩
abbrev main_cst_28 : Ref sig .tc := ⟨.hbm, 195, rfl⟩
abbrev main_call5_v0 : Ref sig .tc := ⟨.hbm, 196, rfl⟩
abbrev main_call5_v1 : Ref sig .tc := ⟨.hbm, 197, rfl⟩
abbrev main_v132 : Ref sig .tc := ⟨.hbm, 198, rfl⟩
abbrev main_cst_29 : Ref sig .tc := ⟨.hbm, 199, rfl⟩
abbrev main_v133 : Ref sig .tc := ⟨.hbm, 200, rfl⟩
abbrev main_v134 : Ref sig .tc := ⟨.hbm, 201, rfl⟩
abbrev main_v135 : Ref sig .tc := ⟨.hbm, 202, rfl⟩
abbrev main_v136 : Ref sig .tc := ⟨.hbm, 203, rfl⟩
abbrev main_v137 : Ref sig .tc := ⟨.hbm, 204, rfl⟩
abbrev main_c_30 : Ref sig .tc := ⟨.hbm, 205, rfl⟩
abbrev main_v138 : Ref sig .tc := ⟨.hbm, 206, rfl⟩
abbrev main_v139 : Ref sig .tc := ⟨.hbm, 207, rfl⟩
abbrev main_c_31 : Ref sig .tc := ⟨.hbm, 208, rfl⟩
abbrev main_v140 : Ref sig .tc := ⟨.hbm, 209, rfl⟩
abbrev main_v141 : Ref sig .tc := ⟨.hbm, 210, rfl⟩
abbrev main_v142 : Ref sig .tc := ⟨.hbm, 211, rfl⟩
abbrev main_v143 : Ref sig .tc := ⟨.hbm, 212, rfl⟩
abbrev main_v144 : Ref sig .tc := ⟨.hbm, 213, rfl⟩
abbrev main_v145 : Ref sig .tc := ⟨.hbm, 214, rfl⟩
abbrev main_cst_32 : Ref sig .tc := ⟨.hbm, 215, rfl⟩
abbrev main_v146 : Ref sig .tc := ⟨.hbm, 216, rfl⟩
abbrev main_v147 : Ref sig .tc := ⟨.hbm, 217, rfl⟩
abbrev main_v148 : Ref sig .tc := ⟨.hbm, 218, rfl⟩
abbrev main_v149 : Ref sig .tc := ⟨.hbm, 219, rfl⟩
abbrev main_v150 : Ref sig .tc := ⟨.hbm, 220, rfl⟩
abbrev main_v151 : Ref sig .tc := ⟨.hbm, 221, rfl⟩
abbrev main_v152 : Ref sig .tc := ⟨.hbm, 222, rfl⟩
abbrev main_v153 : Ref sig .tc := ⟨.hbm, 223, rfl⟩
abbrev main_v154 : Ref sig .tc := ⟨.hbm, 224, rfl⟩
abbrev main_v155 : Ref sig .tc := ⟨.hbm, 225, rfl⟩
abbrev main_v156 : Ref sig .tc := ⟨.hbm, 226, rfl⟩
abbrev main_v157 : Ref sig .tc := ⟨.hbm, 227, rfl⟩
abbrev main_v158 : Ref sig .tc := ⟨.hbm, 228, rfl⟩
abbrev main_v159 : Ref sig .tc := ⟨.hbm, 229, rfl⟩
abbrev main_v160 : Ref sig .tc := ⟨.hbm, 230, rfl⟩
abbrev main_v161 : Ref sig .tc := ⟨.hbm, 231, rfl⟩
abbrev main_v162 : Ref sig .tc := ⟨.hbm, 232, rfl⟩
abbrev main_v163 : Ref sig .tc := ⟨.hbm, 233, rfl⟩
abbrev main_v164 : Ref sig .tc := ⟨.hbm, 234, rfl⟩
abbrev main_v165 : Ref sig .tc := ⟨.hbm, 235, rfl⟩
abbrev main_v166 : Ref sig .tc := ⟨.hbm, 236, rfl⟩
abbrev main_cst_33 : Ref sig .tc := ⟨.hbm, 237, rfl⟩
abbrev main_v167 : Ref sig .tc := ⟨.hbm, 238, rfl⟩
abbrev main_cst_34 : Ref sig .tc := ⟨.hbm, 239, rfl⟩
abbrev main_v168 : Ref sig .tc := ⟨.hbm, 240, rfl⟩
abbrev main_v169 : Ref sig .tc := ⟨.hbm, 241, rfl⟩
abbrev main_v170 : Ref sig .tc := ⟨.hbm, 242, rfl⟩
abbrev main_cst_35 : Ref sig .tc := ⟨.hbm, 243, rfl⟩
abbrev main_v171 : Ref sig .tc := ⟨.hbm, 244, rfl⟩
abbrev main_v172 : Ref sig .tc := ⟨.hbm, 245, rfl⟩
abbrev main_cst_36 : Ref sig .tc := ⟨.hbm, 246, rfl⟩
abbrev main_call6_v0 : Ref sig .tc := ⟨.hbm, 247, rfl⟩
abbrev main_call6_v1 : Ref sig .tc := ⟨.hbm, 248, rfl⟩
abbrev main_v173 : Ref sig .tc := ⟨.hbm, 249, rfl⟩
abbrev main_cst_37 : Ref sig .tc := ⟨.hbm, 250, rfl⟩
abbrev main_v174 : Ref sig .tc := ⟨.hbm, 251, rfl⟩
abbrev main_v175 : Ref sig .tc := ⟨.hbm, 252, rfl⟩
abbrev main_v176 : Ref sig .tc := ⟨.hbm, 253, rfl⟩
abbrev main_v177 : Ref sig .tc := ⟨.hbm, 254, rfl⟩
abbrev main_v178 : Ref sig .tc := ⟨.hbm, 255, rfl⟩
abbrev main_c_38 : Ref sig .tc := ⟨.hbm, 256, rfl⟩
abbrev main_v179 : Ref sig .tc := ⟨.hbm, 257, rfl⟩
abbrev main_v180 : Ref sig .tc := ⟨.hbm, 258, rfl⟩
abbrev main_c_39 : Ref sig .tc := ⟨.hbm, 259, rfl⟩
abbrev main_v181 : Ref sig .tc := ⟨.hbm, 260, rfl⟩
abbrev main_v182 : Ref sig .tc := ⟨.hbm, 261, rfl⟩
abbrev main_v183 : Ref sig .tc := ⟨.hbm, 262, rfl⟩
abbrev main_v184 : Ref sig .tc := ⟨.hbm, 263, rfl⟩
abbrev main_v185 : Ref sig .tc := ⟨.hbm, 264, rfl⟩
abbrev main_v186 : Ref sig .tc := ⟨.hbm, 265, rfl⟩
abbrev main_cst_40 : Ref sig .tc := ⟨.hbm, 266, rfl⟩
abbrev main_v187 : Ref sig .tc := ⟨.hbm, 267, rfl⟩
abbrev main_v188 : Ref sig .tc := ⟨.hbm, 268, rfl⟩
abbrev main_v189 : Ref sig .tc := ⟨.hbm, 269, rfl⟩
abbrev main_v190 : Ref sig .tc := ⟨.hbm, 270, rfl⟩
abbrev main_v191 : Ref sig .tc := ⟨.hbm, 271, rfl⟩
abbrev main_v192 : Ref sig .tc := ⟨.hbm, 272, rfl⟩
abbrev main_v193 : Ref sig .tc := ⟨.hbm, 273, rfl⟩
abbrev main_v194 : Ref sig .tc := ⟨.hbm, 274, rfl⟩
abbrev main_v195 : Ref sig .tc := ⟨.hbm, 275, rfl⟩
abbrev main_v196 : Ref sig .tc := ⟨.hbm, 276, rfl⟩
abbrev main_v197 : Ref sig .tc := ⟨.hbm, 277, rfl⟩
abbrev main_v198 : Ref sig .tc := ⟨.hbm, 278, rfl⟩
abbrev main_v199 : Ref sig .tc := ⟨.hbm, 279, rfl⟩
abbrev main_v200 : Ref sig .tc := ⟨.hbm, 280, rfl⟩
abbrev main_v201 : Ref sig .tc := ⟨.hbm, 281, rfl⟩
abbrev main_cst_41 : Ref sig .tc := ⟨.hbm, 282, rfl⟩
abbrev main_v202 : Ref sig .tc := ⟨.hbm, 283, rfl⟩
abbrev main_cst_42 : Ref sig .tc := ⟨.hbm, 284, rfl⟩
abbrev main_v203 : Ref sig .tc := ⟨.hbm, 285, rfl⟩
abbrev main_v204 : Ref sig .tc := ⟨.hbm, 286, rfl⟩
abbrev main_v205 : Ref sig .tc := ⟨.hbm, 287, rfl⟩
abbrev main_cst_43 : Ref sig .tc := ⟨.hbm, 288, rfl⟩
abbrev main_v206 : Ref sig .tc := ⟨.hbm, 289, rfl⟩
abbrev main_v207 : Ref sig .tc := ⟨.hbm, 290, rfl⟩
abbrev main_cst_44 : Ref sig .tc := ⟨.hbm, 291, rfl⟩
abbrev main_call7_v0 : Ref sig .tc := ⟨.hbm, 292, rfl⟩
abbrev main_call7_v1 : Ref sig .tc := ⟨.hbm, 293, rfl⟩
abbrev main_v208 : Ref sig .tc := ⟨.hbm, 294, rfl⟩
abbrev main_cst_45 : Ref sig .tc := ⟨.hbm, 295, rfl⟩
abbrev main_v209 : Ref sig .tc := ⟨.hbm, 296, rfl⟩
abbrev main_v210 : Ref sig .tc := ⟨.hbm, 297, rfl⟩
abbrev main_v211 : Ref sig .tc := ⟨.hbm, 298, rfl⟩
abbrev main_v212 : Ref sig .tc := ⟨.hbm, 299, rfl⟩
abbrev main_v213 : Ref sig .tc := ⟨.hbm, 300, rfl⟩
abbrev main_c_46 : Ref sig .tc := ⟨.hbm, 301, rfl⟩
abbrev main_v214 : Ref sig .tc := ⟨.hbm, 302, rfl⟩
abbrev main_v215 : Ref sig .tc := ⟨.hbm, 303, rfl⟩
abbrev main_c_47 : Ref sig .tc := ⟨.hbm, 304, rfl⟩
abbrev main_v216 : Ref sig .tc := ⟨.hbm, 305, rfl⟩
abbrev main_v217 : Ref sig .tc := ⟨.hbm, 306, rfl⟩
abbrev main_v218 : Ref sig .tc := ⟨.hbm, 307, rfl⟩
abbrev main_v219 : Ref sig .tc := ⟨.hbm, 308, rfl⟩
abbrev main_v220 : Ref sig .tc := ⟨.hbm, 309, rfl⟩
abbrev main_v221 : Ref sig .tc := ⟨.hbm, 310, rfl⟩
abbrev main_cst_48 : Ref sig .tc := ⟨.hbm, 311, rfl⟩
abbrev main_v222 : Ref sig .tc := ⟨.hbm, 312, rfl⟩
abbrev main_v223 : Ref sig .tc := ⟨.hbm, 313, rfl⟩
abbrev main_v224 : Ref sig .tc := ⟨.hbm, 314, rfl⟩
abbrev main_v225 : Ref sig .tc := ⟨.hbm, 315, rfl⟩
abbrev main_v226 : Ref sig .tc := ⟨.hbm, 316, rfl⟩
abbrev main_v227 : Ref sig .tc := ⟨.hbm, 317, rfl⟩
abbrev main_v228 : Ref sig .tc := ⟨.hbm, 318, rfl⟩
abbrev main_v229 : Ref sig .tc := ⟨.hbm, 319, rfl⟩
abbrev main_v230 : Ref sig .tc := ⟨.hbm, 320, rfl⟩
abbrev main_v231 : Ref sig .tc := ⟨.hbm, 321, rfl⟩
abbrev main_v232 : Ref sig .tc := ⟨.hbm, 322, rfl⟩
abbrev main_v233 : Ref sig .tc := ⟨.hbm, 323, rfl⟩
abbrev main_v234 : Ref sig .tc := ⟨.hbm, 324, rfl⟩
abbrev main_v235 : Ref sig .tc := ⟨.hbm, 325, rfl⟩
abbrev main_v236 : Ref sig .tc := ⟨.hbm, 326, rfl⟩
abbrev main_v237 : Ref sig .tc := ⟨.hbm, 327, rfl⟩
abbrev main_v238 : Ref sig .tc := ⟨.hbm, 328, rfl⟩
abbrev main_cst_49 : Ref sig .tc := ⟨.hbm, 329, rfl⟩
abbrev main_call8_cst : Ref sig .tc := ⟨.hbm, 330, rfl⟩
abbrev main_call8_v0 : Ref sig .tc := ⟨.hbm, 331, rfl⟩
abbrev main_call8_v1 : Ref sig .tc := ⟨.hbm, 332, rfl⟩
abbrev main_call8_v2 : Ref sig .tc := ⟨.hbm, 333, rfl⟩
abbrev main_call8_v3 : Ref sig .tc := ⟨.hbm, 334, rfl⟩
abbrev main_call8_v4 : Ref sig .tc := ⟨.hbm, 335, rfl⟩
abbrev main_v239 : Ref sig .tc := ⟨.hbm, 336, rfl⟩
abbrev main_v240 : Ref sig .tc := ⟨.hbm, 337, rfl⟩
abbrev main_v241 : Ref sig .tc := ⟨.hbm, 338, rfl⟩
abbrev main_v242 : Ref sig .tc := ⟨.hbm, 339, rfl⟩
abbrev main_v243 : Ref sig .tc := ⟨.hbm, 340, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  slices_S3x1000000_S1x1000000_0_0 : S3x1000000.Slices ![0, 0] S1x1000000
  shapeCasts_S1x1000000_S1000000 : S1x1000000.ShapeCasts S1000000
  bcast_S_S1000000 : S_.BroadcastsInDim S1000000 (![] : Fin 0 → Fin S1000000.rank)
  bcast_S_S100000 : S_.BroadcastsInDim S100000 (![] : Fin 0 → Fin S100000.rank)
  bcast_S1000000_S1000000x1_0 : S1000000.BroadcastsInDim S1000000x1 (![0] : Fin 1 → Fin S1000000x1.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  concatenates_S100000x64_S100000x64_S100000x128_d1 : Shape.Concatenates [S100000x64, S100000x64] S100000x128 1
  slices_S3x1000000_S1x1000000_1_0 : S3x1000000.Slices ![1, 0] S1x1000000
  slices_S3x1000000_S1x1000000_2_0 : S3x1000000.Slices ![2, 0] S1x1000000
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  dot_S100000x64_S64x64_S100000x64_1_0_0_1_n_n_wf : DotDims.WF S100000x64 S64x64 S100000x64 [1] [0] [0] [1] [] []
  scatter_S100000_S1000000x1_S1000000_n_0_0_1_wf : ScatterDims.WF S100000 S1000000x1 S1000000 [] [0] [0] 1
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  dot_S100000x128_S128x64_S100000x64_1_0_0_1_n_n_wf : DotDims.WF S100000x128 S128x64 S100000x64 [1] [0] [0] [1] [] []
  dot_S100000x64_S64x2_S100000x2_1_0_0_1_n_n_wf : DotDims.WF S100000x64 S64x2 S100000x2 [1] [0] [0] [1] [] []

variable [Facts₀]

def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def dot_S100000x64_S64x2_S100000x2_1_0_0_1_n_n : DotDims S100000x64 S64x2 S100000x2 where
  lhsContracting := [1]
  rhsContracting := [0]
  lhsNonContracting := [0]
  rhsNonContracting := [1]
  lhsBatch := []
  rhsBatch := []
  wf := dot_S100000x64_S64x2_S100000x2_1_0_0_1_n_n_wf

class Facts : Prop extends Facts₀ where

variable [Facts]
-- ==== Proof.Spec.lean ====
import Idealize.ShloMosaic.PureOps.Ideal
import Idealize.ShloMosaic.Lib.ValueIdx

noncomputable section

open scoped BigOperators

namespace Cert.Spec

open Idealize.ShloMosaic Idealize.ShloMosaic.ValueIdx

abbrev N : Nat := 100000

abbrev Arr (r c : Nat) : Type := (⟨2, ![r, c]⟩ : Shape).Idx → EReal

abbrev Arr1 (n : Nat) : Type := (⟨1, ![n]⟩ : Shape).Idx → EReal

def slope : EReal := Ideal.ofBits .f32 0x3C23D70A#32

def negOne : EReal := Ideal.ofBits .f32 0xBF800000#32

def posOne : EReal := Ideal.ofBits .f32 0x3F800000#32

def lrelu (z : EReal) : EReal := if 0 < z then z else slope * z

abbrev at2 {r c : Nat} (a : Arr r c) (i : Fin r) (j : Fin c) : EReal := a (ix2 i j)

def mm {r k c : Nat} (a : Arr r k) (w : Arr k c) : Arr r c :=
  fun j => ∑ l : Fin k, at2 a (j 0) l * at2 w l (j 1)

def row {c : Nat} (b : Arr1 c) : Arr 1 c := fun j => b (ix1 (j 1))

def addRow {r c : Nat} (x : Arr r c) (b : Arr 1 c) : Arr r c := fun j => x j + at2 b 0 (j 1)

def act {r c : Nat} (x : Arr r c) : Arr r c := fun j => lrelu (x j)

def mlp (x : Arr N 64) (w1 : Arr 64 64) (b1 : Arr 1 64) (w2 : Arr 64 64) (b2 : Arr 1 64) : Arr N 64 :=
  act (addRow (mm (act (addRow (mm x w1) b1)) w2) b2)

def dual (sgn : EReal) (a b : Arr N 64) (wa wb : Arr 64 64) (bias : Arr 1 64) : Arr N 64 :=
  fun j => (mm a wa j + sgn * mm b wb j) + at2 bias 0 (j 1)

def accum (acc out : Arr N 64) : Arr N 64 := fun j => acc j + out j

def head (hall : Arr N 64) (w4 : Arr 64 2) (b4 : Arr 1 2) : Arr N 2 := addRow (mm (act hall) w4) b4

def top (w : Arr 128 64) : Arr 64 64 := fun j => at2 w (Fin.castAdd 64 (j 0)) (j 1)

def bot (w : Arr 128 64) : Arr 64 64 := fun j => at2 w (Fin.natAdd 64 (j 0)) (j 1)

def cat (a b : Arr N 64) : Arr N 128 :=
  fun j => if h : (j 1).val < 64 then at2 a (j 0) ⟨(j 1).val, h⟩ else at2 b (j 0) ⟨(j 1).val - 64, by have := idx2_lt1 j; omega⟩

def neg {r c : Nat} (x : Arr r c) : Arr r c := fun j => - x j

def cheb (feat ah : Arr N 64) (w : Arr 128 64) (b : Arr 1 64) : Arr N 64 := addRow (mm (cat feat (neg ah)) w) b

def fuse (h0 h1 : Arr N 64) (w : Arr 128 64) (b : Arr 1 64) : Arr N 64 := addRow (mm (cat h0 h1) w) b

def zeros : Arr N 64 := fun _ => 0

def Real2 {r c : Nat} (x : Arr r c) : Prop := ∀ j, ∃ v : ℝ, x j = (v : EReal)

def Real1 {n : Nat} (x : Arr1 n) : Prop := ∀ j, ∃ v : ℝ, x j = (v : EReal)

end Cert.Spec

end
-- ==== Proof.KDot.lean ====
import proofs.«116818_j36043365548320_1_alg».proof.Proof.Gen.KernelIdeal.Frame
import proofs.«116818_j36043365548320_1_alg».proof.Proof.Spec
import Idealize.ShloMosaic.Lib.Pipeline.Value
import Idealize.ShloMosaic.Lib.ValueIdx
import Idealize.ShloMosaic.Lib.ValueLayout
import Idealize.ShloMosaic.Lib.StackMember
import Idealize.ShloMosaic.PureOps.Ideal.Laws

noncomputable section

open scoped BigOperators

namespace Cert.KernelIdeal.Val

open Cert.KernelIdeal Cert.KernelIdeal.Gen
open Idealize.ShloMosaic Idealize.ShloMosaic.TcCoe Idealize.SL.Sem Idealize.ShloMosaic.ValueIdx

theorem hz : (![0, 0] : Fin 2 → Nat) = fun _ => 0 := funext fun a => by fin_cases a <;> rfl

/-- A product accumulated onto zeros is the host's product: the sum over the contracted coordinate. -/
theorem mm_apply {m k n : Nat} {φ₁ φ₂ : FTy} (a : FVec Ideal ⟨2, ![m, k]⟩ φ₁) (w : FVec Ideal ⟨2, ![k, n]⟩ φ₂)
    (p : Fin m) (q : Fin n) :
    matmul (DotDims.plain m k n) none a w (constant ⟨2, ![m, n]⟩ .f32 0x00000000#32) (ix2 p q)
      = ∑ l : Fin k, a (ix2 p l) * w (ix2 l q) :=
  (congrFun (matmul_zero_eq_dotGeneral _ none a w) _).trans (StackMember.dotGeneral_plain_apply none a w p q)

/-- The rectifier as the bodies spell it (keep the value where it exceeds zero, else the slope times it) is the specification's. -/
theorem lrelu_word (v : EReal) :
    Scalar.select (FloatOps.cmpf (F := Ideal) (φ := .f32) .ogt v (Scalar.ofBits .f32 0x00000000#32)) v
      (FloatOps.mulf (F := Ideal) (φ := .f32) (Scalar.ofBits .f32 0x3C23D70A#32) v) = Spec.lrelu v := by
  show (if Ideal.cmp .ogt v (Ideal.ofBits .f32 0x00000000#32) = 1 then v else Ideal.ofBits .f32 0x3C23D70A#32 * v) = _
  rw [Ideal.ofBits_zero_f32]
  unfold Spec.lrelu Spec.slope Ideal.cmp
  by_cases h : (0 : EReal) < v
  · simp [h]
  · simp [h]

/-- Row p of point t's block is row 10000·t + p of the array. -/
def row (t : Fin grid1.N) (p : Fin 10000) : Fin Spec.N :=
  ⟨10000 * t.val + p.val, by have h : t.val < 10 := Nat.lt_of_lt_of_eq t.isLt N_1; show _ < 100000; omega⟩

/-- A row window's block index at point t is (t, 0): decided over the ten points. -/
theorem ix_row : ∀ t : Fin grid1.N, cc1_transform_0 (grid1.coords t) 0 = t.val ∧ cc1_transform_0 (grid1.coords t) 1 = 0 := by
  decide +kernel

/-- A whole window's block index is (0, 0). -/
theorem ix_whole (i : grid1.Coords) : ∀ a, cc1_transform_2 i a = 0 := Fin.forall_fin_two.2 ⟨rfl, rfl⟩

/-- An array index at block index (t, 0) times the block's size plus y is in row 10000·t + y 0, column y 1. -/
theorem eq_row {n : Nat} {ix : Fin 2 → Nat} {t : Fin grid1.N} (hix : ix 0 = t.val ∧ ix 1 = 0)
    (y : (⟨2, ![10000, n]⟩ : Shape).Idx) {j : (⟨2, ![Spec.N, n]⟩ : Shape).Idx}
    (h : ∀ a, (j a : Nat) = ix a * (![10000, n] : Fin 2 → Nat) a + y a) : j = ix2 (row t (y 0)) (y 1) := by
  funext a; apply Fin.ext
  match a with
  | ⟨0, _⟩ => exact (h 0).trans (by rw [hix.1]; show t.val * 10000 + (y 0).val = 10000 * t.val + (y 0).val; omega)
  | ⟨1, _⟩ => exact (h 1).trans (by rw [hix.2]; show 0 * n + (y 1).val = (y 1).val; omega)

/-- At block index zero an array index is the block's own. -/
theorem eq_whole {S : Shape} {ix sz : Fin S.rank → Nat} (hix : ∀ a, ix a = 0) {j y : S.Idx}
    (h : ∀ a, (j a : Nat) = ix a * sz a + y a) : j = y :=
  funext fun a => Fin.ext ((h a).trans (by rw [hix a]; omega))

/-- Row r of the array lies in the block of point r / 10000. -/
theorem mem_row {n : Nat} (i : (⟨2, ![Spec.N, n]⟩ : Shape).Idx) : ∃ t : Fin grid1.N, ∀ ix : Fin 2 → Nat, ix 0 = t.val ∧ ix 1 = 0 →
    ∀ a, ix a * (![10000, n] : Fin 2 → Nat) a ≤ i a ∧ (i a : Nat) < ix a * (![10000, n] : Fin 2 → Nat) a + (![10000, n] : Fin 2 → Nat) a := by
  have hi0 : (i 0).val < 100000 := idx2_lt0 i
  have hi1 : (i 1).val < n := idx2_lt1 i
  refine ⟨⟨(i 0).val / 10000, by rw [N_1]; omega⟩, fun ix h a => ?_⟩
  match a with
  | ⟨0, _⟩ =>
    show ix 0 * 10000 ≤ (i 0).val ∧ (i 0).val < ix 0 * 10000 + 10000
    rw [h.1]; show (i 0).val / 10000 * 10000 ≤ (i 0).val ∧ (i 0).val < (i 0).val / 10000 * 10000 + 10000; omega
  | ⟨1, _⟩ => show ix 1 * n ≤ (i 1).val ∧ (i 1).val < ix 1 * n + n; rw [h.2]; omega

section Point

variable {a b : Vec Ideal S10000x64 .f32} {wa wb : Vec Ideal S64x64 .f32} {bias : Vec Ideal S1x64 .f32}
  {A B : Spec.Arr Spec.N 64} {WA WB : Spec.Arr 64 64} {BI : Spec.Arr 1 64} (t : Fin grid1.N)
  (ha : ∀ x, a x = A (ix2 (row t (x 0)) (x 1))) (hb : ∀ x, b x = B (ix2 (row t (x 0)) (x 1)))
  (hwa : wa = WA) (hwb : wb = WB) (hbi : bias = BI) (y : S10000x64.Idx) {j : S100000x64.Idx}
  (hj : j = ix2 (row t (y 0)) (y 1))

include ha hb hwa hwb hbi hj

/-- The two-product body at an entry of point t's block, its row blocks being rows 10000·t … of A and B and its
    weight and bias blocks the whole arrays: a·wa + (-1)·(b·wb) + bias at that row. -/
theorem dual_point : k1_pay1 (F := Ideal) a b wa wb bias y = Spec.dual Spec.negOne A B WA WB BI j := by
  subst hwa hwb hbi hj
  obtain ⟨p, q, rfl⟩ : ∃ (p : Fin 10000) (q : Fin 64), y = ix2 p q := ⟨y 0, y 1, eq_ix2 y⟩
  unfold k1_pay1
  simp only [shapeCast_self]
  refine congrArg₂ (· + ·) (congrArg₂ (· + ·) ((mm_apply _ _ p q).trans ?_)
    (congrArg (Spec.negOne * ·) ((mm_apply _ _ p q).trans ?_))) (broadcastTo_1b_ab_apply bias _ p q)
  · exact Finset.sum_congr rfl fun l _ => congrArg (· * wa (ix2 l q)) (ha (ix2 p l))
  · exact Finset.sum_congr rfl fun l _ => congrArg (· * wb (ix2 l q)) (hb (ix2 p l))

/-- The combining body's first value: the same with +1. -/
theorem comb_point : k3_pay1 (F := Ideal) a b wa wb bias y = Spec.dual Spec.posOne A B WA WB BI j := by
  subst hwa hwb hbi hj
  obtain ⟨p, q, rfl⟩ : ∃ (p : Fin 10000) (q : Fin 64), y = ix2 p q := ⟨y 0, y 1, eq_ix2 y⟩
  unfold k3_pay1
  simp only [shapeCast_self]
  refine congrArg₂ (· + ·) (congrArg₂ (· + ·) ((mm_apply _ _ p q).trans ?_)
    (congrArg (Spec.posOne * ·) ((mm_apply _ _ p q).trans ?_))) (broadcastTo_1b_ab_apply bias _ p q)
  · exact Finset.sum_congr rfl fun l _ => congrArg (· * wa (ix2 l q)) (ha (ix2 p l))
  · exact Finset.sum_congr rfl fun l _ => congrArg (· * wb (ix2 l q)) (hb (ix2 p l))

/-- Its second value: the running sum's entry plus the first. -/
theorem acc_point {acc : Vec Ideal S10000x64 .f32} {ACC : Spec.Arr Spec.N 64} (hc : ∀ x, acc x = ACC (ix2 (row t (x 0)) (x 1))) :
    k3_pay2 (F := Ideal) a b wa wb bias acc y = Spec.accum ACC (Spec.dual Spec.posOne A B WA WB BI) j := by
  unfold k3_pay2
  simp only [shapeCast_self]
  exact congrArg₂ (· + ·) ((hc y).trans (congrArg ACC hj.symm)) (comb_point t ha hb hwa hwb hbi y hj)

end Point

section Out

variable (x0 x1 : Vec Ideal S10000x64 .f32) (x2 x3 : Vec Ideal S64x64 .f32) (x4 : Vec Ideal S1x64 .f32)

/-- A body that loads its whole buffers and stores once leaves its payload. -/
theorem out_dual : out1_5 (F := Ideal) x0 x1 x2 x3 x4 = k1_pay1 x0 x1 x2 x3 x4 := by
  unfold out1_5
  rw [View.canon_unit_zero hz]
  simp only [View.ld_unit_zero (S := S10000x64) hz, View.ld_unit_zero (S := S64x64) hz, View.ld_unit_zero (S := S1x64) hz]

theorem out_comb (x5 : Vec Ideal S10000x64 .f32) : out3_6 (F := Ideal) x0 x1 x2 x3 x4 x5 = k3_pay1 x0 x1 x2 x3 x4 := by
  unfold out3_6
  rw [View.canon_unit_zero hz]
  simp only [View.ld_unit_zero (S := S10000x64) hz, View.ld_unit_zero (S := S64x64) hz, View.ld_unit_zero (S := S1x64) hz]

theorem out_acc (x5 : Vec Ideal S10000x64 .f32) : out3_7 (F := Ideal) x0 x1 x2 x3 x4 x5 = k3_pay2 x0 x1 x2 x3 x4 x5 := by
  unfold out3_7
  rw [View.canon_unit_zero hz]
  simp only [View.ld_unit_zero (S := S10000x64) hz, View.ld_unit_zero (S := S64x64) hz, View.ld_unit_zero (S := S1x64) hz]

end Out

end Cert.KernelIdeal.Val

end
-- ==== Proof.KReg0.lean ====
import proofs.«116818_j36043365548320_1_alg».proof.Proof.KDot

noncomputable section

open scoped BigOperators

namespace Cert.KernelIdeal.Val.R0

open Cert.KernelIdeal Cert.KernelIdeal.Gen
open Idealize.ShloMosaic Idealize.ShloMosaic.TcCoe Idealize.SL.Sem Idealize.ShloMosaic.ValueIdx
open Idealize.ShloMosaic.Pipeline (Dat)

theorem reg0_mm (a : FVec Ideal S10000x64 .bf16) (w : FVec Ideal S64x64 .bf16) (p : Fin 10000) (q : Fin 64) :
    matmul dot_S10000x64_S64x64_S10000x64_1_0_0_1_n_n none a w (constant (F := Ideal) S10000x64 .f32 0x00000000#32) (ix2 p q)
      = ∑ k : Fin 64, a (ix2 p k) * w (ix2 k q) := mm_apply a w p q

/-- One dense layer as the body spells it: the product onto zeros, the bias row added to every row, the rectifier. -/
def reg0_layer (a : FVec Ideal S10000x64 .f32) (w : FVec Ideal S64x64 .f32) (b : FVec Ideal S1x64 .f32) : FVec Ideal S10000x64 .f32 :=
  select
    (cmpf .ogt
      (addf (matmul dot_S10000x64_S64x64_S10000x64_1_0_0_1_n_n none (truncf .bf16 a bitsLt_bf16_f32) (truncf .bf16 w bitsLt_bf16_f32) (constant S10000x64 .f32 0x00000000#32))
        (broadcastTo S10000x64 (shapeCast S1x64 b shapeCasts_S1x64_S1x64) broadcasts_S1x64_S10000x64))
      (broadcast S10000x64 (Scalar.ofBits .f32 0x00000000#32)))
    (addf (matmul dot_S10000x64_S64x64_S10000x64_1_0_0_1_n_n none (truncf .bf16 a bitsLt_bf16_f32) (truncf .bf16 w bitsLt_bf16_f32) (constant S10000x64 .f32 0x00000000#32))
      (broadcastTo S10000x64 (shapeCast S1x64 b shapeCasts_S1x64_S1x64) broadcasts_S1x64_S10000x64))
    (mulf (broadcast S10000x64 (Scalar.ofBits .f32 0x3C23D70A#32))
      (addf (matmul dot_S10000x64_S64x64_S10000x64_1_0_0_1_n_n none (truncf .bf16 a bitsLt_bf16_f32) (truncf .bf16 w bitsLt_bf16_f32) (constant S10000x64 .f32 0x00000000#32))
        (broadcastTo S10000x64 (shapeCast S1x64 b shapeCasts_S1x64_S1x64) broadcasts_S1x64_S10000x64)))

theorem reg0_layer_apply (a : FVec Ideal S10000x64 .f32) (w : FVec Ideal S64x64 .f32) (b : FVec Ideal S1x64 .f32) (p : Fin 10000) (q : Fin 64) :
    reg0_layer a w b (ix2 p q) = Cert.Spec.lrelu ((∑ k : Fin 64, a (ix2 p k) * w (ix2 k q)) + b (ix2 (0 : Fin 1) q)) := by
  unfold reg0_layer
  rw [select_apply, cmpf_apply, mulf_apply, addf_apply, broadcast_apply, broadcast_apply]
  rw [reg0_mm, shapeCast_self, broadcastTo_1b_ab_apply]
  exact lrelu_word _

/-- The body's value at an entry of point t's block, the feature block being rows 10000·t … of X and the weight and
    bias blocks the whole arrays: the two dense layers of X at that row. -/
theorem reg0_point {x0 : Vec Ideal S10000x64 .f32} {x1 x3 : Vec Ideal S64x64 .f32} {x2 x4 : Vec Ideal S1x64 .f32}
    {X : Cert.Spec.Arr Cert.Spec.N 64} {U1 U2 : Cert.Spec.Arr 64 64} {C1 C2 : Cert.Spec.Arr 1 64} (t : Fin grid1.N)
    (hx : ∀ x, x0 x = X (ix2 (row t (x 0)) (x 1))) (h1 : x1 = U1) (h2 : x2 = C1) (h3 : x3 = U2) (h4 : x4 = C2)
    (y : S10000x64.Idx) {j : S100000x64.Idx} (hj : j = ix2 (row t (y 0)) (y 1)) :
    k0_pay1 (F := Ideal) x0 x1 x2 x3 x4 y = Cert.Spec.mlp X U1 C1 U2 C2 j := by
  subst h1 h2 h3 h4 hj
  obtain ⟨p, q, rfl⟩ : ∃ (p : Fin 10000) (q : Fin 64), y = ix2 p q := ⟨y 0, y 1, eq_ix2 y⟩
  have hin : ∀ l : Fin 64, reg0_layer x0 x1 x2 (ix2 p l)
      = Cert.Spec.lrelu ((∑ k : Fin 64, X (ix2 (row t p) k) * x1 (ix2 k l)) + x2 (ix2 (0 : Fin 1) l)) := fun l =>
    (reg0_layer_apply _ _ _ p l).trans (congrArg (fun s => Cert.Spec.lrelu (s + x2 (ix2 (0 : Fin 1) l)))
      (Finset.sum_congr rfl fun k _ => congrArg (· * x1 (ix2 k l)) (hx (ix2 p k))))
  show reg0_layer (reg0_layer x0 x1 x2) x3 x4 (ix2 p q) = _
  rw [reg0_layer_apply]
  exact congrArg (fun s => Cert.Spec.lrelu (s + x4 (ix2 (0 : Fin 1) q)))
    (Finset.sum_congr rfl fun l _ => congrArg (· * x3 (ix2 l q)) (hin l))

/-- Each window's block read off its array: rows 10000·t … of the features, the whole of a weight or of a bias row. -/
theorem reg0_rd0 (X : S100000x64.Idx → Elt Ideal .f32) (t : Fin cfg0.N) (x : S10000x64.Idx) :
    (((cfg0.win 0).blk t).view.read (Elt Ideal) X : Vec Ideal S10000x64 .f32) x = X (ix2 (row t (x 0)) (x 1)) :=
  congrArg X (eq_row (ix_row t) x (win0_0.rect_emb_val t x))

theorem reg0_rd1 (X : S64x64.Idx → Elt Ideal .f32) (t : Fin cfg0.N) :
    (((cfg0.win 1).blk t).view.read (Elt Ideal) X : Vec Ideal S64x64 .f32) = X :=
  funext fun x => congrArg X (eq_whole (ix_whole (grid0.coords t)) (win0_1.rect_emb_val t x))

theorem reg0_rd2 (X : S1x64.Idx → Elt Ideal .f32) (t : Fin cfg0.N) :
    (((cfg0.win 2).blk t).view.read (Elt Ideal) X : Vec Ideal S1x64 .f32) = X :=
  funext fun x => congrArg X (eq_whole (ix_whole (grid0.coords t)) (win0_2.rect_emb_val t x))

theorem reg0_rd3 (X : S64x64.Idx → Elt Ideal .f32) (t : Fin cfg0.N) :
    (((cfg0.win 3).blk t).view.read (Elt Ideal) X : Vec Ideal S64x64 .f32) = X :=
  funext fun x => congrArg X (eq_whole (ix_whole (grid0.coords t)) (win0_3.rect_emb_val t x))

theorem reg0_rd4 (X : S1x64.Idx → Elt Ideal .f32) (t : Fin cfg0.N) :
    (((cfg0.win 4).blk t).view.read (Elt Ideal) X : Vec Ideal S1x64 .f32) = X :=
  funext fun x => congrArg X (eq_whole (ix_whole (grid0.coords t)) (win0_4.rect_emb_val t x))

variable (m : (ℓ : Loc nD τ sig) → Buf (Elt Ideal) ℓ) (ρ : Dev nD → PrngReg)

/-- What point t writes back is its block of the two dense layers of the arrays the launch finds. -/
theorem reg0_flushed (c : Dev nD) (t : Fin cfg0.N) :
    (dat0 (V1 m ρ) c).flushed 5 t = ((cfg0.win 5).blk t).view.read (Elt Ideal)
      (Cert.Spec.mlp (W1 m ρ c (Proc.devRef .tc main_arg0)) (W1 m ρ c (Proc.devRef .tc main_arg3)) (W1 m ρ c (Proc.devRef .tc main_v0))
        (W1 m ρ c (Proc.devRef .tc main_arg5)) (W1 m ρ c (Proc.devRef .tc main_v1))) := by
  show (cfg0.win 5).cut (grid0.coords t) ((dat0 (V1 m ρ) c).after 5 t) = _
  rw [after0_5]
  unfold out0_5
  rw [View.canon_unit_zero hz]
  simp only [View.ld_unit_zero (S := S10000x64) hz, View.ld_unit_zero (S := S64x64) hz, View.ld_unit_zero (S := S1x64) hz]
  unfold iblk0
  funext y
  rw [View.read_apply]
  exact reg0_point t (reg0_rd0 (W1 m ρ c (Proc.devRef .tc main_arg0)) t) (reg0_rd1 (W1 m ρ c (Proc.devRef .tc main_arg3)) t)
    (reg0_rd2 (W1 m ρ c (Proc.devRef .tc main_v0)) t) (reg0_rd3 (W1 m ρ c (Proc.devRef .tc main_arg5)) t) (reg0_rd4 (W1 m ρ c (Proc.devRef .tc main_v1)) t)
    y (eq_row (ix_row t) y (win0_5.rect_emb_val t y))

/-- The ten blocks tile the result array. -/
theorem reg0_cover (i : S100000x64.Idx) : ∃ t : Fin cfg0.N, (cfg0.win 5).flush t = true ∧ i ∈ ((cfg0.win 5).blk t).view.set := by
  obtain ⟨t, h⟩ := mem_row i
  refine ⟨t, flush0_5 t, ?_⟩
  show i ∈ ((View.whole main_v2).slice (win0_5.rect t)).set
  rw [View.set_slice_whole, Rect.mem_set_unit]
  exact h _ (ix_row t)

theorem reg0 (c : Dev nD) :
    (W2 m ρ c (Proc.devRef .tc main_v2) : Cert.Spec.Arr Cert.Spec.N 64)
      = Cert.Spec.mlp (W1 m ρ c (Proc.devRef .tc main_arg0)) (W1 m ρ c (Proc.devRef .tc main_arg3)) (W1 m ρ c (Proc.devRef .tc main_v0))
          (W1 m ρ c (Proc.devRef .tc main_arg5)) (W1 m ρ c (Proc.devRef .tc main_v1)) :=
  (W2_arr m ρ c 5).trans ((dat0 (V1 m ρ) c).arrAt_eq_of_cover 5 _ (fun t _ => reg0_flushed m ρ c t) reg0_cover)

end Cert.KernelIdeal.Val.R0

end
-- ==== Proof.KReg1.lean ====
import proofs.«116818_j36043365548320_1_alg».proof.Proof.KDot

noncomputable section

namespace Cert.KernelIdeal.Val.R1

open Cert.KernelIdeal Cert.KernelIdeal.Gen
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- Each window's block read off its array: rows 10000·t … of an operand, the whole of a weight or of the bias row. -/
theorem reg1_rd0 (X : S100000x64.Idx → Elt Ideal .f32) (t : Fin cfg1.N) (x : S10000x64.Idx) :
    (((cfg1.win 0).blk t).view.read (Elt Ideal) X : Vec Ideal S10000x64 .f32) x = X (ix2 (row t (x 0)) (x 1)) :=
  congrArg X (eq_row (ix_row t) x (win1_0.rect_emb_val t x))

theorem reg1_rd1 (X : S100000x64.Idx → Elt Ideal .f32) (t : Fin cfg1.N) (x : S10000x64.Idx) :
    (((cfg1.win 1).blk t).view.read (Elt Ideal) X : Vec Ideal S10000x64 .f32) x = X (ix2 (row t (x 0)) (x 1)) :=
  congrArg X (eq_row (ix_row t) x (win1_1.rect_emb_val t x))

theorem reg1_rd2 (X : S64x64.Idx → Elt Ideal .f32) (t : Fin cfg1.N) :
    (((cfg1.win 2).blk t).view.read (Elt Ideal) X : Vec Ideal S64x64 .f32) = X :=
  funext fun x => congrArg X (eq_whole (ix_whole (grid1.coords t)) (win1_2.rect_emb_val t x))

theorem reg1_rd3 (X : S64x64.Idx → Elt Ideal .f32) (t : Fin cfg1.N) :
    (((cfg1.win 3).blk t).view.read (Elt Ideal) X : Vec Ideal S64x64 .f32) = X :=
  funext fun x => congrArg X (eq_whole (ix_whole (grid1.coords t)) (win1_3.rect_emb_val t x))

theorem reg1_rd4 (X : S1x64.Idx → Elt Ideal .f32) (t : Fin cfg1.N) :
    (((cfg1.win 4).blk t).view.read (Elt Ideal) X : Vec Ideal S1x64 .f32) = X :=
  funext fun x => congrArg X (eq_whole (ix_whole (grid1.coords t)) (win1_4.rect_emb_val t x))

/-- What point t writes back is its block of a·wa + (-1)·(b·wb) + bias of the five arrays as the launch finds them. -/
theorem reg1_flushed (c : Dev nD) (t : Fin cfg1.N) :
    (dat1 (V5 m ρ) c).flushed 5 t = ((cfg1.win 5).blk t).view.read (Elt Ideal)
      (Cert.Spec.dual Cert.Spec.negOne (W5 m ρ c (Proc.devRef .tc main_v2)) (W5 m ρ c (Proc.devRef .tc main_v38))
        (W5 m ρ c (Proc.devRef .tc main_v3)) (W5 m ρ c (Proc.devRef .tc main_v4)) (W5 m ρ c (Proc.devRef .tc main_v39))) := by
  show (cfg1.win 5).cut (grid1.coords t) ((dat1 (V5 m ρ) c).after 5 t) = _
  rw [after1_5]
  show (cfg1.win 5).cut (grid1.coords t) (out1_5 _ _ _ _ _) = _
  rw [out_dual]
  unfold iblk1
  funext y
  rw [View.read_apply]
  exact dual_point t (reg1_rd0 (W5 m ρ c (Proc.devRef .tc main_v2)) t) (reg1_rd1 (W5 m ρ c (Proc.devRef .tc main_v38)) t)
    (reg1_rd2 (W5 m ρ c (Proc.devRef .tc main_v3)) t) (reg1_rd3 (W5 m ρ c (Proc.devRef .tc main_v4)) t)
    (reg1_rd4 (W5 m ρ c (Proc.devRef .tc main_v39)) t) y (eq_row (ix_row t) y (win1_5.rect_emb_val t y))

/-- The ten blocks tile the result array. -/
theorem reg1_cover (i : S100000x64.Idx) :
    ∃ t : Fin cfg1.N, (cfg1.win 5).flush t = true ∧ i ∈ ((cfg1.win 5).blk t).view.set := by
  obtain ⟨t, h⟩ := mem_row i
  refine ⟨t, flush1_5 t, ?_⟩
  show i ∈ ((View.whole main_v40).slice (win1_5.rect t)).set
  rw [View.set_slice_whole, Rect.mem_set_unit]
  exact h _ (ix_row t)

theorem reg1 (c : Dev nD) :
    (W6 m ρ c (Proc.devRef .tc main_v40) : Cert.Spec.Arr Cert.Spec.N 64)
      = Cert.Spec.dual Cert.Spec.negOne (W5 m ρ c (Proc.devRef .tc main_v2)) (W5 m ρ c (Proc.devRef .tc main_v38))
          (W5 m ρ c (Proc.devRef .tc main_v3)) (W5 m ρ c (Proc.devRef .tc main_v4)) (W5 m ρ c (Proc.devRef .tc main_v39)) :=
  (W6_arr m ρ c 5).trans ((dat1 (V5 m ρ) c).arrAt_eq_of_cover 5 _ (fun t _ => reg1_flushed m ρ c t) reg1_cover)

end Cert.KernelIdeal.Val.R1

end
-- ==== Proof.KReg2.lean ====
import proofs.«116818_j36043365548320_1_alg».proof.Proof.KDot

noncomputable section

namespace Cert.KernelIdeal.Val.R2

open Cert.KernelIdeal Cert.KernelIdeal.Gen
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem reg2_rd0 (X : S100000x64.Idx → Elt Ideal .f32) (t : Fin cfg2.N) (x : S10000x64.Idx) :
    (((cfg2.win 0).blk t).view.read (Elt Ideal) X : Vec Ideal S10000x64 .f32) x = X (ix2 (row t (x 0)) (x 1)) :=
  congrArg X (eq_row (ix_row t) x (win2_0.rect_emb_val t x))

theorem reg2_rd1 (X : S100000x64.Idx → Elt Ideal .f32) (t : Fin cfg2.N) (x : S10000x64.Idx) :
    (((cfg2.win 1).blk t).view.read (Elt Ideal) X : Vec Ideal S10000x64 .f32) x = X (ix2 (row t (x 0)) (x 1)) :=
  congrArg X (eq_row (ix_row t) x (win2_1.rect_emb_val t x))

theorem reg2_rd2 (X : S64x64.Idx → Elt Ideal .f32) (t : Fin cfg2.N) :
    (((cfg2.win 2).blk t).view.read (Elt Ideal) X : Vec Ideal S64x64 .f32) = X :=
  funext fun x => congrArg X (eq_whole (ix_whole (grid2.coords t)) (win2_2.rect_emb_val t x))

theorem reg2_rd3 (X : S64x64.Idx → Elt Ideal .f32) (t : Fin cfg2.N) :
    (((cfg2.win 3).blk t).view.read (Elt Ideal) X : Vec Ideal S64x64 .f32) = X :=
  funext fun x => congrArg X (eq_whole (ix_whole (grid2.coords t)) (win2_3.rect_emb_val t x))

theorem reg2_rd4 (X : S1x64.Idx → Elt Ideal .f32) (t : Fin cfg2.N) :
    (((cfg2.win 4).blk t).view.read (Elt Ideal) X : Vec Ideal S1x64 .f32) = X :=
  funext fun x => congrArg X (eq_whole (ix_whole (grid2.coords t)) (win2_4.rect_emb_val t x))

theorem reg2_flushed (c : Dev nD) (t : Fin cfg2.N) :
    (dat2 (V9 m ρ) c).flushed 5 t = ((cfg2.win 5).blk t).view.read (Elt Ideal)
      (Cert.Spec.dual Cert.Spec.negOne (W9 m ρ c (Proc.devRef .tc main_v40)) (W9 m ρ c (Proc.devRef .tc main_v65))
        (W9 m ρ c (Proc.devRef .tc main_v5)) (W9 m ρ c (Proc.devRef .tc main_v6)) (W9 m ρ c (Proc.devRef .tc main_v66))) := by
  show (cfg2.win 5).cut (grid2.coords t) ((dat2 (V9 m ρ) c).after 5 t) = _
  rw [after2_5]
  show (cfg2.win 5).cut (grid2.coords t) (out1_5 _ _ _ _ _) = _
  rw [out_dual]
  unfold iblk2
  funext y
  rw [View.read_apply]
  exact dual_point t (reg2_rd0 (W9 m ρ c (Proc.devRef .tc main_v40)) t) (reg2_rd1 (W9 m ρ c (Proc.devRef .tc main_v65)) t)
    (reg2_rd2 (W9 m ρ c (Proc.devRef .tc main_v5)) t) (reg2_rd3 (W9 m ρ c (Proc.devRef .tc main_v6)) t)
    (reg2_rd4 (W9 m ρ c (Proc.devRef .tc main_v66)) t) y (eq_row (ix_row t) y (win2_5.rect_emb_val t y))

theorem reg2_cover (i : S100000x64.Idx) :
    ∃ t : Fin cfg2.N, (cfg2.win 5).flush t = true ∧ i ∈ ((cfg2.win 5).blk t).view.set := by
  obtain ⟨t, h⟩ := mem_row i
  refine ⟨t, flush2_5 t, ?_⟩
  show i ∈ ((View.whole main_v67).slice (win2_5.rect t)).set
  rw [View.set_slice_whole, Rect.mem_set_unit]
  exact h _ (ix_row t)

theorem reg2 (c : Dev nD) :
    (W10 m ρ c (Proc.devRef .tc main_v67) : Cert.Spec.Arr Cert.Spec.N 64)
      = Cert.Spec.dual Cert.Spec.negOne (W9 m ρ c (Proc.devRef .tc main_v40)) (W9 m ρ c (Proc.devRef .tc main_v65))
          (W9 m ρ c (Proc.devRef .tc main_v5)) (W9 m ρ c (Proc.devRef .tc main_v6)) (W9 m ρ c (Proc.devRef .tc main_v66)) :=
  (W10_arr m ρ c 5).trans ((dat2 (V9 m ρ) c).arrAt_eq_of_cover 5 _ (fun t _ => reg2_flushed m ρ c t) reg2_cover)

end Cert.KernelIdeal.Val.R2

end
-- ==== Proof.KReg3.lean ====
import proofs.«116818_j36043365548320_1_alg».proof.Proof.KDot

noncomputable section

namespace Cert.KernelIdeal.Val.R3

open Cert.KernelIdeal Cert.KernelIdeal.Gen
open Idealize.ShloMosaic Idealize.ShloMosaic.TcCoe Idealize.SL.Sem Idealize.ShloMosaic.ValueIdx
open Idealize.ShloMosaic.Pipeline (Dat)

/-- Each window's block read off its array: rows 10000·t … of an operand or of the running sum, the whole of a weight or of the bias row. -/
theorem reg3_rd0 (X : S100000x64.Idx → Elt Ideal .f32) (t : Fin cfg3.N) (x : S10000x64.Idx) :
    (((cfg3.win 0).blk t).view.read (Elt Ideal) X : Vec Ideal S10000x64 .f32) x = X (ix2 (row t (x 0)) (x 1)) :=
  congrArg X (eq_row (ix_row t) x (win3_0.rect_emb_val t x))

theorem reg3_rd1 (X : S100000x64.Idx → Elt Ideal .f32) (t : Fin cfg3.N) (x : S10000x64.Idx) :
    (((cfg3.win 1).blk t).view.read (Elt Ideal) X : Vec Ideal S10000x64 .f32) x = X (ix2 (row t (x 0)) (x 1)) :=
  congrArg X (eq_row (ix_row t) x (win3_1.rect_emb_val t x))

theorem reg3_rd5 (X : S100000x64.Idx → Elt Ideal .f32) (t : Fin cfg3.N) (x : S10000x64.Idx) :
    (((cfg3.win 5).blk t).view.read (Elt Ideal) X : Vec Ideal S10000x64 .f32) x = X (ix2 (row t (x 0)) (x 1)) :=
  congrArg X (eq_row (ix_row t) x (win3_5.rect_emb_val t x))

theorem reg3_rd2 (X : S64x64.Idx → Elt Ideal .f32) (t : Fin cfg3.N) :
    (((cfg3.win 2).blk t).view.read (Elt Ideal) X : Vec Ideal S64x64 .f32) = X :=
  funext fun x => congrArg X (eq_whole (ix_whole (grid3.coords t)) (win3_2.rect_emb_val t x))

theorem reg3_rd3 (X : S64x64.Idx → Elt Ideal .f32) (t : Fin cfg3.N) :
    (((cfg3.win 3).blk t).view.read (Elt Ideal) X : Vec Ideal S64x64 .f32) = X :=
  funext fun x => congrArg X (eq_whole (ix_whole (grid3.coords t)) (win3_3.rect_emb_val t x))

theorem reg3_rd4 (X : S1x64.Idx → Elt Ideal .f32) (t : Fin cfg3.N) :
    (((cfg3.win 4).blk t).view.read (Elt Ideal) X : Vec Ideal S1x64 .f32) = X :=
  funext fun x => congrArg X (eq_whole (ix_whole (grid3.coords t)) (win3_4.rect_emb_val t x))

variable (m : (ℓ : Loc nD τ sig) → Buf (Elt Ideal) ℓ) (ρ : Dev nD → PrngReg) (c : Dev nD)

/-- What point t writes back: its blocks of a·wa + 1·(b·wb) + bias and of acc plus that, of the arrays the launch finds. -/
theorem reg3_flushed (t : Fin cfg3.N) :
    (dat3 (V11 m ρ) c).flushed 6 t = ((cfg3.win 6).blk t).view.read (Elt Ideal)
      (Cert.Spec.dual Cert.Spec.posOne (W11 m ρ c (Proc.devRef .tc main_v40)) (W11 m ρ c (Proc.devRef .tc main_v67))
        (W11 m ρ c (Proc.devRef .tc main_v7)) (W11 m ρ c (Proc.devRef .tc main_v8)) (W11 m ρ c (Proc.devRef .tc main_v68)))
    ∧ (dat3 (V11 m ρ) c).flushed 7 t = ((cfg3.win 7).blk t).view.read (Elt Ideal)
      (Cert.Spec.accum (W11 m ρ c (Proc.devRef .tc main_v9))
      (Cert.Spec.dual Cert.Spec.posOne (W11 m ρ c (Proc.devRef .tc main_v40)) (W11 m ρ c (Proc.devRef .tc main_v67))
        (W11 m ρ c (Proc.devRef .tc main_v7)) (W11 m ρ c (Proc.devRef .tc main_v8)) (W11 m ρ c (Proc.devRef .tc main_v68)))) := by
  constructor
  · show (cfg3.win 6).cut (grid3.coords t) ((dat3 (V11 m ρ) c).after 6 t) = _
    rw [after3_6]
    show (cfg3.win 6).cut (grid3.coords t) (out3_6 _ _ _ _ _ (iblk3 (V11 m ρ) c 5 t)) = _
    rw [out_comb]
    unfold iblk3
    funext y
    rw [View.read_apply]
    exact comb_point t (reg3_rd0 (W11 m ρ c (Proc.devRef .tc main_v40)) t) (reg3_rd1 (W11 m ρ c (Proc.devRef .tc main_v67)) t)
      (reg3_rd2 (W11 m ρ c (Proc.devRef .tc main_v7)) t) (reg3_rd3 (W11 m ρ c (Proc.devRef .tc main_v8)) t) (reg3_rd4 (W11 m ρ c (Proc.devRef .tc main_v68)) t)
      y (eq_row (ix_row t) y (win3_6.rect_emb_val t y))
  · show (cfg3.win 7).cut (grid3.coords t) ((dat3 (V11 m ρ) c).after 7 t) = _
    rw [after3_7]
    show (cfg3.win 7).cut (grid3.coords t) (out3_7 _ _ _ _ _ _) = _
    rw [out_acc]
    unfold iblk3
    funext y
    rw [View.read_apply]
    exact acc_point t (reg3_rd0 (W11 m ρ c (Proc.devRef .tc main_v40)) t) (reg3_rd1 (W11 m ρ c (Proc.devRef .tc main_v67)) t)
      (reg3_rd2 (W11 m ρ c (Proc.devRef .tc main_v7)) t) (reg3_rd3 (W11 m ρ c (Proc.devRef .tc main_v8)) t) (reg3_rd4 (W11 m ρ c (Proc.devRef .tc main_v68)) t)
      y (eq_row (ix_row t) y (win3_7.rect_emb_val t y)) (reg3_rd5 (W11 m ρ c (Proc.devRef .tc main_v9)) t)

/-- The ten blocks tile each result array. -/
theorem reg3_cover6 (i : S100000x64.Idx) :
    ∃ t : Fin cfg3.N, (cfg3.win 6).flush t = true ∧ i ∈ ((cfg3.win 6).blk t).view.set := by
  obtain ⟨t, h⟩ := mem_row i
  refine ⟨t, flush3_6 t, ?_⟩
  show i ∈ ((View.whole main_v69_0).slice (win3_6.rect t)).set
  rw [View.set_slice_whole, Rect.mem_set_unit]
  exact h _ (ix_row t)

theorem reg3_cover7 (i : S100000x64.Idx) :
    ∃ t : Fin cfg3.N, (cfg3.win 7).flush t = true ∧ i ∈ ((cfg3.win 7).blk t).view.set := by
  obtain ⟨t, h⟩ := mem_row i
  refine ⟨t, flush3_7 t, ?_⟩
  show i ∈ ((View.whole main_v69_1).slice (win3_7.rect t)).set
  rw [View.set_slice_whole, Rect.mem_set_unit]
  exact h _ (ix_row t)

theorem reg3 :
    (W12 m ρ c (Proc.devRef .tc main_v69_0) : Cert.Spec.Arr Cert.Spec.N 64)
      = Cert.Spec.dual Cert.Spec.posOne (W11 m ρ c (Proc.devRef .tc main_v40)) (W11 m ρ c (Proc.devRef .tc main_v67))
          (W11 m ρ c (Proc.devRef .tc main_v7)) (W11 m ρ c (Proc.devRef .tc main_v8)) (W11 m ρ c (Proc.devRef .tc main_v68))
    ∧ (W12 m ρ c (Proc.devRef .tc main_v69_1) : Cert.Spec.Arr Cert.Spec.N 64)
      = Cert.Spec.accum (W11 m ρ c (Proc.devRef .tc main_v9))
          (Cert.Spec.dual Cert.Spec.posOne (W11 m ρ c (Proc.devRef .tc main_v40)) (W11 m ρ c (Proc.devRef .tc main_v67))
            (W11 m ρ c (Proc.devRef .tc main_v7)) (W11 m ρ c (Proc.devRef .tc main_v8)) (W11 m ρ c (Proc.devRef .tc main_v68))) :=
  ⟨(W12_arr m ρ c 6).trans ((dat3 (V11 m ρ) c).arrAt_eq_of_cover 6 _ (fun t _ => (reg3_flushed m ρ c t).1) reg3_cover6),
    (W12_arr m ρ c 7).trans ((dat3 (V11 m ρ) c).arrAt_eq_of_cover 7 _ (fun t _ => (reg3_flushed m ρ c t).2) reg3_cover7)⟩

end Cert.KernelIdeal.Val.R3

end
-- ==== Proof.KReg4.lean ====
import proofs.«116818_j36043365548320_1_alg».proof.Proof.KDot

noncomputable section

namespace Cert.KernelIdeal.Val.R4

open Cert.KernelIdeal Cert.KernelIdeal.Gen
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem reg4_rd0 (X : S100000x64.Idx → Elt Ideal .f32) (t : Fin cfg4.N) (x : S10000x64.Idx) :
    (((cfg4.win 0).blk t).view.read (Elt Ideal) X : Vec Ideal S10000x64 .f32) x = X (ix2 (row t (x 0)) (x 1)) :=
  congrArg X (eq_row (ix_row t) x (win4_0.rect_emb_val t x))

theorem reg4_rd1 (X : S100000x64.Idx → Elt Ideal .f32) (t : Fin cfg4.N) (x : S10000x64.Idx) :
    (((cfg4.win 1).blk t).view.read (Elt Ideal) X : Vec Ideal S10000x64 .f32) x = X (ix2 (row t (x 0)) (x 1)) :=
  congrArg X (eq_row (ix_row t) x (win4_1.rect_emb_val t x))

theorem reg4_rd2 (X : S64x64.Idx → Elt Ideal .f32) (t : Fin cfg4.N) :
    (((cfg4.win 2).blk t).view.read (Elt Ideal) X : Vec Ideal S64x64 .f32) = X :=
  funext fun x => congrArg X (eq_whole (ix_whole (grid4.coords t)) (win4_2.rect_emb_val t x))

theorem reg4_rd3 (X : S64x64.Idx → Elt Ideal .f32) (t : Fin cfg4.N) :
    (((cfg4.win 3).blk t).view.read (Elt Ideal) X : Vec Ideal S64x64 .f32) = X :=
  funext fun x => congrArg X (eq_whole (ix_whole (grid4.coords t)) (win4_3.rect_emb_val t x))

theorem reg4_rd4 (X : S1x64.Idx → Elt Ideal .f32) (t : Fin cfg4.N) :
    (((cfg4.win 4).blk t).view.read (Elt Ideal) X : Vec Ideal S1x64 .f32) = X :=
  funext fun x => congrArg X (eq_whole (ix_whole (grid4.coords t)) (win4_4.rect_emb_val t x))

theorem reg4_flushed (c : Dev nD) (t : Fin cfg4.N) :
    (dat4 (V15 m ρ) c).flushed 5 t = ((cfg4.win 5).blk t).view.read (Elt Ideal)
      (Cert.Spec.dual Cert.Spec.negOne (W15 m ρ c (Proc.devRef .tc main_v69_0)) (W15 m ρ c (Proc.devRef .tc main_v98))
        (W15 m ρ c (Proc.devRef .tc main_v3)) (W15 m ρ c (Proc.devRef .tc main_v4)) (W15 m ρ c (Proc.devRef .tc main_v99))) := by
  show (cfg4.win 5).cut (grid4.coords t) ((dat4 (V15 m ρ) c).after 5 t) = _
  rw [after4_5]
  show (cfg4.win 5).cut (grid4.coords t) (out1_5 _ _ _ _ _) = _
  rw [out_dual]
  unfold iblk4
  funext y
  rw [View.read_apply]
  exact dual_point t (reg4_rd0 (W15 m ρ c (Proc.devRef .tc main_v69_0)) t) (reg4_rd1 (W15 m ρ c (Proc.devRef .tc main_v98)) t)
    (reg4_rd2 (W15 m ρ c (Proc.devRef .tc main_v3)) t) (reg4_rd3 (W15 m ρ c (Proc.devRef .tc main_v4)) t)
    (reg4_rd4 (W15 m ρ c (Proc.devRef .tc main_v99)) t) y (eq_row (ix_row t) y (win4_5.rect_emb_val t y))

theorem reg4_cover (i : S100000x64.Idx) :
    ∃ t : Fin cfg4.N, (cfg4.win 5).flush t = true ∧ i ∈ ((cfg4.win 5).blk t).view.set := by
  obtain ⟨t, h⟩ := mem_row i
  refine ⟨t, flush4_5 t, ?_⟩
  show i ∈ ((View.whole main_v100).slice (win4_5.rect t)).set
  rw [View.set_slice_whole, Rect.mem_set_unit]
  exact h _ (ix_row t)

theorem reg4 (c : Dev nD) :
    (W16 m ρ c (Proc.devRef .tc main_v100) : Cert.Spec.Arr Cert.Spec.N 64)
      = Cert.Spec.dual Cert.Spec.negOne (W15 m ρ c (Proc.devRef .tc main_v69_0)) (W15 m ρ c (Proc.devRef .tc main_v98))
          (W15 m ρ c (Proc.devRef .tc main_v3)) (W15 m ρ c (Proc.devRef .tc main_v4)) (W15 m ρ c (Proc.devRef .tc main_v99)) :=
  (W16_arr m ρ c 5).trans ((dat4 (V15 m ρ) c).arrAt_eq_of_cover 5 _ (fun t _ => reg4_flushed m ρ c t) reg4_cover)

end Cert.KernelIdeal.Val.R4

end
-- ==== Proof.KReg5.lean ====
import proofs.«116818_j36043365548320_1_alg».proof.Proof.KDot

noncomputable section

namespace Cert.KernelIdeal.Val.R5

open Cert.KernelIdeal Cert.KernelIdeal.Gen
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem reg5_rd0 (X : S100000x64.Idx → Elt Ideal .f32) (t : Fin cfg5.N) (x : S10000x64.Idx) :
    (((cfg5.win 0).blk t).view.read (Elt Ideal) X : Vec Ideal S10000x64 .f32) x = X (ix2 (row t (x 0)) (x 1)) :=
  congrArg X (eq_row (ix_row t) x (win5_0.rect_emb_val t x))

theorem reg5_rd1 (X : S100000x64.Idx → Elt Ideal .f32) (t : Fin cfg5.N) (x : S10000x64.Idx) :
    (((cfg5.win 1).blk t).view.read (Elt Ideal) X : Vec Ideal S10000x64 .f32) x = X (ix2 (row t (x 0)) (x 1)) :=
  congrArg X (eq_row (ix_row t) x (win5_1.rect_emb_val t x))

theorem reg5_rd2 (X : S64x64.Idx → Elt Ideal .f32) (t : Fin cfg5.N) :
    (((cfg5.win 2).blk t).view.read (Elt Ideal) X : Vec Ideal S64x64 .f32) = X :=
  funext fun x => congrArg X (eq_whole (ix_whole (grid5.coords t)) (win5_2.rect_emb_val t x))

theorem reg5_rd3 (X : S64x64.Idx → Elt Ideal .f32) (t : Fin cfg5.N) :
    (((cfg5.win 3).blk t).view.read (Elt Ideal) X : Vec Ideal S64x64 .f32) = X :=
  funext fun x => congrArg X (eq_whole (ix_whole (grid5.coords t)) (win5_3.rect_emb_val t x))

theorem reg5_rd4 (X : S1x64.Idx → Elt Ideal .f32) (t : Fin cfg5.N) :
    (((cfg5.win 4).blk t).view.read (Elt Ideal) X : Vec Ideal S1x64 .f32) = X :=
  funext fun x => congrArg X (eq_whole (ix_whole (grid5.coords t)) (win5_4.rect_emb_val t x))

theorem reg5_flushed (c : Dev nD) (t : Fin cfg5.N) :
    (dat5 (V19 m ρ) c).flushed 5 t = ((cfg5.win 5).blk t).view.read (Elt Ideal)
      (Cert.Spec.dual Cert.Spec.negOne (W19 m ρ c (Proc.devRef .tc main_v100)) (W19 m ρ c (Proc.devRef .tc main_v125))
        (W19 m ρ c (Proc.devRef .tc main_v5)) (W19 m ρ c (Proc.devRef .tc main_v6)) (W19 m ρ c (Proc.devRef .tc main_v126))) := by
  show (cfg5.win 5).cut (grid5.coords t) ((dat5 (V19 m ρ) c).after 5 t) = _
  rw [after5_5]
  show (cfg5.win 5).cut (grid5.coords t) (out1_5 _ _ _ _ _) = _
  rw [out_dual]
  unfold iblk5
  funext y
  rw [View.read_apply]
  exact dual_point t (reg5_rd0 (W19 m ρ c (Proc.devRef .tc main_v100)) t) (reg5_rd1 (W19 m ρ c (Proc.devRef .tc main_v125)) t)
    (reg5_rd2 (W19 m ρ c (Proc.devRef .tc main_v5)) t) (reg5_rd3 (W19 m ρ c (Proc.devRef .tc main_v6)) t)
    (reg5_rd4 (W19 m ρ c (Proc.devRef .tc main_v126)) t) y (eq_row (ix_row t) y (win5_5.rect_emb_val t y))

theorem reg5_cover (i : S100000x64.Idx) :
    ∃ t : Fin cfg5.N, (cfg5.win 5).flush t = true ∧ i ∈ ((cfg5.win 5).blk t).view.set := by
  obtain ⟨t, h⟩ := mem_row i
  refine ⟨t, flush5_5 t, ?_⟩
  show i ∈ ((View.whole main_v127).slice (win5_5.rect t)).set
  rw [View.set_slice_whole, Rect.mem_set_unit]
  exact h _ (ix_row t)

theorem reg5 (c : Dev nD) :
    (W20 m ρ c (Proc.devRef .tc main_v127) : Cert.Spec.Arr Cert.Spec.N 64)
      = Cert.Spec.dual Cert.Spec.negOne (W19 m ρ c (Proc.devRef .tc main_v100)) (W19 m ρ c (Proc.devRef .tc main_v125))
          (W19 m ρ c (Proc.devRef .tc main_v5)) (W19 m ρ c (Proc.devRef .tc main_v6)) (W19 m ρ c (Proc.devRef .tc main_v126)) :=
  (W20_arr m ρ c 5).trans ((dat5 (V19 m ρ) c).arrAt_eq_of_cover 5 _ (fun t _ => reg5_flushed m ρ c t) reg5_cover)

end Cert.KernelIdeal.Val.R5

end
-- ==== Proof.KReg6.lean ====
import proofs.«116818_j36043365548320_1_alg».proof.Proof.KDot

noncomputable section

namespace Cert.KernelIdeal.Val.R6

open Cert.KernelIdeal Cert.KernelIdeal.Gen
open Idealize.ShloMosaic Idealize.ShloMosaic.TcCoe Idealize.SL.Sem Idealize.ShloMosaic.ValueIdx
open Idealize.ShloMosaic.Pipeline (Dat)

theorem reg6_rd0 (X : S100000x64.Idx → Elt Ideal .f32) (t : Fin cfg6.N) (x : S10000x64.Idx) :
    (((cfg6.win 0).blk t).view.read (Elt Ideal) X : Vec Ideal S10000x64 .f32) x = X (ix2 (row t (x 0)) (x 1)) :=
  congrArg X (eq_row (ix_row t) x (win6_0.rect_emb_val t x))

theorem reg6_rd1 (X : S100000x64.Idx → Elt Ideal .f32) (t : Fin cfg6.N) (x : S10000x64.Idx) :
    (((cfg6.win 1).blk t).view.read (Elt Ideal) X : Vec Ideal S10000x64 .f32) x = X (ix2 (row t (x 0)) (x 1)) :=
  congrArg X (eq_row (ix_row t) x (win6_1.rect_emb_val t x))

theorem reg6_rd5 (X : S100000x64.Idx → Elt Ideal .f32) (t : Fin cfg6.N) (x : S10000x64.Idx) :
    (((cfg6.win 5).blk t).view.read (Elt Ideal) X : Vec Ideal S10000x64 .f32) x = X (ix2 (row t (x 0)) (x 1)) :=
  congrArg X (eq_row (ix_row t) x (win6_5.rect_emb_val t x))

theorem reg6_rd2 (X : S64x64.Idx → Elt Ideal .f32) (t : Fin cfg6.N) :
    (((cfg6.win 2).blk t).view.read (Elt Ideal) X : Vec Ideal S64x64 .f32) = X :=
  funext fun x => congrArg X (eq_whole (ix_whole (grid6.coords t)) (win6_2.rect_emb_val t x))

theorem reg6_rd3 (X : S64x64.Idx → Elt Ideal .f32) (t : Fin cfg6.N) :
    (((cfg6.win 3).blk t).view.read (Elt Ideal) X : Vec Ideal S64x64 .f32) = X :=
  funext fun x => congrArg X (eq_whole (ix_whole (grid6.coords t)) (win6_3.rect_emb_val t x))

theorem reg6_rd4 (X : S1x64.Idx → Elt Ideal .f32) (t : Fin cfg6.N) :
    (((cfg6.win 4).blk t).view.read (Elt Ideal) X : Vec Ideal S1x64 .f32) = X :=
  funext fun x => congrArg X (eq_whole (ix_whole (grid6.coords t)) (win6_4.rect_emb_val t x))

variable (m : (ℓ : Loc nD τ sig) → Buf (Elt Ideal) ℓ) (ρ : Dev nD → PrngReg) (c : Dev nD)

theorem reg6_flushed (t : Fin cfg6.N) :
    (dat6 (V21 m ρ) c).flushed 6 t = ((cfg6.win 6).blk t).view.read (Elt Ideal)
      (Cert.Spec.dual Cert.Spec.posOne (W21 m ρ c (Proc.devRef .tc main_v100)) (W21 m ρ c (Proc.devRef .tc main_v127))
        (W21 m ρ c (Proc.devRef .tc main_v7)) (W21 m ρ c (Proc.devRef .tc main_v8)) (W21 m ρ c (Proc.devRef .tc main_v128)))
    ∧ (dat6 (V21 m ρ) c).flushed 7 t = ((cfg6.win 7).blk t).view.read (Elt Ideal)
      (Cert.Spec.accum (W21 m ρ c (Proc.devRef .tc main_v69_1))
      (Cert.Spec.dual Cert.Spec.posOne (W21 m ρ c (Proc.devRef .tc main_v100)) (W21 m ρ c (Proc.devRef .tc main_v127))
        (W21 m ρ c (Proc.devRef .tc main_v7)) (W21 m ρ c (Proc.devRef .tc main_v8)) (W21 m ρ c (Proc.devRef .tc main_v128)))) := by
  constructor
  · show (cfg6.win 6).cut (grid6.coords t) ((dat6 (V21 m ρ) c).after 6 t) = _
    rw [after6_6]
    show (cfg6.win 6).cut (grid6.coords t) (out3_6 _ _ _ _ _ (iblk6 (V21 m ρ) c 5 t)) = _
    rw [out_comb]
    unfold iblk6
    funext y
    rw [View.read_apply]
    exact comb_point t (reg6_rd0 (W21 m ρ c (Proc.devRef .tc main_v100)) t) (reg6_rd1 (W21 m ρ c (Proc.devRef .tc main_v127)) t)
      (reg6_rd2 (W21 m ρ c (Proc.devRef .tc main_v7)) t) (reg6_rd3 (W21 m ρ c (Proc.devRef .tc main_v8)) t) (reg6_rd4 (W21 m ρ c (Proc.devRef .tc main_v128)) t)
      y (eq_row (ix_row t) y (win6_6.rect_emb_val t y))
  · show (cfg6.win 7).cut (grid6.coords t) ((dat6 (V21 m ρ) c).after 7 t) = _
    rw [after6_7]
    show (cfg6.win 7).cut (grid6.coords t) (out3_7 _ _ _ _ _ _) = _
    rw [out_acc]
    unfold iblk6
    funext y
    rw [View.read_apply]
    exact acc_point t (reg6_rd0 (W21 m ρ c (Proc.devRef .tc main_v100)) t) (reg6_rd1 (W21 m ρ c (Proc.devRef .tc main_v127)) t)
      (reg6_rd2 (W21 m ρ c (Proc.devRef .tc main_v7)) t) (reg6_rd3 (W21 m ρ c (Proc.devRef .tc main_v8)) t) (reg6_rd4 (W21 m ρ c (Proc.devRef .tc main_v128)) t)
      y (eq_row (ix_row t) y (win6_7.rect_emb_val t y)) (reg6_rd5 (W21 m ρ c (Proc.devRef .tc main_v69_1)) t)

theorem reg6_cover6 (i : S100000x64.Idx) :
    ∃ t : Fin cfg6.N, (cfg6.win 6).flush t = true ∧ i ∈ ((cfg6.win 6).blk t).view.set := by
  obtain ⟨t, h⟩ := mem_row i
  refine ⟨t, flush6_6 t, ?_⟩
  show i ∈ ((View.whole main_v129_0).slice (win6_6.rect t)).set
  rw [View.set_slice_whole, Rect.mem_set_unit]
  exact h _ (ix_row t)

theorem reg6_cover7 (i : S100000x64.Idx) :
    ∃ t : Fin cfg6.N, (cfg6.win 7).flush t = true ∧ i ∈ ((cfg6.win 7).blk t).view.set := by
  obtain ⟨t, h⟩ := mem_row i
  refine ⟨t, flush6_7 t, ?_⟩
  show i ∈ ((View.whole main_v129_1).slice (win6_7.rect t)).set
  rw [View.set_slice_whole, Rect.mem_set_unit]
  exact h _ (ix_row t)

theorem reg6 :
    (W22 m ρ c (Proc.devRef .tc main_v129_0) : Cert.Spec.Arr Cert.Spec.N 64)
      = Cert.Spec.dual Cert.Spec.posOne (W21 m ρ c (Proc.devRef .tc main_v100)) (W21 m ρ c (Proc.devRef .tc main_v127))
          (W21 m ρ c (Proc.devRef .tc main_v7)) (W21 m ρ c (Proc.devRef .tc main_v8)) (W21 m ρ c (Proc.devRef .tc main_v128))
    ∧ (W22 m ρ c (Proc.devRef .tc main_v129_1) : Cert.Spec.Arr Cert.Spec.N 64)
      = Cert.Spec.accum (W21 m ρ c (Proc.devRef .tc main_v69_1))
          (Cert.Spec.dual Cert.Spec.posOne (W21 m ρ c (Proc.devRef .tc main_v100)) (W21 m ρ c (Proc.devRef .tc main_v127))
            (W21 m ρ c (Proc.devRef .tc main_v7)) (W21 m ρ c (Proc.devRef .tc main_v8)) (W21 m ρ c (Proc.devRef .tc main_v128))) :=
  ⟨(W22_arr m ρ c 6).trans ((dat6 (V21 m ρ) c).arrAt_eq_of_cover 6 _ (fun t _ => (reg6_flushed m ρ c t).1) reg6_cover6),
    (W22_arr m ρ c 7).trans ((dat6 (V21 m ρ) c).arrAt_eq_of_cover 7 _ (fun t _ => (reg6_flushed m ρ c t).2) reg6_cover7)⟩

end Cert.KernelIdeal.Val.R6

end
-- ==== Proof.KReg7.lean ====
import proofs.«116818_j36043365548320_1_alg».proof.Proof.KDot

noncomputable section

namespace Cert.KernelIdeal.Val.R7

open Cert.KernelIdeal Cert.KernelIdeal.Gen
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem reg7_rd0 (X : S100000x64.Idx → Elt Ideal .f32) (t : Fin cfg7.N) (x : S10000x64.Idx) :
    (((cfg7.win 0).blk t).view.read (Elt Ideal) X : Vec Ideal S10000x64 .f32) x = X (ix2 (row t (x 0)) (x 1)) :=
  congrArg X (eq_row (ix_row t) x (win7_0.rect_emb_val t x))

theorem reg7_rd1 (X : S100000x64.Idx → Elt Ideal .f32) (t : Fin cfg7.N) (x : S10000x64.Idx) :
    (((cfg7.win 1).blk t).view.read (Elt Ideal) X : Vec Ideal S10000x64 .f32) x = X (ix2 (row t (x 0)) (x 1)) :=
  congrArg X (eq_row (ix_row t) x (win7_1.rect_emb_val t x))

theorem reg7_rd2 (X : S64x64.Idx → Elt Ideal .f32) (t : Fin cfg7.N) :
    (((cfg7.win 2).blk t).view.read (Elt Ideal) X : Vec Ideal S64x64 .f32) = X :=
  funext fun x => congrArg X (eq_whole (ix_whole (grid7.coords t)) (win7_2.rect_emb_val t x))

theorem reg7_rd3 (X : S64x64.Idx → Elt Ideal .f32) (t : Fin cfg7.N) :
    (((cfg7.win 3).blk t).view.read (Elt Ideal) X : Vec Ideal S64x64 .f32) = X :=
  funext fun x => congrArg X (eq_whole (ix_whole (grid7.coords t)) (win7_3.rect_emb_val t x))

theorem reg7_rd4 (X : S1x64.Idx → Elt Ideal .f32) (t : Fin cfg7.N) :
    (((cfg7.win 4).blk t).view.read (Elt Ideal) X : Vec Ideal S1x64 .f32) = X :=
  funext fun x => congrArg X (eq_whole (ix_whole (grid7.coords t)) (win7_4.rect_emb_val t x))

theorem reg7_flushed (c : Dev nD) (t : Fin cfg7.N) :
    (dat7 (V25 m ρ) c).flushed 5 t = ((cfg7.win 5).blk t).view.read (Elt Ideal)
      (Cert.Spec.dual Cert.Spec.negOne (W25 m ρ c (Proc.devRef .tc main_v129_0)) (W25 m ρ c (Proc.devRef .tc main_v158))
        (W25 m ρ c (Proc.devRef .tc main_v3)) (W25 m ρ c (Proc.devRef .tc main_v4)) (W25 m ρ c (Proc.devRef .tc main_v159))) := by
  show (cfg7.win 5).cut (grid7.coords t) ((dat7 (V25 m ρ) c).after 5 t) = _
  rw [after7_5]
  show (cfg7.win 5).cut (grid7.coords t) (out1_5 _ _ _ _ _) = _
  rw [out_dual]
  unfold iblk7
  funext y
  rw [View.read_apply]
  exact dual_point t (reg7_rd0 (W25 m ρ c (Proc.devRef .tc main_v129_0)) t) (reg7_rd1 (W25 m ρ c (Proc.devRef .tc main_v158)) t)
    (reg7_rd2 (W25 m ρ c (Proc.devRef .tc main_v3)) t) (reg7_rd3 (W25 m ρ c (Proc.devRef .tc main_v4)) t)
    (reg7_rd4 (W25 m ρ c (Proc.devRef .tc main_v159)) t) y (eq_row (ix_row t) y (win7_5.rect_emb_val t y))

theorem reg7_cover (i : S100000x64.Idx) :
    ∃ t : Fin cfg7.N, (cfg7.win 5).flush t = true ∧ i ∈ ((cfg7.win 5).blk t).view.set := by
  obtain ⟨t, h⟩ := mem_row i
  refine ⟨t, flush7_5 t, ?_⟩
  show i ∈ ((View.whole main_v160).slice (win7_5.rect t)).set
  rw [View.set_slice_whole, Rect.mem_set_unit]
  exact h _ (ix_row t)

theorem reg7 (c : Dev nD) :
    (W26 m ρ c (Proc.devRef .tc main_v160) : Cert.Spec.Arr Cert.Spec.N 64)
      = Cert.Spec.dual Cert.Spec.negOne (W25 m ρ c (Proc.devRef .tc main_v129_0)) (W25 m ρ c (Proc.devRef .tc main_v158))
          (W25 m ρ c (Proc.devRef .tc main_v3)) (W25 m ρ c (Proc.devRef .tc main_v4)) (W25 m ρ c (Proc.devRef .tc main_v159)) :=
  (W26_arr m ρ c 5).trans ((dat7 (V25 m ρ) c).arrAt_eq_of_cover 5 _ (fun t _ => reg7_flushed m ρ c t) reg7_cover)

end Cert.KernelIdeal.Val.R7

end
-- ==== Proof.KReg8.lean ====
import proofs.«116818_j36043365548320_1_alg».proof.Proof.KDot

noncomputable section

namespace Cert.KernelIdeal.Val.R8

open Cert.KernelIdeal Cert.KernelIdeal.Gen
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem reg8_rd0 (X : S100000x64.Idx → Elt Ideal .f32) (t : Fin cfg8.N) (x : S10000x64.Idx) :
    (((cfg8.win 0).blk t).view.read (Elt Ideal) X : Vec Ideal S10000x64 .f32) x = X (ix2 (row t (x 0)) (x 1)) :=
  congrArg X (eq_row (ix_row t) x (win8_0.rect_emb_val t x))

theorem reg8_rd1 (X : S100000x64.Idx → Elt Ideal .f32) (t : Fin cfg8.N) (x : S10000x64.Idx) :
    (((cfg8.win 1).blk t).view.read (Elt Ideal) X : Vec Ideal S10000x64 .f32) x = X (ix2 (row t (x 0)) (x 1)) :=
  congrArg X (eq_row (ix_row t) x (win8_1.rect_emb_val t x))

theorem reg8_rd2 (X : S64x64.Idx → Elt Ideal .f32) (t : Fin cfg8.N) :
    (((cfg8.win 2).blk t).view.read (Elt Ideal) X : Vec Ideal S64x64 .f32) = X :=
  funext fun x => congrArg X (eq_whole (ix_whole (grid8.coords t)) (win8_2.rect_emb_val t x))

theorem reg8_rd3 (X : S64x64.Idx → Elt Ideal .f32) (t : Fin cfg8.N) :
    (((cfg8.win 3).blk t).view.read (Elt Ideal) X : Vec Ideal S64x64 .f32) = X :=
  funext fun x => congrArg X (eq_whole (ix_whole (grid8.coords t)) (win8_3.rect_emb_val t x))

theorem reg8_rd4 (X : S1x64.Idx → Elt Ideal .f32) (t : Fin cfg8.N) :
    (((cfg8.win 4).blk t).view.read (Elt Ideal) X : Vec Ideal S1x64 .f32) = X :=
  funext fun x => congrArg X (eq_whole (ix_whole (grid8.coords t)) (win8_4.rect_emb_val t x))

theorem reg8_flushed (c : Dev nD) (t : Fin cfg8.N) :
    (dat8 (V29 m ρ) c).flushed 5 t = ((cfg8.win 5).blk t).view.read (Elt Ideal)
      (Cert.Spec.dual Cert.Spec.negOne (W29 m ρ c (Proc.devRef .tc main_v160)) (W29 m ρ c (Proc.devRef .tc main_v185))
        (W29 m ρ c (Proc.devRef .tc main_v5)) (W29 m ρ c (Proc.devRef .tc main_v6)) (W29 m ρ c (Proc.devRef .tc main_v186))) := by
  show (cfg8.win 5).cut (grid8.coords t) ((dat8 (V29 m ρ) c).after 5 t) = _
  rw [after8_5]
  show (cfg8.win 5).cut (grid8.coords t) (out1_5 _ _ _ _ _) = _
  rw [out_dual]
  unfold iblk8
  funext y
  rw [View.read_apply]
  exact dual_point t (reg8_rd0 (W29 m ρ c (Proc.devRef .tc main_v160)) t) (reg8_rd1 (W29 m ρ c (Proc.devRef .tc main_v185)) t)
    (reg8_rd2 (W29 m ρ c (Proc.devRef .tc main_v5)) t) (reg8_rd3 (W29 m ρ c (Proc.devRef .tc main_v6)) t)
    (reg8_rd4 (W29 m ρ c (Proc.devRef .tc main_v186)) t) y (eq_row (ix_row t) y (win8_5.rect_emb_val t y))

theorem reg8_cover (i : S100000x64.Idx) :
    ∃ t : Fin cfg8.N, (cfg8.win 5).flush t = true ∧ i ∈ ((cfg8.win 5).blk t).view.set := by
  obtain ⟨t, h⟩ := mem_row i
  refine ⟨t, flush8_5 t, ?_⟩
  show i ∈ ((View.whole main_v187).slice (win8_5.rect t)).set
  rw [View.set_slice_whole, Rect.mem_set_unit]
  exact h _ (ix_row t)

theorem reg8 (c : Dev nD) :
    (W30 m ρ c (Proc.devRef .tc main_v187) : Cert.Spec.Arr Cert.Spec.N 64)
      = Cert.Spec.dual Cert.Spec.negOne (W29 m ρ c (Proc.devRef .tc main_v160)) (W29 m ρ c (Proc.devRef .tc main_v185))
          (W29 m ρ c (Proc.devRef .tc main_v5)) (W29 m ρ c (Proc.devRef .tc main_v6)) (W29 m ρ c (Proc.devRef .tc main_v186)) :=
  (W30_arr m ρ c 5).trans ((dat8 (V29 m ρ) c).arrAt_eq_of_cover 5 _ (fun t _ => reg8_flushed m ρ c t) reg8_cover)

end Cert.KernelIdeal.Val.R8

end
-- ==== Proof.KReg9.lean ====
import proofs.«116818_j36043365548320_1_alg».proof.Proof.KDot

noncomputable section

namespace Cert.KernelIdeal.Val.R9

open Cert.KernelIdeal Cert.KernelIdeal.Gen
open Idealize.ShloMosaic Idealize.ShloMosaic.TcCoe Idealize.SL.Sem Idealize.ShloMosaic.ValueIdx
open Idealize.ShloMosaic.Pipeline (Dat)

theorem reg9_rd0 (X : S100000x64.Idx → Elt Ideal .f32) (t : Fin cfg9.N) (x : S10000x64.Idx) :
    (((cfg9.win 0).blk t).view.read (Elt Ideal) X : Vec Ideal S10000x64 .f32) x = X (ix2 (row t (x 0)) (x 1)) :=
  congrArg X (eq_row (ix_row t) x (win9_0.rect_emb_val t x))

theorem reg9_rd1 (X : S100000x64.Idx → Elt Ideal .f32) (t : Fin cfg9.N) (x : S10000x64.Idx) :
    (((cfg9.win 1).blk t).view.read (Elt Ideal) X : Vec Ideal S10000x64 .f32) x = X (ix2 (row t (x 0)) (x 1)) :=
  congrArg X (eq_row (ix_row t) x (win9_1.rect_emb_val t x))

theorem reg9_rd5 (X : S100000x64.Idx → Elt Ideal .f32) (t : Fin cfg9.N) (x : S10000x64.Idx) :
    (((cfg9.win 5).blk t).view.read (Elt Ideal) X : Vec Ideal S10000x64 .f32) x = X (ix2 (row t (x 0)) (x 1)) :=
  congrArg X (eq_row (ix_row t) x (win9_5.rect_emb_val t x))

theorem reg9_rd2 (X : S64x64.Idx → Elt Ideal .f32) (t : Fin cfg9.N) :
    (((cfg9.win 2).blk t).view.read (Elt Ideal) X : Vec Ideal S64x64 .f32) = X :=
  funext fun x => congrArg X (eq_whole (ix_whole (grid9.coords t)) (win9_2.rect_emb_val t x))

theorem reg9_rd3 (X : S64x64.Idx → Elt Ideal .f32) (t : Fin cfg9.N) :
    (((cfg9.win 3).blk t).view.read (Elt Ideal) X : Vec Ideal S64x64 .f32) = X :=
  funext fun x => congrArg X (eq_whole (ix_whole (grid9.coords t)) (win9_3.rect_emb_val t x))

theorem reg9_rd4 (X : S1x64.Idx → Elt Ideal .f32) (t : Fin cfg9.N) :
    (((cfg9.win 4).blk t).view.read (Elt Ideal) X : Vec Ideal S1x64 .f32) = X :=
  funext fun x => congrArg X (eq_whole (ix_whole (grid9.coords t)) (win9_4.rect_emb_val t x))

variable (m : (ℓ : Loc nD τ sig) → Buf (Elt Ideal) ℓ) (ρ : Dev nD → PrngReg) (c : Dev nD)

theorem reg9_flushed (t : Fin cfg9.N) :
    (dat9 (V31 m ρ) c).flushed 6 t = ((cfg9.win 6).blk t).view.read (Elt Ideal)
      (Cert.Spec.dual Cert.Spec.posOne (W31 m ρ c (Proc.devRef .tc main_v160)) (W31 m ρ c (Proc.devRef .tc main_v187))
        (W31 m ρ c (Proc.devRef .tc main_v7)) (W31 m ρ c (Proc.devRef .tc main_v8)) (W31 m ρ c (Proc.devRef .tc main_v188)))
    ∧ (dat9 (V31 m ρ) c).flushed 7 t = ((cfg9.win 7).blk t).view.read (Elt Ideal)
      (Cert.Spec.accum (W31 m ρ c (Proc.devRef .tc main_v129_1))
      (Cert.Spec.dual Cert.Spec.posOne (W31 m ρ c (Proc.devRef .tc main_v160)) (W31 m ρ c (Proc.devRef .tc main_v187))
        (W31 m ρ c (Proc.devRef .tc main_v7)) (W31 m ρ c (Proc.devRef .tc main_v8)) (W31 m ρ c (Proc.devRef .tc main_v188)))) := by
  constructor
  · show (cfg9.win 6).cut (grid9.coords t) ((dat9 (V31 m ρ) c).after 6 t) = _
    rw [after9_6]
    show (cfg9.win 6).cut (grid9.coords t) (out3_6 _ _ _ _ _ (iblk9 (V31 m ρ) c 5 t)) = _
    rw [out_comb]
    unfold iblk9
    funext y
    rw [View.read_apply]
    exact comb_point t (reg9_rd0 (W31 m ρ c (Proc.devRef .tc main_v160)) t) (reg9_rd1 (W31 m ρ c (Proc.devRef .tc main_v187)) t)
      (reg9_rd2 (W31 m ρ c (Proc.devRef .tc main_v7)) t) (reg9_rd3 (W31 m ρ c (Proc.devRef .tc main_v8)) t) (reg9_rd4 (W31 m ρ c (Proc.devRef .tc main_v188)) t)
      y (eq_row (ix_row t) y (win9_6.rect_emb_val t y))
  · show (cfg9.win 7).cut (grid9.coords t) ((dat9 (V31 m ρ) c).after 7 t) = _
    rw [after9_7]
    show (cfg9.win 7).cut (grid9.coords t) (out3_7 _ _ _ _ _ _) = _
    rw [out_acc]
    unfold iblk9
    funext y
    rw [View.read_apply]
    exact acc_point t (reg9_rd0 (W31 m ρ c (Proc.devRef .tc main_v160)) t) (reg9_rd1 (W31 m ρ c (Proc.devRef .tc main_v187)) t)
      (reg9_rd2 (W31 m ρ c (Proc.devRef .tc main_v7)) t) (reg9_rd3 (W31 m ρ c (Proc.devRef .tc main_v8)) t) (reg9_rd4 (W31 m ρ c (Proc.devRef .tc main_v188)) t)
      y (eq_row (ix_row t) y (win9_7.rect_emb_val t y)) (reg9_rd5 (W31 m ρ c (Proc.devRef .tc main_v129_1)) t)

theorem reg9_cover6 (i : S100000x64.Idx) :
    ∃ t : Fin cfg9.N, (cfg9.win 6).flush t = true ∧ i ∈ ((cfg9.win 6).blk t).view.set := by
  obtain ⟨t, h⟩ := mem_row i
  refine ⟨t, flush9_6 t, ?_⟩
  show i ∈ ((View.whole main_v189_0).slice (win9_6.rect t)).set
  rw [View.set_slice_whole, Rect.mem_set_unit]
  exact h _ (ix_row t)

theorem reg9_cover7 (i : S100000x64.Idx) :
    ∃ t : Fin cfg9.N, (cfg9.win 7).flush t = true ∧ i ∈ ((cfg9.win 7).blk t).view.set := by
  obtain ⟨t, h⟩ := mem_row i
  refine ⟨t, flush9_7 t, ?_⟩
  show i ∈ ((View.whole main_v189_1).slice (win9_7.rect t)).set
  rw [View.set_slice_whole, Rect.mem_set_unit]
  exact h _ (ix_row t)

theorem reg9 :
    (W32 m ρ c (Proc.devRef .tc main_v189_0) : Cert.Spec.Arr Cert.Spec.N 64)
      = Cert.Spec.dual Cert.Spec.posOne (W31 m ρ c (Proc.devRef .tc main_v160)) (W31 m ρ c (Proc.devRef .tc main_v187))
          (W31 m ρ c (Proc.devRef .tc main_v7)) (W31 m ρ c (Proc.devRef .tc main_v8)) (W31 m ρ c (Proc.devRef .tc main_v188))
    ∧ (W32 m ρ c (Proc.devRef .tc main_v189_1) : Cert.Spec.Arr Cert.Spec.N 64)
      = Cert.Spec.accum (W31 m ρ c (Proc.devRef .tc main_v129_1))
          (Cert.Spec.dual Cert.Spec.posOne (W31 m ρ c (Proc.devRef .tc main_v160)) (W31 m ρ c (Proc.devRef .tc main_v187))
            (W31 m ρ c (Proc.devRef .tc main_v7)) (W31 m ρ c (Proc.devRef .tc main_v8)) (W31 m ρ c (Proc.devRef .tc main_v188))) :=
  ⟨(W32_arr m ρ c 6).trans ((dat9 (V31 m ρ) c).arrAt_eq_of_cover 6 _ (fun t _ => (reg9_flushed m ρ c t).1) reg9_cover6),
    (W32_arr m ρ c 7).trans ((dat9 (V31 m ρ) c).arrAt_eq_of_cover 7 _ (fun t _ => (reg9_flushed m ρ c t).2) reg9_cover7)⟩

end Cert.KernelIdeal.Val.R9

end
-- ==== Proof.KReg10.lean ====
import proofs.«116818_j36043365548320_1_alg».proof.Proof.KDot

noncomputable section

open scoped BigOperators

namespace Cert.KernelIdeal.Val.R10

open Cert.KernelIdeal Cert.KernelIdeal.Gen
open Idealize.ShloMosaic Idealize.ShloMosaic.TcCoe Idealize.SL.Sem Idealize.ShloMosaic.ValueIdx
open Idealize.ShloMosaic.Pipeline (Dat)

/-- The body's value at an entry of point t's block, the feature block being rows 10000·t … of H and the weight and
    bias blocks the whole arrays: the head of H at that row. -/
theorem reg10_point {x0 : Vec Ideal S10000x64 .f32} {x1 : Vec Ideal S64x2 .f32} {x2 : Vec Ideal S1x2 .f32}
    {H : Cert.Spec.Arr Cert.Spec.N 64} {W : Cert.Spec.Arr 64 2} {B : Cert.Spec.Arr 1 2} (t : Fin grid1.N)
    (h0 : ∀ x, x0 x = H (ix2 (row t (x 0)) (x 1))) (h1 : x1 = W) (h2 : x2 = B)
    (y : S10000x2.Idx) {j : S100000x2.Idx} (hj : j = ix2 (row t (y 0)) (y 1)) :
    k10_pay1 (F := Ideal) x0 x1 x2 y = Cert.Spec.head H W B j := by
  subst h1 h2 hj
  obtain ⟨p, q, rfl⟩ : ∃ (p : Fin 10000) (q : Fin 2), y = ix2 p q := ⟨y 0, y 1, eq_ix2 y⟩
  unfold k10_pay1
  show _ = (∑ l : Fin 64, Cert.Spec.lrelu (H (ix2 (row t p) l)) * x1 (ix2 l q)) + x2 (ix2 0 q)
  refine (addf_apply _ _ _).trans (congrArg₂ (· + ·) ((mm_apply _ _ p q).trans
    (Finset.sum_congr rfl fun l _ => congrArg (· * x1 (ix2 l q)) ?_)) ?_)
  · rw [shapeCast_self]
    exact (lrelu_word _).trans (congrArg Cert.Spec.lrelu (h0 (ix2 p l)))
  · rw [shapeCast_self]
    exact broadcastTo_1b_ab_apply x2 _ p q

/-- Each window's block read off its array: rows 10000·t … of the features, the whole of the weight or of the bias row. -/
theorem reg10_rd0 (X : S100000x64.Idx → Elt Ideal .f32) (t : Fin cfg10.N) (x : S10000x64.Idx) :
    (((cfg10.win 0).blk t).view.read (Elt Ideal) X : Vec Ideal S10000x64 .f32) x = X (ix2 (row t (x 0)) (x 1)) :=
  congrArg X (eq_row (ix_row t) x (win10_0.rect_emb_val t x))

theorem reg10_rd1 (X : S64x2.Idx → Elt Ideal .f32) (t : Fin cfg10.N) :
    (((cfg10.win 1).blk t).view.read (Elt Ideal) X : Vec Ideal S64x2 .f32) = X :=
  funext fun x => congrArg X (eq_whole (ix_whole (grid10.coords t)) (win10_1.rect_emb_val t x))

theorem reg10_rd2 (X : S1x2.Idx → Elt Ideal .f32) (t : Fin cfg10.N) :
    (((cfg10.win 2).blk t).view.read (Elt Ideal) X : Vec Ideal S1x2 .f32) = X :=
  funext fun x => congrArg X (eq_whole (ix_whole (grid10.coords t)) (win10_2.rect_emb_val t x))

variable (m : (ℓ : Loc nD τ sig) → Buf (Elt Ideal) ℓ) (ρ : Dev nD → PrngReg) (c : Dev nD)

/-- What point t writes back is its block of the head of the arrays the launch finds. -/
theorem reg10_flushed (t : Fin cfg10.N) :
    (dat10 (V33 m ρ) c).flushed 3 t = ((cfg10.win 3).blk t).view.read (Elt Ideal)
      (Cert.Spec.head (W33 m ρ c (Proc.devRef .tc main_v189_1)) (W33 m ρ c (Proc.devRef .tc main_arg13))
        (W33 m ρ c (Proc.devRef .tc main_v190))) := by
  show (cfg10.win 3).cut (grid10.coords t) ((dat10 (V33 m ρ) c).after 3 t) = _
  rw [after10_3]
  unfold out10_3
  rw [View.canon_unit_zero hz]
  simp only [View.ld_unit_zero (S := S10000x64) hz, View.ld_unit_zero (S := S64x2) hz, View.ld_unit_zero (S := S1x2) hz]
  unfold iblk10
  funext y
  rw [View.read_apply]
  exact reg10_point t (reg10_rd0 (W33 m ρ c (Proc.devRef .tc main_v189_1)) t) (reg10_rd1 (W33 m ρ c (Proc.devRef .tc main_arg13)) t)
    (reg10_rd2 (W33 m ρ c (Proc.devRef .tc main_v190)) t) y (eq_row (ix_row t) y (win10_3.rect_emb_val t y))

/-- The ten blocks tile the result array. -/
theorem reg10_cover (i : S100000x2.Idx) :
    ∃ t : Fin cfg10.N, (cfg10.win 3).flush t = true ∧ i ∈ ((cfg10.win 3).blk t).view.set := by
  obtain ⟨t, h⟩ := mem_row i
  refine ⟨t, flush10_3 t, ?_⟩
  show i ∈ ((View.whole main_v191).slice (win10_3.rect t)).set
  rw [View.set_slice_whole, Rect.mem_set_unit]
  exact h _ (ix_row t)

theorem reg10 :
    (W34 m ρ c (Proc.devRef .tc main_v191) : Cert.Spec.Arr Cert.Spec.N 2)
      = Cert.Spec.head (W33 m ρ c (Proc.devRef .tc main_v189_1)) (W33 m ρ c (Proc.devRef .tc main_arg13))
          (W33 m ρ c (Proc.devRef .tc main_v190)) :=
  (W34_arr m ρ c 3).trans ((dat10 (V33 m ρ) c).arrAt_eq_of_cover 3 _ (fun t _ => reg10_flushed m ρ c t) reg10_cover)

end Cert.KernelIdeal.Val.R10

end
-- ==== Proof.Agg.lean ====
import proofs.«116818_j36043365548320_1_alg».proof.Proof.Gen.ReferenceIdeal
import proofs.«116818_j36043365548320_1_alg».proof.Proof.Spec

noncomputable section

namespace Cert.Spec

open Idealize.ShloMosaic Cert.ReferenceIdeal Cert.ReferenceIdeal.Facts₀

variable {F : FTy → Type} [FloatOps F]

def degree (d : IVec S1000000 32) : FVec F S100000 .f32 :=
  Host.scatterAdd scatter_S100000_S1000000x1_S1000000_n_0_0_1
    (broadcastInDim S100000 ![] bcast_S_S100000 (constant S_ .f32 0x00000000#32))
    (broadcastInDim S1000000x1 ![0] bcast_S1000000_S1000000x1_0 d)
    (broadcastInDim S1000000 ![] bcast_S_S1000000 (constant S_ .f32 0x3F800000#32))

def dinv (d : IVec S1000000 32) : FVec F S100000 .f32 :=
  Host.powf
    (select (cmpf .olt (degree (F := F) d) (broadcastInDim S100000 ![] bcast_S_S100000 (constant S_ .f32 0x3F800000#32)))
      (broadcastInDim S100000 ![] bcast_S_S100000 (id (constant S_ .f32 0x3F800000#32))) (degree (F := F) d))
    (broadcastInDim S100000 ![] bcast_S_S100000 (constant S_ .f32 0xBF000000#32))

def dinvFull (d : IVec S1000000 32) : FVec F S100000x64 .f32 :=
  broadcastInDim S100000x64 ![0, 1] bcast_S100000x1_S100000x64_0_1
    (broadcastInDim S100000x1 ![0] bcast_S100000_S100000x1_0 (dinv (F := F) d))

def wrap (s : IVec S1000000 32) : IVec S1000000 32 :=
  select (cmpi .slt s (broadcastInDim S1000000 ![] bcast_S_S1000000 (constantI S_ 32 0#32)))
    (addi s (broadcastInDim S1000000 ![] bcast_S_S1000000 (constantI S_ 32 100000#32))) s

def agg (feat : FVec F S100000x64 .f32) (s d : IVec S1000000 32) : FVec F S100000x64 .f32 :=
  mulf (dinvFull (F := F) d)
    (Host.scatterAdd scatter_S100000x64_S1000000x1_S1000000x64_1_0_0_1
      (broadcastInDim S100000x64 ![] bcast_S_S100000x64 (constant S_ .f32 0x00000000#32))
      (broadcastInDim S1000000x1 ![0] bcast_S1000000_S1000000x1_0 d)
      (Host.gather gather_S100000x64_S1000000x1_S1000000x64_1_0_n_n_0_1_164 (mulf feat (dinvFull (F := F) d))
        (broadcastInDim S1000000x1 ![0] bcast_S1000000_S1000000x1_0 (wrap s))))

def edge0 (e : IVec S3x1000000 32) : IVec S1000000 32 :=
  shapeCast S1000000 (extractStridedSlice S1x1000000 ![0, 0] e slices_S3x1000000_S1x1000000_0_0) shapeCasts_S1x1000000_S1000000

def edge1 (e : IVec S3x1000000 32) : IVec S1000000 32 :=
  shapeCast S1000000 (extractStridedSlice S1x1000000 ![1, 0] e slices_S3x1000000_S1x1000000_1_0) shapeCasts_S1x1000000_S1000000

def edge2 (e : IVec S3x1000000 32) : IVec S1000000 32 :=
  shapeCast S1000000 (extractStridedSlice S1x1000000 ![2, 0] e slices_S3x1000000_S1x1000000_2_0) shapeCasts_S1x1000000_S1000000

end Cert.Spec

end
-- ==== Proof.SpecRel.lean ====
import proofs.«116818_j36043365548320_1_alg».proof.Proof.Agg

noncomputable section

namespace Cert.Spec

open Idealize.ShloMosaic Cert.ReferenceIdeal

abbrev Edges : Type := IVec S1000000 32

def stepK (h : Arr N 64) (s d : Edges) (wc : Arr 128 64) (bc : Arr1 64) : Arr N 64 :=
  dual negOne h (agg (F := Ideal) h s d) (top wc) (bot wc) (row bc)

def relK (h : Arr N 64) (s d : Edges) (wc1 : Arr 128 64) (bc1 : Arr1 64) (wc2 : Arr 128 64) (bc2 : Arr1 64)
    (w3 : Arr 128 64) (b3 : Arr1 64) : Arr N 64 :=
  dual posOne (stepK h s d wc1 bc1) (stepK (stepK h s d wc1 bc1) s d wc2 bc2) (top w3) (bot w3) (row b3)

def stepR (h : Arr N 64) (s d : Edges) (wc : Arr 128 64) (bc : Arr1 64) : Arr N 64 :=
  cheb h (agg (F := Ideal) h s d) wc (row bc)

def relR (h : Arr N 64) (s d : Edges) (wc1 : Arr 128 64) (bc1 : Arr1 64) (wc2 : Arr 128 64) (bc2 : Arr1 64)
    (w3 : Arr 128 64) (b3 : Arr1 64) : Arr N 64 :=
  fuse (stepR h s d wc1 bc1) (stepR (stepR h s d wc1 bc1) s d wc2 bc2) w3 (row b3)

def net (rel : Arr N 64 → Edges → Edges → Arr 128 64 → Arr1 64 → Arr 128 64 → Arr1 64 → Arr 128 64 → Arr1 64 → Arr N 64)
    (x : Arr N 64) (src dst : IVec S3x1000000 32) (w1 : Arr 64 64) (b1 : Arr1 64) (w2 : Arr 64 64) (b2 : Arr1 64)
    (wc1 : Arr 128 64) (bc1 : Arr1 64) (wc2 : Arr 128 64) (bc2 : Arr1 64) (w3 : Arr 128 64) (b3 : Arr1 64)
    (w4 : Arr 64 2) (b4 : Arr1 2) : Arr N 2 :=
  let h := mlp x w1 (row b1) w2 (row b2)
  let r0 := rel h (edge0 src) (edge0 dst) wc1 bc1 wc2 bc2 w3 b3
  let r1 := rel r0 (edge1 src) (edge1 dst) wc1 bc1 wc2 bc2 w3 b3
  let r2 := rel r1 (edge2 src) (edge2 dst) wc1 bc1 wc2 bc2 w3 b3
  head (accum (accum (accum zeros r0) r1) r2) w4 (row b4)

abbrev outK := net relK

abbrev outR := net relR

end Cert.Spec

end
-- ==== Proof.KHostLib.lean ====
import proofs.«116818_j36043365548320_1_alg».proof.Proof.Gen.KernelIdeal.Frame
import proofs.«116818_j36043365548320_1_alg».proof.Proof.SpecRel
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Val.HL

open Cert.KernelIdeal Cert.KernelIdeal.Gen Idealize.ShloMosaic Idealize.ShloMosaic.TcCoe Idealize.SL.Sem Cert.Spec
open Idealize.ShloMosaic.ValueIdx

-- Entry (0, i) of the reshaped vector and entry i of the vector sit at the same row-major position.
theorem reshape_row {n : Nat} (b : Arr1 n) (h : (⟨1, ![n]⟩ : Shape).ShapeCasts ⟨2, ![1, n]⟩) :
    (shapeCast ⟨2, ![1, n]⟩ b h : Arr 1 n) = row b := by
  funext j
  rw [eq_ix2 j]
  exact shapeCast_a_1a_apply b h (j 0) (j 1)

def clamp (d : Edges) : FVec Ideal S100000 .f32 :=
  select (cmpf .olt (degree (F := Ideal) d) (broadcastInDim S100000 ![] bcast_S_S100000 (constant S_ .f32 0x3F800000#32)))
    (broadcastInDim S100000 ![] bcast_S_S100000 (id (constant S_ .f32 0x3F800000#32))) (degree (F := Ideal) d)

def invSqrtCols (g : FVec Ideal S100000 .f32) : FVec Ideal S100000x64 .f32 :=
  broadcastInDim S100000x64 ![0, 1] bcast_S100000x1_S100000x64_0_1
    (broadcastInDim S100000x1 ![0] bcast_S100000_S100000x1_0
      (Host.powf g (broadcastInDim S100000 ![] bcast_S_S100000 (constant S_ .f32 0xBF000000#32))))

def aggTail (feat : FVec Ideal S100000x64 .f32) (g : FVec Ideal S100000 .f32) (s d : Edges) : FVec Ideal S100000x64 .f32 :=
  mulf (invSqrtCols g)
    (Host.scatterAdd scatter_S100000x64_S1000000x1_S1000000x64_1_0_0_1
      (broadcastInDim S100000x64 ![] bcast_S_S100000x64 (constant S_ .f32 0x00000000#32))
      (broadcastInDim S1000000x1 ![0] bcast_S1000000_S1000000x1_0 d)
      (Host.gather gather_S100000x64_S1000000x1_S1000000x64_1_0_n_n_0_1_164 (mulf feat (invSqrtCols g))
        (broadcastInDim S1000000x1 ![0] bcast_S1000000_S1000000x1_0
          (select (cmpi .slt s (broadcastInDim S1000000 ![] bcast_S_S1000000 (constantI S_ 32 0#32)))
            (addi s (broadcastInDim S1000000 ![] bcast_S_S1000000 (constantI S_ 32 100000#32))) s))))

theorem aggTail_clamp (feat : FVec Ideal S100000x64 .f32) (s d : Edges) :
    aggTail feat (clamp d) s d = agg (F := Ideal) feat s d := rfl

-- The selection of one where the degree is below one is the clamp.
theorem clamp_of {x dg : FVec Ideal S100000 .f32} {cm : (⟨S100000, .i1⟩ : BufTy).Contents (Elt Ideal)} {one : FVec Ideal S_ .f32} {d0 d : Edges}
    (hx : x = select cm (broadcastInDim S100000 ![] bcast_S_S100000 (id one)) dg)
    (hc : cm = cmpf .olt (degree (F := Ideal) d0) (broadcastInDim S100000 ![] bcast_S_S100000 (constant S_ .f32 0x3F800000#32)))
    (ho : one = constant (F := Ideal) S_ .f32 0x3F800000#32) (hd : dg = degree (F := Ideal) d0) (e : d0 = d) : x = clamp d := by
  subst hc ho hd e
  exact hx

-- The aggregation's last line, read at the clamped degrees of its own destination list.
theorem agg_of {x f f' : FVec Ideal S100000x64 .f32} {g : FVec Ideal S100000 .f32} {s d s' d' : Edges}
    (hx : x = aggTail f g s d) (hg : g = clamp d') (hf : f = f') (hs : s = s') (hd : d = d') :
    x = agg (F := Ideal) f' s' d' := by
  subst hf hs hd hg
  exact hx

-- Every operation of the line writes a reference of the list.
abbrev WritesIn (ops : List (HloOp τ sig (Elt Ideal))) (W : List (Ref sig .tc)) : Prop :=
  ops.Forall fun op => op.writes ⊆ (W.map (Proc.devRef (τ := τ) .tc)).toFinset

-- A region changes its output arrays only.
theorem keep_region {W : Nat} {X Y : Valuation τ sig (Elt Ideal)} (arr : Fin W → Ref sig .tc) (isOut : Fin W → Bool)
    (hne : ∀ b, (∀ w, arr w ≠ b) → Y (Proc.devRef .tc b) = X (Proc.devRef .tc b))
    (hin : ∀ w, isOut w = false → Y (Proc.devRef .tc (arr w)) = X (Proc.devRef .tc (arr w)))
    (b : Ref sig .tc) (h : ∀ w, arr w = b → isOut w = false) : Y (Proc.devRef .tc b) = X (Proc.devRef .tc b) := by
  by_cases e : ∃ w, arr w = b
  · obtain ⟨w, rfl⟩ := e
    exact hin w (h w rfl)
  · exact hne b fun w hw => e ⟨w, hw⟩

-- One relation: two Chebyshev steps and their fusion, each read off its operands.
theorem rel_glue {x1 x2 o oa f a1 f2 a2 g1 g2 acc acc0 h : Arr N 64} {w3 w4 w5 w6 w7 w8 : Arr 64 64} {r1 r2 r3 : Arr 1 64}
    {s d : Edges} {A7 A9 A11 : Arr 128 64} {b8 b10 b12 : Arr1 64}
    (rA : x1 = dual negOne f a1 w3 w4 r1) (rB : x2 = dual negOne f2 a2 w5 w6 r2)
    (rC : o = dual posOne g1 g2 w7 w8 r3) (rD : oa = accum acc (dual posOne g1 g2 w7 w8 r3))
    (ef : f = h) (ea1 : a1 = agg (F := Ideal) h s d) (e3 : w3 = top A7) (e4 : w4 = bot A7) (er1 : r1 = row b8)
    (ef2 : f2 = x1) (ea2 : a2 = agg (F := Ideal) x1 s d) (e5 : w5 = top A9) (e6 : w6 = bot A9) (er2 : r2 = row b10)
    (eg1 : g1 = x1) (eg2 : g2 = x2) (e7 : w7 = top A11) (e8 : w8 = bot A11) (er3 : r3 = row b12) (eacc : acc = acc0) :
    o = relK h s d A7 b8 A9 b10 A11 b12 ∧ oa = accum acc0 (relK h s d A7 b8 A9 b10 A11 b12) := by
  subst ef ea1 e3 e4 er1 ef2 ea2 e5 e6 er2 eg1 eg2 e7 e8 er3 eacc rA rB
  exact ⟨rC, rD⟩

end Cert.KernelIdeal.Val.HL

end
-- ==== Proof.KHost0.lean ====
import proofs.«116818_j36043365548320_1_alg».proof.Proof.KHostLib

noncomputable section

namespace Cert.KernelIdeal.Val.H0

open Cert.KernelIdeal Cert.KernelIdeal.Gen Cert.KernelIdeal.Val.HL Idealize.ShloMosaic Idealize.ShloMosaic.TcCoe Idealize.SL.Sem Cert.Spec
open Idealize.ShloMosaic.ValueIdx

theorem slice_top (w : Arr 128 64) (h : S128x64.Slices ![0, 0] S64x64) :
    (extractStridedSlice S64x64 ![0, 0] w h : Arr 64 64) = top w := by
  funext j
  rw [eq_ix2 j]
  exact slice2_axis0_apply 0 w h (j 0) (j 1) (Fin.castAdd 64 (j 0)) (Nat.zero_add _).symm

theorem slice_bot (w : Arr 128 64) (h : S128x64.Slices ![64, 0] S64x64) :
    (extractStridedSlice S64x64 ![64, 0] w h : Arr 64 64) = bot w := by
  funext j
  rw [eq_ix2 j]
  exact slice2_axis0_apply 64 w h (j 0) (j 1) (Fin.natAdd 64 (j 0)) rfl

theorem bcast_zero (h : S_.BroadcastsInDim S100000x64 (![] : Fin 0 → Fin S100000x64.rank)) :
    (broadcastInDim S100000x64 ![] h (constant (F := Ideal) S_ .f32 0x00000000#32) : Arr N 64) = zeros := by
  funext j
  rw [broadcastInDim_apply ![] h _ j ix0 (fun a => a.elim0)]
  exact Ideal.ofBits_zero_f32

abbrev wA : List (Ref sig .tc) :=
  [main_v3, main_v4, main_v5, main_v6, main_v7, main_v8, main_cst, main_v9, main_v10, main_v11, main_v12, main_v13,
   main_cst_0, main_v14, main_cst_1, main_v15, main_v16, main_v17, main_cst_2, main_v18, main_v19, main_cst_3]
abbrev wAs : List (Ref sig .tc) := [main_call0_v0, main_call0_v1, main_v20]
abbrev wAt : List (Ref sig .tc) :=
  [main_cst_4, main_v21, main_v22, main_v23, main_v24, main_v25, main_c, main_v26, main_v27, main_c_5, main_v28,
   main_v29, main_v30, main_v31, main_v32, main_v33, main_cst_6, main_v34, main_v35, main_v36, main_v37, main_v38, main_v39]
abbrev wB : List (Ref sig .tc) :=
  [main_cst_7, main_v41, main_cst_8, main_v42, main_v43, main_v44, main_cst_9, main_v45, main_v46, main_cst_10]
abbrev wBs : List (Ref sig .tc) := [main_call1_v0, main_call1_v1, main_v47]
abbrev wBt : List (Ref sig .tc) :=
  [main_cst_11, main_v48, main_v49, main_v50, main_v51, main_v52, main_c_12, main_v53, main_v54, main_c_13, main_v55,
   main_v56, main_v57, main_v58, main_v59, main_v60, main_cst_14, main_v61, main_v62, main_v63, main_v64, main_v65, main_v66]

section Reads

variable (V : Valuation τ sig (Elt Ideal))

theorem h0_v0 : (StableHlo.after hostOps0 V (Proc.devRef .tc main_v0) : Arr 1 64) = row (V (Proc.devRef .tc main_arg4)) := by
  after_results
  exact reshape_row _ _
theorem h0_v1 : (StableHlo.after hostOps0 V (Proc.devRef .tc main_v1) : Arr 1 64) = row (V (Proc.devRef .tc main_arg6)) := by
  after_results
  exact reshape_row _ _
theorem hA_v3 : (StableHlo.after hostOps1 V (Proc.devRef .tc main_v3) : Arr 64 64) = top (V (Proc.devRef .tc main_arg7)) := by
  after_results
  exact slice_top _ _
theorem hA_v4 : (StableHlo.after hostOps1 V (Proc.devRef .tc main_v4) : Arr 64 64) = bot (V (Proc.devRef .tc main_arg7)) := by
  after_results
  exact slice_bot _ _
theorem hA_v5 : (StableHlo.after hostOps1 V (Proc.devRef .tc main_v5) : Arr 64 64) = top (V (Proc.devRef .tc main_arg9)) := by
  after_results
  exact slice_top _ _
theorem hA_v6 : (StableHlo.after hostOps1 V (Proc.devRef .tc main_v6) : Arr 64 64) = bot (V (Proc.devRef .tc main_arg9)) := by
  after_results
  exact slice_bot _ _
theorem hA_v7 : (StableHlo.after hostOps1 V (Proc.devRef .tc main_v7) : Arr 64 64) = top (V (Proc.devRef .tc main_arg11)) := by
  after_results
  exact slice_top _ _
theorem hA_v8 : (StableHlo.after hostOps1 V (Proc.devRef .tc main_v8) : Arr 64 64) = bot (V (Proc.devRef .tc main_arg11)) := by
  after_results
  exact slice_bot _ _
theorem hA_v9 : (StableHlo.after hostOps1 V (Proc.devRef .tc main_v9) : Arr N 64) = zeros := by
  after_results
  exact bcast_zero _
theorem hA_src : StableHlo.after hostOps1 V (Proc.devRef .tc main_v11) = edge0 (V (Proc.devRef .tc main_arg1)) := by
  after_results
  try rfl
theorem hA_dst : StableHlo.after hostOps1 V (Proc.devRef .tc main_v13) = edge0 (V (Proc.devRef .tc main_arg2)) := by
  after_results
  try rfl
theorem hA_deg : StableHlo.after hostOps1 V (Proc.devRef .tc main_v17) = degree (F := Ideal) (edge0 (V (Proc.devRef .tc main_arg2))) := by
  after_results
  try rfl
theorem hA_cmp : StableHlo.after hostOps1 V (Proc.devRef .tc main_v19)
    = cmpf .olt (degree (F := Ideal) (edge0 (V (Proc.devRef .tc main_arg2))))
        (broadcastInDim S100000 ![] bcast_S_S100000 (constant S_ .f32 0x3F800000#32)) := by
  after_results
  try rfl
theorem hA_one : StableHlo.after hostOps1 V (Proc.devRef .tc main_cst_3) = constant (F := Ideal) S_ .f32 0x3F800000#32 := by
  after_results
  try rfl
theorem hAs_sel : StableHlo.after hostOps1_1 V (Proc.devRef .tc main_v20)
    = select (V (Proc.devRef .tc main_v19)) (broadcastInDim S100000 ![] bcast_S_S100000 (id (V (Proc.devRef .tc main_cst_3))))
        (V (Proc.devRef .tc main_v17)) := by
  after_results
  try rfl
theorem hAt_agg : StableHlo.after hostOps1_2 V (Proc.devRef .tc main_v38)
    = aggTail (V (Proc.devRef .tc main_v2)) (V (Proc.devRef .tc main_v20)) (V (Proc.devRef .tc main_v11)) (V (Proc.devRef .tc main_v13)) := by
  after_results_simp
  try rfl
theorem hAt_row : (StableHlo.after hostOps1_2 V (Proc.devRef .tc main_v39) : Arr 1 64) = row (V (Proc.devRef .tc main_arg8)) := by
  after_results
  exact reshape_row _ _
theorem hB_deg : StableHlo.after hostOps2 V (Proc.devRef .tc main_v44) = degree (F := Ideal) (V (Proc.devRef .tc main_v13)) := by
  after_results
  try rfl
theorem hB_cmp : StableHlo.after hostOps2 V (Proc.devRef .tc main_v46)
    = cmpf .olt (degree (F := Ideal) (V (Proc.devRef .tc main_v13)))
        (broadcastInDim S100000 ![] bcast_S_S100000 (constant S_ .f32 0x3F800000#32)) := by
  after_results
  try rfl
theorem hB_one : StableHlo.after hostOps2 V (Proc.devRef .tc main_cst_10) = constant (F := Ideal) S_ .f32 0x3F800000#32 := by
  after_results
  try rfl
theorem hBs_sel : StableHlo.after hostOps2_1 V (Proc.devRef .tc main_v47)
    = select (V (Proc.devRef .tc main_v46)) (broadcastInDim S100000 ![] bcast_S_S100000 (id (V (Proc.devRef .tc main_cst_10))))
        (V (Proc.devRef .tc main_v44)) := by
  after_results
  try rfl
theorem hBt_agg : StableHlo.after hostOps2_2 V (Proc.devRef .tc main_v65)
    = aggTail (V (Proc.devRef .tc main_v40)) (V (Proc.devRef .tc main_v47)) (V (Proc.devRef .tc main_v11)) (V (Proc.devRef .tc main_v13)) := by
  after_results_simp
  try rfl
theorem hBt_row : (StableHlo.after hostOps2_2 V (Proc.devRef .tc main_v66) : Arr 1 64) = row (V (Proc.devRef .tc main_arg10)) := by
  after_results
  exact reshape_row _ _
theorem hC_row : (StableHlo.after hostOps3 V (Proc.devRef .tc main_v68) : Arr 1 64) = row (V (Proc.devRef .tc main_arg12)) := by
  after_results
  exact reshape_row _ _
theorem h10_row : (StableHlo.after hostOps10 V (Proc.devRef .tc main_v190) : Arr 1 2) = row (V (Proc.devRef .tc main_arg14)) := by
  after_results
  exact reshape_row _ _

end Reads

section Run

variable (m : (ℓ : Loc nD τ sig) → Buf (Elt Ideal) ℓ) (ρ : Dev nD → PrngReg) (c : Dev nD) (b : Ref sig .tc)

theorem wr : WritesIn hostOps0 [main_v0, main_v1] ∧ WritesIn hostOps1 wA ∧ WritesIn hostOps1_1 wAs ∧ WritesIn hostOps1_2 wAt
    ∧ WritesIn hostOps2 wB ∧ WritesIn hostOps2_1 wBs ∧ WritesIn hostOps2_2 wBt ∧ WritesIn hostOps3 [main_v68]
    ∧ WritesIn hostOps10 [main_v190] := by
  simp only [WritesIn, hostOps0, hostOps1, hostOps1_1, hostOps1_2, hostOps2, hostOps2_1, hostOps2_2, hostOps3, hostOps10, List.Forall,
    StableHlo.nullary_writes, StableHlo.unary_writes, StableHlo.binary_writes, StableHlo.ternary_writes, StableHlo.reshape_writes,
    Finset.singleton_subset_iff, List.mem_toFinset]
  repeat' apply And.intro
  all_goals exact List.mem_map_of_mem (by decide)

theorem k1 (h : b ∉ [main_v0, main_v1] := by decide) : W1 m ρ c (Proc.devRef .tc b) = W0 m ρ c (Proc.devRef .tc b) :=
  StableHlo.after_of_writes_sub (W := [main_v0, main_v1]) hostOps0 _ wr.1 h
theorem k2 (h : ∀ w, Pipeline.arrRef spec0 w = b → (cfg0.win w).isOut = false := by decide) :
    W2 m ρ c (Proc.devRef .tc b) = W1 m ρ c (Proc.devRef .tc b) :=
  keep_region (Pipeline.arrRef spec0) (fun w => (cfg0.win w).isOut) (W2_of_ne m ρ c) (fun w hin => by rw [W2_arr, (dat0 (V1 m ρ) c).arrAt_in w hin, A_eq0]) b h
theorem k3 (h : b ∉ wA := by decide) : W3 m ρ c (Proc.devRef .tc b) = W2 m ρ c (Proc.devRef .tc b) :=
  StableHlo.after_of_writes_sub (W := wA) hostOps1 _ wr.2.1 h
theorem k4 (h : b ∉ wAs := by decide) : W4 m ρ c (Proc.devRef .tc b) = W3 m ρ c (Proc.devRef .tc b) :=
  StableHlo.after_of_writes_sub (W := wAs) hostOps1_1 _ wr.2.2.1 h
theorem k5 (h : b ∉ wAt := by decide) : W5 m ρ c (Proc.devRef .tc b) = W4 m ρ c (Proc.devRef .tc b) :=
  StableHlo.after_of_writes_sub (W := wAt) hostOps1_2 _ wr.2.2.2.1 h
theorem k6 (h : ∀ w, Pipeline.arrRef spec1 w = b → (cfg1.win w).isOut = false := by decide) :
    W6 m ρ c (Proc.devRef .tc b) = W5 m ρ c (Proc.devRef .tc b) :=
  keep_region (Pipeline.arrRef spec1) (fun w => (cfg1.win w).isOut) (W6_of_ne m ρ c) (fun w hin => by rw [W6_arr, (dat1 (V5 m ρ) c).arrAt_in w hin, A_eq1]) b h
theorem k7 (h : b ∉ wB := by decide) : W7 m ρ c (Proc.devRef .tc b) = W6 m ρ c (Proc.devRef .tc b) :=
  StableHlo.after_of_writes_sub (W := wB) hostOps2 _ wr.2.2.2.2.1 h
theorem k8 (h : b ∉ wBs := by decide) : W8 m ρ c (Proc.devRef .tc b) = W7 m ρ c (Proc.devRef .tc b) :=
  StableHlo.after_of_writes_sub (W := wBs) hostOps2_1 _ wr.2.2.2.2.2.1 h
theorem k9 (h : b ∉ wBt := by decide) : W9 m ρ c (Proc.devRef .tc b) = W8 m ρ c (Proc.devRef .tc b) :=
  StableHlo.after_of_writes_sub (W := wBt) hostOps2_2 _ wr.2.2.2.2.2.2.1 h
theorem k10 (h : ∀ w, Pipeline.arrRef spec2 w = b → (cfg2.win w).isOut = false := by decide) :
    W10 m ρ c (Proc.devRef .tc b) = W9 m ρ c (Proc.devRef .tc b) :=
  keep_region (Pipeline.arrRef spec2) (fun w => (cfg2.win w).isOut) (W10_of_ne m ρ c) (fun w hin => by rw [W10_arr, (dat2 (V9 m ρ) c).arrAt_in w hin, A_eq2]) b h
theorem k11 (h : b ∉ [main_v68] := by decide) : W11 m ρ c (Proc.devRef .tc b) = W10 m ρ c (Proc.devRef .tc b) :=
  StableHlo.after_of_writes_sub (W := [main_v68]) hostOps3 _ wr.2.2.2.2.2.2.2.1 h
theorem k12 (h : ∀ w, Pipeline.arrRef spec3 w = b → (cfg3.win w).isOut = false := by decide) :
    W12 m ρ c (Proc.devRef .tc b) = W11 m ρ c (Proc.devRef .tc b) :=
  keep_region (Pipeline.arrRef spec3) (fun w => (cfg3.win w).isOut) (W12_of_ne m ρ c) (fun w hin => by rw [W12_arr, (dat3 (V11 m ρ) c).arrAt_in w hin, A_eq3]) b h
theorem k33 (h : b ∉ [main_v190] := by decide) : W33 m ρ c (Proc.devRef .tc b) = W32 m ρ c (Proc.devRef .tc b) :=
  StableHlo.after_of_writes_sub (W := [main_v190]) hostOps10 _ wr.2.2.2.2.2.2.2.2 h

theorem k2_0 (h1 : b ∉ [main_v0, main_v1] := by decide) (h2 : ∀ w, Pipeline.arrRef spec0 w = b → (cfg0.win w).isOut = false := by decide) :
    W2 m ρ c (Proc.devRef .tc b) = m ((c : Thread nD τ).loc b) :=
  (k2 m ρ c b h2).trans ((k1 m ρ c b h1).trans rfl)

theorem kpre :
    (W1 m ρ c (Proc.devRef .tc main_arg0) = m ((c : Thread nD τ).loc main_arg0)) ∧
    (W1 m ρ c (Proc.devRef .tc main_arg3) = m ((c : Thread nD τ).loc main_arg3)) ∧
    ((W1 m ρ c (Proc.devRef .tc main_v0) : Arr 1 64) = row (m ((c : Thread nD τ).loc main_arg4))) ∧
    (W1 m ρ c (Proc.devRef .tc main_arg5) = m ((c : Thread nD τ).loc main_arg5)) ∧
    ((W1 m ρ c (Proc.devRef .tc main_v1) : Arr 1 64) = row (m ((c : Thread nD τ).loc main_arg6))) ∧
    (W2 m ρ c (Proc.devRef .tc main_arg1) = m ((c : Thread nD τ).loc main_arg1) ∧
     W2 m ρ c (Proc.devRef .tc main_arg2) = m ((c : Thread nD τ).loc main_arg2) ∧
     W2 m ρ c (Proc.devRef .tc main_arg7) = m ((c : Thread nD τ).loc main_arg7) ∧
     W2 m ρ c (Proc.devRef .tc main_arg8) = m ((c : Thread nD τ).loc main_arg8) ∧
     W2 m ρ c (Proc.devRef .tc main_arg9) = m ((c : Thread nD τ).loc main_arg9) ∧
     W2 m ρ c (Proc.devRef .tc main_arg10) = m ((c : Thread nD τ).loc main_arg10) ∧
     W2 m ρ c (Proc.devRef .tc main_arg11) = m ((c : Thread nD τ).loc main_arg11) ∧
     W2 m ρ c (Proc.devRef .tc main_arg12) = m ((c : Thread nD τ).loc main_arg12) ∧
     W2 m ρ c (Proc.devRef .tc main_arg13) = m ((c : Thread nD τ).loc main_arg13) ∧
     W2 m ρ c (Proc.devRef .tc main_arg14) = m ((c : Thread nD τ).loc main_arg14)) :=
  ⟨(k1 m ρ c main_arg0).trans rfl, (k1 m ρ c main_arg3).trans rfl, h0_v0 (W0 m ρ c), (k1 m ρ c main_arg5).trans rfl, h0_v1 (W0 m ρ c),
   k2_0 m ρ c main_arg1, k2_0 m ρ c main_arg2, k2_0 m ρ c main_arg7, k2_0 m ρ c main_arg8, k2_0 m ρ c main_arg9,
   k2_0 m ρ c main_arg10, k2_0 m ρ c main_arg11, k2_0 m ρ c main_arg12, k2_0 m ρ c main_arg13, k2_0 m ρ c main_arg14⟩

theorem kpost :
    W33 m ρ c (Proc.devRef .tc main_v189_1) = W32 m ρ c (Proc.devRef .tc main_v189_1) ∧
    W33 m ρ c (Proc.devRef .tc main_arg13) = W32 m ρ c (Proc.devRef .tc main_arg13) ∧
    (W33 m ρ c (Proc.devRef .tc main_v190) : Arr 1 2) = row (W32 m ρ c (Proc.devRef .tc main_arg14)) :=
  ⟨k33 m ρ c main_v189_1, k33 m ρ c main_arg13, h10_row (W32 m ρ c)⟩

theorem k5_3 (h2 : b ∉ wAs := by decide) (h3 : b ∉ wAt := by decide) : W5 m ρ c (Proc.devRef .tc b) = W3 m ρ c (Proc.devRef .tc b) :=
  (k5 m ρ c b h3).trans (k4 m ρ c b h2)
theorem k5_2 (h1 : b ∉ wA := by decide) (h2 : b ∉ wAs := by decide) (h3 : b ∉ wAt := by decide) :
    W5 m ρ c (Proc.devRef .tc b) = W2 m ρ c (Proc.devRef .tc b) :=
  (k5_3 m ρ c b h2 h3).trans (k3 m ρ c b h1)
theorem k9_6 (h1 : b ∉ wB := by decide) (h2 : b ∉ wBs := by decide) (h3 : b ∉ wBt := by decide) :
    W9 m ρ c (Proc.devRef .tc b) = W6 m ρ c (Proc.devRef .tc b) :=
  (k9 m ρ c b h3).trans ((k8 m ρ c b h2).trans (k7 m ρ c b h1))
-- From the first line's exit to each later level: what neither aggregation writes and no region has as an output.
theorem k9_3 (h : b ∉ wAs ++ wAt ++ wB ++ wBs ++ wBt := by decide) (h6 : ∀ w, Pipeline.arrRef spec1 w = b → (cfg1.win w).isOut = false := by decide) :
    W9 m ρ c (Proc.devRef .tc b) = W3 m ρ c (Proc.devRef .tc b) := by
  simp only [List.mem_append, not_or] at h
  exact (k9_6 m ρ c b h.1.1.2 h.1.2 h.2).trans ((k6 m ρ c b h6).trans (k5_3 m ρ c b h.1.1.1.1 h.1.1.1.2))
theorem k11_3 (h : b ∉ wAs ++ wAt ++ wB ++ wBs ++ wBt := by decide) (h6 : ∀ w, Pipeline.arrRef spec1 w = b → (cfg1.win w).isOut = false := by decide)
    (h10 : ∀ w, Pipeline.arrRef spec2 w = b → (cfg2.win w).isOut = false := by decide) (h11 : b ∉ [main_v68] := by decide) :
    W11 m ρ c (Proc.devRef .tc b) = W3 m ρ c (Proc.devRef .tc b) :=
  (k11 m ρ c b h11).trans ((k10 m ρ c b h10).trans (k9_3 m ρ c b h h6))
theorem k12_3 (h : b ∉ wAs ++ wAt ++ wB ++ wBs ++ wBt := by decide) (h6 : ∀ w, Pipeline.arrRef spec1 w = b → (cfg1.win w).isOut = false := by decide)
    (h10 : ∀ w, Pipeline.arrRef spec2 w = b → (cfg2.win w).isOut = false := by decide) (h11 : b ∉ [main_v68] := by decide) (h12 : ∀ w, Pipeline.arrRef spec3 w = b → (cfg3.win w).isOut = false := by decide) :
    W12 m ρ c (Proc.devRef .tc b) = W3 m ρ c (Proc.devRef .tc b) :=
  (k12 m ρ c b h12).trans (k11_3 m ρ c b h h6 h10 h11)
theorem k12_2 (h1 : b ∉ wA := by decide) (h : b ∉ wAs ++ wAt ++ wB ++ wBs ++ wBt := by decide) (h6 : ∀ w, Pipeline.arrRef spec1 w = b → (cfg1.win w).isOut = false := by decide)
    (h10 : ∀ w, Pipeline.arrRef spec2 w = b → (cfg2.win w).isOut = false := by decide) (h11 : b ∉ [main_v68] := by decide) (h12 : ∀ w, Pipeline.arrRef spec3 w = b → (cfg3.win w).isOut = false := by decide) :
    W12 m ρ c (Proc.devRef .tc b) = W2 m ρ c (Proc.devRef .tc b) :=
  (k12_3 m ρ c b h h6 h10 h11 h12).trans (k3 m ρ c b h1)

theorem src6 : W6 m ρ c (Proc.devRef .tc main_v11) = edge0 (W2 m ρ c (Proc.devRef .tc main_arg1)) :=
  (k6 m ρ c main_v11).trans ((k5_3 m ρ c main_v11).trans (hA_src (W2 m ρ c)))
theorem dst6 : W6 m ρ c (Proc.devRef .tc main_v13) = edge0 (W2 m ρ c (Proc.devRef .tc main_arg2)) :=
  (k6 m ρ c main_v13).trans ((k5_3 m ρ c main_v13).trans (hA_dst (W2 m ρ c)))

theorem agg5 : W5 m ρ c (Proc.devRef .tc main_v38)
    = agg (F := Ideal) (W2 m ρ c (Proc.devRef .tc main_v2)) (edge0 (W2 m ρ c (Proc.devRef .tc main_arg1))) (edge0 (W2 m ρ c (Proc.devRef .tc main_arg2))) :=
  agg_of (hAt_agg (W4 m ρ c))
    (clamp_of (hAs_sel (W3 m ρ c)) (hA_cmp (W2 m ρ c)) (hA_one (W2 m ρ c)) (hA_deg (W2 m ρ c)) rfl)
    ((k4 m ρ c main_v2).trans (k3 m ρ c main_v2)) ((k4 m ρ c main_v11).trans (hA_src (W2 m ρ c)))
    ((k4 m ρ c main_v13).trans (hA_dst (W2 m ρ c)))
theorem agg9 : W9 m ρ c (Proc.devRef .tc main_v65)
    = agg (F := Ideal) (W6 m ρ c (Proc.devRef .tc main_v40)) (edge0 (W2 m ρ c (Proc.devRef .tc main_arg1))) (edge0 (W2 m ρ c (Proc.devRef .tc main_arg2))) :=
  agg_of (hBt_agg (W8 m ρ c))
    (clamp_of (hBs_sel (W7 m ρ c)) (hB_cmp (W6 m ρ c)) (hB_one (W6 m ρ c)) (hB_deg (W6 m ρ c)) (dst6 m ρ c))
    ((k8 m ρ c main_v40).trans (k7 m ρ c main_v40)) ((k8 m ρ c main_v11).trans ((k7 m ρ c main_v11).trans (src6 m ρ c)))
    ((k8 m ρ c main_v13).trans ((k7 m ρ c main_v13).trans (dst6 m ρ c)))

theorem row5 : (W5 m ρ c (Proc.devRef .tc main_v39) : Arr 1 64) = row (W2 m ρ c (Proc.devRef .tc main_arg8)) := by
  rw [← k3 m ρ c main_arg8, ← k4 m ρ c main_arg8]
  exact hAt_row (W4 m ρ c)
theorem row9 : (W9 m ρ c (Proc.devRef .tc main_v66) : Arr 1 64) = row (W2 m ρ c (Proc.devRef .tc main_arg10)) := by
  rw [← k5_2 m ρ c main_arg10, ← k6 m ρ c main_arg10, ← k7 m ρ c main_arg10, ← k8 m ρ c main_arg10]
  exact hBt_row (W8 m ρ c)
theorem row11 : (W11 m ρ c (Proc.devRef .tc main_v68) : Arr 1 64) = row (W2 m ρ c (Proc.devRef .tc main_arg12)) := by
  rw [← k3 m ρ c main_arg12, ← k9_3 m ρ c main_arg12, ← k10 m ρ c main_arg12]
  exact hC_row (W10 m ρ c)

theorem krel0 (A7 A9 A11 : Arr 128 64)
    (ha7 : W2 m ρ c (Proc.devRef .tc main_arg7) = A7) (ha9 : W2 m ρ c (Proc.devRef .tc main_arg9) = A9)
    (ha11 : W2 m ρ c (Proc.devRef .tc main_arg11) = A11)
    (rA : (W6 m ρ c (Proc.devRef .tc main_v40) : Arr N 64)
      = dual negOne (W5 m ρ c (Proc.devRef .tc main_v2)) (W5 m ρ c (Proc.devRef .tc main_v38))
          (W5 m ρ c (Proc.devRef .tc main_v3)) (W5 m ρ c (Proc.devRef .tc main_v4)) (W5 m ρ c (Proc.devRef .tc main_v39)))
    (rB : (W10 m ρ c (Proc.devRef .tc main_v67) : Arr N 64)
      = dual negOne (W9 m ρ c (Proc.devRef .tc main_v40)) (W9 m ρ c (Proc.devRef .tc main_v65))
          (W9 m ρ c (Proc.devRef .tc main_v5)) (W9 m ρ c (Proc.devRef .tc main_v6)) (W9 m ρ c (Proc.devRef .tc main_v66)))
    (rC : (W12 m ρ c (Proc.devRef .tc main_v69_0) : Arr N 64)
      = dual posOne (W11 m ρ c (Proc.devRef .tc main_v40)) (W11 m ρ c (Proc.devRef .tc main_v67))
          (W11 m ρ c (Proc.devRef .tc main_v7)) (W11 m ρ c (Proc.devRef .tc main_v8)) (W11 m ρ c (Proc.devRef .tc main_v68)))
    (rD : (W12 m ρ c (Proc.devRef .tc main_v69_1) : Arr N 64)
      = accum (W11 m ρ c (Proc.devRef .tc main_v9))
          (dual posOne (W11 m ρ c (Proc.devRef .tc main_v40)) (W11 m ρ c (Proc.devRef .tc main_v67))
            (W11 m ρ c (Proc.devRef .tc main_v7)) (W11 m ρ c (Proc.devRef .tc main_v8)) (W11 m ρ c (Proc.devRef .tc main_v68)))) :
    (W12 m ρ c (Proc.devRef .tc main_v69_0) : Arr N 64)
      = relK (W2 m ρ c (Proc.devRef .tc main_v2)) (edge0 (W2 m ρ c (Proc.devRef .tc main_arg1)))
          (edge0 (W2 m ρ c (Proc.devRef .tc main_arg2))) A7 (W2 m ρ c (Proc.devRef .tc main_arg8)) A9
          (W2 m ρ c (Proc.devRef .tc main_arg10)) A11 (W2 m ρ c (Proc.devRef .tc main_arg12)) ∧
    (W12 m ρ c (Proc.devRef .tc main_v69_1) : Arr N 64)
      = accum (zeros) (relK (W2 m ρ c (Proc.devRef .tc main_v2)) (edge0 (W2 m ρ c (Proc.devRef .tc main_arg1)))
          (edge0 (W2 m ρ c (Proc.devRef .tc main_arg2))) A7 (W2 m ρ c (Proc.devRef .tc main_arg8)) A9
          (W2 m ρ c (Proc.devRef .tc main_arg10)) A11 (W2 m ρ c (Proc.devRef .tc main_arg12))) ∧
    (W12 m ρ c (Proc.devRef .tc main_arg1) = W2 m ρ c (Proc.devRef .tc main_arg1) ∧
     W12 m ρ c (Proc.devRef .tc main_arg2) = W2 m ρ c (Proc.devRef .tc main_arg2) ∧
     W12 m ρ c (Proc.devRef .tc main_arg8) = W2 m ρ c (Proc.devRef .tc main_arg8) ∧
     W12 m ρ c (Proc.devRef .tc main_arg10) = W2 m ρ c (Proc.devRef .tc main_arg10) ∧
     W12 m ρ c (Proc.devRef .tc main_arg12) = W2 m ρ c (Proc.devRef .tc main_arg12) ∧
     W12 m ρ c (Proc.devRef .tc main_arg13) = W2 m ρ c (Proc.devRef .tc main_arg13) ∧
     W12 m ρ c (Proc.devRef .tc main_arg14) = W2 m ρ c (Proc.devRef .tc main_arg14)) ∧
    ((W12 m ρ c (Proc.devRef .tc main_v3) : Arr 64 64) = top A7 ∧
     (W12 m ρ c (Proc.devRef .tc main_v4) : Arr 64 64) = bot A7 ∧
     (W12 m ρ c (Proc.devRef .tc main_v5) : Arr 64 64) = top A9 ∧
     (W12 m ρ c (Proc.devRef .tc main_v6) : Arr 64 64) = bot A9 ∧
     (W12 m ρ c (Proc.devRef .tc main_v7) : Arr 64 64) = top A11 ∧
     (W12 m ρ c (Proc.devRef .tc main_v8) : Arr 64 64) = bot A11) := by
  subst ha7 ha9 ha11
  obtain ⟨e1, e2⟩ := rel_glue rA rB rC rD (k5_2 m ρ c main_v2) (agg5 m ρ c) ((k5_3 m ρ c main_v3).trans (hA_v3 (W2 m ρ c)))
    ((k5_3 m ρ c main_v4).trans (hA_v4 (W2 m ρ c))) (row5 m ρ c) (k9_6 m ρ c main_v40) (agg9 m ρ c)
    ((k9_3 m ρ c main_v5).trans (hA_v5 (W2 m ρ c))) ((k9_3 m ρ c main_v6).trans (hA_v6 (W2 m ρ c))) (row9 m ρ c)
    ((k11 m ρ c main_v40).trans ((k10 m ρ c main_v40).trans (k9_6 m ρ c main_v40))) (k11 m ρ c main_v67)
    ((k11_3 m ρ c main_v7).trans (hA_v7 (W2 m ρ c))) ((k11_3 m ρ c main_v8).trans (hA_v8 (W2 m ρ c))) (row11 m ρ c)
    ((k11_3 m ρ c main_v9).trans (hA_v9 (W2 m ρ c)))
  exact ⟨e1, e2, ⟨k12_2 m ρ c main_arg1, k12_2 m ρ c main_arg2, k12_2 m ρ c main_arg8, k12_2 m ρ c main_arg10,
      k12_2 m ρ c main_arg12, k12_2 m ρ c main_arg13, k12_2 m ρ c main_arg14⟩,
    ⟨(k12_3 m ρ c main_v3).trans (hA_v3 (W2 m ρ c)), (k12_3 m ρ c main_v4).trans (hA_v4 (W2 m ρ c)),
      (k12_3 m ρ c main_v5).trans (hA_v5 (W2 m ρ c)), (k12_3 m ρ c main_v6).trans (hA_v6 (W2 m ρ c)),
      (k12_3 m ρ c main_v7).trans (hA_v7 (W2 m ρ c)), (k12_3 m ρ c main_v8).trans (hA_v8 (W2 m ρ c))⟩⟩

end Run

end Cert.KernelIdeal.Val.H0

end
-- ==== Proof.KHost1.lean ====
import proofs.«116818_j36043365548320_1_alg».proof.Proof.KHostLib

noncomputable section

namespace Cert.KernelIdeal.Val.H1

open Cert.KernelIdeal Cert.KernelIdeal.Gen Cert.KernelIdeal.Val.HL Idealize.ShloMosaic Idealize.ShloMosaic.TcCoe Idealize.SL.Sem Cert.Spec

abbrev wA : List (Ref sig .tc) := [main_v70, main_v71, main_v72, main_v73, main_cst_15, main_v74, main_cst_16, main_v75, main_v76, main_v77, main_cst_17, main_v78, main_v79, main_cst_18]
abbrev wAs : List (Ref sig .tc) := [main_call2_v0, main_call2_v1, main_v80]
abbrev wAt : List (Ref sig .tc) := [main_cst_19, main_v81, main_v82, main_v83, main_v84, main_v85, main_c_20, main_v86, main_v87, main_c_21, main_v88, main_v89, main_v90, main_v91, main_v92, main_v93, main_cst_22, main_v94, main_v95, main_v96, main_v97, main_v98, main_v99]
abbrev wB : List (Ref sig .tc) := [main_cst_23, main_v101, main_cst_24, main_v102, main_v103, main_v104, main_cst_25, main_v105, main_v106, main_cst_26]
abbrev wBs : List (Ref sig .tc) := [main_call3_v0, main_call3_v1, main_v107]
abbrev wBt : List (Ref sig .tc) := [main_cst_27, main_v108, main_v109, main_v110, main_v111, main_v112, main_c_28, main_v113, main_v114, main_c_29, main_v115, main_v116, main_v117, main_v118, main_v119, main_v120, main_cst_30, main_v121, main_v122, main_v123, main_v124, main_v125, main_v126]

section Reads

variable (V : Valuation τ sig (Elt Ideal))

theorem hA_src : StableHlo.after hostOps4 V (Proc.devRef .tc main_v71) = edge1 (V (Proc.devRef .tc main_arg1)) := by
  after_results_simp
  rfl
theorem hA_dst : StableHlo.after hostOps4 V (Proc.devRef .tc main_v73) = edge1 (V (Proc.devRef .tc main_arg2)) := by
  after_results_simp
  rfl
theorem hA_deg : StableHlo.after hostOps4 V (Proc.devRef .tc main_v77) = degree (F := Ideal) (edge1 (V (Proc.devRef .tc main_arg2))) := by
  after_results_simp
  rfl
theorem hA_cmp : StableHlo.after hostOps4 V (Proc.devRef .tc main_v79)
    = cmpf .olt (degree (F := Ideal) (edge1 (V (Proc.devRef .tc main_arg2))))
        (broadcastInDim S100000 ![] bcast_S_S100000 (constant S_ .f32 0x3F800000#32)) := by
  after_results_simp
  rfl
theorem hA_one : StableHlo.after hostOps4 V (Proc.devRef .tc main_cst_18) = constant (F := Ideal) S_ .f32 0x3F800000#32 := by
  after_results_simp
theorem hAs_sel : StableHlo.after hostOps4_1 V (Proc.devRef .tc main_v80)
    = select (V (Proc.devRef .tc main_v79)) (broadcastInDim S100000 ![] bcast_S_S100000 (id (V (Proc.devRef .tc main_cst_18))))
        (V (Proc.devRef .tc main_v77)) := by
  after_results_simp
  rfl
theorem hAt_agg : StableHlo.after hostOps4_2 V (Proc.devRef .tc main_v98)
    = aggTail (V (Proc.devRef .tc main_v69_0)) (V (Proc.devRef .tc main_v80)) (V (Proc.devRef .tc main_v71)) (V (Proc.devRef .tc main_v73)) := by
  after_results_simp
  rfl
theorem hAt_row : (StableHlo.after hostOps4_2 V (Proc.devRef .tc main_v99) : Arr 1 64) = row (V (Proc.devRef .tc main_arg8)) := by
  after_results_simp
  exact reshape_row _ _
theorem hB_deg : StableHlo.after hostOps5 V (Proc.devRef .tc main_v104) = degree (F := Ideal) (V (Proc.devRef .tc main_v73)) := by
  after_results_simp
  rfl
theorem hB_cmp : StableHlo.after hostOps5 V (Proc.devRef .tc main_v106)
    = cmpf .olt (degree (F := Ideal) (V (Proc.devRef .tc main_v73)))
        (broadcastInDim S100000 ![] bcast_S_S100000 (constant S_ .f32 0x3F800000#32)) := by
  after_results_simp
  rfl
theorem hB_one : StableHlo.after hostOps5 V (Proc.devRef .tc main_cst_26) = constant (F := Ideal) S_ .f32 0x3F800000#32 := by
  after_results_simp
theorem hBs_sel : StableHlo.after hostOps5_1 V (Proc.devRef .tc main_v107)
    = select (V (Proc.devRef .tc main_v106)) (broadcastInDim S100000 ![] bcast_S_S100000 (id (V (Proc.devRef .tc main_cst_26))))
        (V (Proc.devRef .tc main_v104)) := by
  after_results_simp
  rfl
theorem hBt_agg : StableHlo.after hostOps5_2 V (Proc.devRef .tc main_v125)
    = aggTail (V (Proc.devRef .tc main_v100)) (V (Proc.devRef .tc main_v107)) (V (Proc.devRef .tc main_v71)) (V (Proc.devRef .tc main_v73)) := by
  after_results_simp
  rfl
theorem hBt_row : (StableHlo.after hostOps5_2 V (Proc.devRef .tc main_v126) : Arr 1 64) = row (V (Proc.devRef .tc main_arg10)) := by
  after_results_simp
  exact reshape_row _ _
theorem hC_row : (StableHlo.after hostOps6 V (Proc.devRef .tc main_v128) : Arr 1 64) = row (V (Proc.devRef .tc main_arg12)) := by
  after_results_simp
  exact reshape_row _ _

end Reads

section Run

variable (m : (ℓ : Loc nD τ sig) → Buf (Elt Ideal) ℓ) (ρ : Dev nD → PrngReg) (c : Dev nD) (b : Ref sig .tc)

theorem wr : WritesIn hostOps4 wA ∧ WritesIn hostOps4_1 wAs ∧ WritesIn hostOps4_2 wAt ∧ WritesIn hostOps5 wB ∧ WritesIn hostOps5_1 wBs
    ∧ WritesIn hostOps5_2 wBt ∧ WritesIn hostOps6 [main_v128] := by
  simp only [WritesIn, hostOps4, hostOps4_1, hostOps4_2, hostOps5, hostOps5_1, hostOps5_2, hostOps6, List.Forall, StableHlo.nullary_writes,
    StableHlo.unary_writes, StableHlo.binary_writes, StableHlo.ternary_writes, StableHlo.reshape_writes,
    Finset.singleton_subset_iff, List.mem_toFinset]
  repeat' apply And.intro
  all_goals exact List.mem_map_of_mem (by decide)

theorem k1 (h : b ∉ wA := by decide) : W13 m ρ c (Proc.devRef .tc b) = W12 m ρ c (Proc.devRef .tc b) :=
  StableHlo.after_of_writes_sub (W := wA) hostOps4 _ wr.1 h
theorem k2 (h : b ∉ wAs := by decide) : W14 m ρ c (Proc.devRef .tc b) = W13 m ρ c (Proc.devRef .tc b) :=
  StableHlo.after_of_writes_sub (W := wAs) hostOps4_1 _ wr.2.1 h
theorem k3 (h : b ∉ wAt := by decide) : W15 m ρ c (Proc.devRef .tc b) = W14 m ρ c (Proc.devRef .tc b) :=
  StableHlo.after_of_writes_sub (W := wAt) hostOps4_2 _ wr.2.2.1 h
theorem k5 (h : b ∉ wB := by decide) : W17 m ρ c (Proc.devRef .tc b) = W16 m ρ c (Proc.devRef .tc b) :=
  StableHlo.after_of_writes_sub (W := wB) hostOps5 _ wr.2.2.2.1 h
theorem k6 (h : b ∉ wBs := by decide) : W18 m ρ c (Proc.devRef .tc b) = W17 m ρ c (Proc.devRef .tc b) :=
  StableHlo.after_of_writes_sub (W := wBs) hostOps5_1 _ wr.2.2.2.2.1 h
theorem k7 (h : b ∉ wBt := by decide) : W19 m ρ c (Proc.devRef .tc b) = W18 m ρ c (Proc.devRef .tc b) :=
  StableHlo.after_of_writes_sub (W := wBt) hostOps5_2 _ wr.2.2.2.2.2.1 h
theorem k9 (h : b ∉ [main_v128] := by decide) : W21 m ρ c (Proc.devRef .tc b) = W20 m ρ c (Proc.devRef .tc b) :=
  StableHlo.after_of_writes_sub (W := [main_v128]) hostOps6 _ wr.2.2.2.2.2.2 h

theorem k4 (h : ∀ w, Pipeline.arrRef spec4 w = b → (cfg4.win w).isOut = false := by decide) :
    W16 m ρ c (Proc.devRef .tc b) = W15 m ρ c (Proc.devRef .tc b) :=
  keep_region (Pipeline.arrRef spec4) (fun w => (cfg4.win w).isOut) (W16_of_ne m ρ c) (fun w hin => by rw [W16_arr, (dat4 (V15 m ρ) c).arrAt_in w hin, A_eq4]) b h
theorem k8 (h : ∀ w, Pipeline.arrRef spec5 w = b → (cfg5.win w).isOut = false := by decide) :
    W20 m ρ c (Proc.devRef .tc b) = W19 m ρ c (Proc.devRef .tc b) :=
  keep_region (Pipeline.arrRef spec5) (fun w => (cfg5.win w).isOut) (W20_of_ne m ρ c) (fun w hin => by rw [W20_arr, (dat5 (V19 m ρ) c).arrAt_in w hin, A_eq5]) b h
theorem k10 (h : ∀ w, Pipeline.arrRef spec6 w = b → (cfg6.win w).isOut = false := by decide) :
    W22 m ρ c (Proc.devRef .tc b) = W21 m ρ c (Proc.devRef .tc b) :=
  keep_region (Pipeline.arrRef spec6) (fun w => (cfg6.win w).isOut) (W22_of_ne m ρ c) (fun w hin => by rw [W22_arr, (dat6 (V21 m ρ) c).arrAt_in w hin, A_eq6]) b h

-- A buffer no line of the relation writes and no region has as an output is carried from the entry to every level.
theorem k3_0 (h1 : b ∉ wA := by decide) (h2 : b ∉ wAs := by decide) (h3 : b ∉ wAt := by decide) :
    W15 m ρ c (Proc.devRef .tc b) = W12 m ρ c (Proc.devRef .tc b) :=
  (k3 m ρ c b h3).trans ((k2 m ρ c b h2).trans (k1 m ρ c b h1))
theorem k7_4 (h1 : b ∉ wB := by decide) (h2 : b ∉ wBs := by decide) (h3 : b ∉ wBt := by decide) :
    W19 m ρ c (Proc.devRef .tc b) = W16 m ρ c (Proc.devRef .tc b) :=
  (k7 m ρ c b h3).trans ((k6 m ρ c b h2).trans (k5 m ρ c b h1))
theorem k7_0 (h : b ∉ wA ++ wAs ++ wAt ++ wB ++ wBs ++ wBt := by decide)
    (h4 : ∀ w, Pipeline.arrRef spec4 w = b → (cfg4.win w).isOut = false := by decide) :
    W19 m ρ c (Proc.devRef .tc b) = W12 m ρ c (Proc.devRef .tc b) := by
  simp only [List.mem_append, not_or] at h
  exact (k7_4 m ρ c b h.1.1.2 h.1.2 h.2).trans ((k4 m ρ c b h4).trans (k3_0 m ρ c b h.1.1.1.1.1 h.1.1.1.1.2 h.1.1.1.2))
theorem k9_0 (h : b ∉ wA ++ wAs ++ wAt ++ wB ++ wBs ++ wBt := by decide)
    (h4 : ∀ w, Pipeline.arrRef spec4 w = b → (cfg4.win w).isOut = false := by decide)
    (h8 : ∀ w, Pipeline.arrRef spec5 w = b → (cfg5.win w).isOut = false := by decide)
    (h9 : b ∉ [main_v128] := by decide) : W21 m ρ c (Proc.devRef .tc b) = W12 m ρ c (Proc.devRef .tc b) :=
  (k9 m ρ c b h9).trans ((k8 m ρ c b h8).trans (k7_0 m ρ c b h h4))
theorem k10_0 (h : b ∉ wA ++ wAs ++ wAt ++ wB ++ wBs ++ wBt := by decide)
    (h4 : ∀ w, Pipeline.arrRef spec4 w = b → (cfg4.win w).isOut = false := by decide)
    (h8 : ∀ w, Pipeline.arrRef spec5 w = b → (cfg5.win w).isOut = false := by decide)
    (h9 : b ∉ [main_v128] := by decide)
    (h10 : ∀ w, Pipeline.arrRef spec6 w = b → (cfg6.win w).isOut = false := by decide) :
    W22 m ρ c (Proc.devRef .tc b) = W12 m ρ c (Proc.devRef .tc b) :=
  (k10 m ρ c b h10).trans (k9_0 m ρ c b h h4 h8 h9)

theorem src4 : W16 m ρ c (Proc.devRef .tc main_v71) = edge1 (W12 m ρ c (Proc.devRef .tc main_arg1)) :=
  (k4 m ρ c main_v71).trans ((k3 m ρ c main_v71).trans ((k2 m ρ c main_v71).trans (hA_src (W12 m ρ c))))
theorem dst4 : W16 m ρ c (Proc.devRef .tc main_v73) = edge1 (W12 m ρ c (Proc.devRef .tc main_arg2)) :=
  (k4 m ρ c main_v73).trans ((k3 m ρ c main_v73).trans ((k2 m ρ c main_v73).trans (hA_dst (W12 m ρ c))))

theorem agg3 : W15 m ρ c (Proc.devRef .tc main_v98)
    = agg (F := Ideal) (W12 m ρ c (Proc.devRef .tc main_v69_0)) (edge1 (W12 m ρ c (Proc.devRef .tc main_arg1)))
        (edge1 (W12 m ρ c (Proc.devRef .tc main_arg2))) :=
  agg_of (hAt_agg (W14 m ρ c))
    (clamp_of (hAs_sel (W13 m ρ c)) (hA_cmp (W12 m ρ c)) (hA_one (W12 m ρ c)) (hA_deg (W12 m ρ c)) rfl)
    ((k2 m ρ c main_v69_0).trans (k1 m ρ c main_v69_0)) ((k2 m ρ c main_v71).trans (hA_src (W12 m ρ c)))
    ((k2 m ρ c main_v73).trans (hA_dst (W12 m ρ c)))

theorem agg7 : W19 m ρ c (Proc.devRef .tc main_v125)
    = agg (F := Ideal) (W16 m ρ c (Proc.devRef .tc main_v100)) (edge1 (W12 m ρ c (Proc.devRef .tc main_arg1)))
        (edge1 (W12 m ρ c (Proc.devRef .tc main_arg2))) :=
  agg_of (hBt_agg (W18 m ρ c))
    (clamp_of (hBs_sel (W17 m ρ c)) (hB_cmp (W16 m ρ c)) (hB_one (W16 m ρ c)) (hB_deg (W16 m ρ c)) (dst4 m ρ c))
    ((k6 m ρ c main_v100).trans (k5 m ρ c main_v100)) ((k6 m ρ c main_v71).trans ((k5 m ρ c main_v71).trans (src4 m ρ c)))
    ((k6 m ρ c main_v73).trans ((k5 m ρ c main_v73).trans (dst4 m ρ c)))

theorem row3 : (W15 m ρ c (Proc.devRef .tc main_v99) : Arr 1 64) = row (W12 m ρ c (Proc.devRef .tc main_arg8)) := by
  rw [← k1 m ρ c main_arg8, ← k2 m ρ c main_arg8]
  exact hAt_row (W14 m ρ c)
theorem row7 : (W19 m ρ c (Proc.devRef .tc main_v126) : Arr 1 64) = row (W12 m ρ c (Proc.devRef .tc main_arg10)) := by
  rw [← k3_0 m ρ c main_arg10, ← k4 m ρ c main_arg10, ← k5 m ρ c main_arg10, ← k6 m ρ c main_arg10]
  exact hBt_row (W18 m ρ c)
theorem row9 : (W21 m ρ c (Proc.devRef .tc main_v128) : Arr 1 64) = row (W12 m ρ c (Proc.devRef .tc main_arg12)) := by
  rw [← k7_0 m ρ c main_arg12, ← k8 m ρ c main_arg12]
  exact hC_row (W20 m ρ c)

theorem krel1 (A7 A9 A11 : Arr 128 64)
    (hw3 : (W12 m ρ c (Proc.devRef .tc main_v3) : Arr 64 64) = top A7)
    (hw4 : (W12 m ρ c (Proc.devRef .tc main_v4) : Arr 64 64) = bot A7)
    (hw5 : (W12 m ρ c (Proc.devRef .tc main_v5) : Arr 64 64) = top A9)
    (hw6 : (W12 m ρ c (Proc.devRef .tc main_v6) : Arr 64 64) = bot A9)
    (hw7 : (W12 m ρ c (Proc.devRef .tc main_v7) : Arr 64 64) = top A11)
    (hw8 : (W12 m ρ c (Proc.devRef .tc main_v8) : Arr 64 64) = bot A11)
    (rA : (W16 m ρ c (Proc.devRef .tc main_v100) : Arr N 64)
      = dual negOne (W15 m ρ c (Proc.devRef .tc main_v69_0)) (W15 m ρ c (Proc.devRef .tc main_v98))
          (W15 m ρ c (Proc.devRef .tc main_v3)) (W15 m ρ c (Proc.devRef .tc main_v4)) (W15 m ρ c (Proc.devRef .tc main_v99)))
    (rB : (W20 m ρ c (Proc.devRef .tc main_v127) : Arr N 64)
      = dual negOne (W19 m ρ c (Proc.devRef .tc main_v100)) (W19 m ρ c (Proc.devRef .tc main_v125))
          (W19 m ρ c (Proc.devRef .tc main_v5)) (W19 m ρ c (Proc.devRef .tc main_v6)) (W19 m ρ c (Proc.devRef .tc main_v126)))
    (rC : (W22 m ρ c (Proc.devRef .tc main_v129_0) : Arr N 64)
      = dual posOne (W21 m ρ c (Proc.devRef .tc main_v100)) (W21 m ρ c (Proc.devRef .tc main_v127))
          (W21 m ρ c (Proc.devRef .tc main_v7)) (W21 m ρ c (Proc.devRef .tc main_v8)) (W21 m ρ c (Proc.devRef .tc main_v128)))
    (rD : (W22 m ρ c (Proc.devRef .tc main_v129_1) : Arr N 64)
      = accum (W21 m ρ c (Proc.devRef .tc main_v69_1))
          (dual posOne (W21 m ρ c (Proc.devRef .tc main_v100)) (W21 m ρ c (Proc.devRef .tc main_v127))
            (W21 m ρ c (Proc.devRef .tc main_v7)) (W21 m ρ c (Proc.devRef .tc main_v8)) (W21 m ρ c (Proc.devRef .tc main_v128)))) :
    (W22 m ρ c (Proc.devRef .tc main_v129_0) : Arr N 64)
      = relK (W12 m ρ c (Proc.devRef .tc main_v69_0)) (edge1 (W12 m ρ c (Proc.devRef .tc main_arg1)))
          (edge1 (W12 m ρ c (Proc.devRef .tc main_arg2))) A7 (W12 m ρ c (Proc.devRef .tc main_arg8)) A9
          (W12 m ρ c (Proc.devRef .tc main_arg10)) A11 (W12 m ρ c (Proc.devRef .tc main_arg12)) ∧
    (W22 m ρ c (Proc.devRef .tc main_v129_1) : Arr N 64)
      = accum (W12 m ρ c (Proc.devRef .tc main_v69_1))
          (relK (W12 m ρ c (Proc.devRef .tc main_v69_0)) (edge1 (W12 m ρ c (Proc.devRef .tc main_arg1)))
            (edge1 (W12 m ρ c (Proc.devRef .tc main_arg2))) A7 (W12 m ρ c (Proc.devRef .tc main_arg8)) A9
            (W12 m ρ c (Proc.devRef .tc main_arg10)) A11 (W12 m ρ c (Proc.devRef .tc main_arg12))) ∧
    (W22 m ρ c (Proc.devRef .tc main_arg1) = W12 m ρ c (Proc.devRef .tc main_arg1) ∧
     W22 m ρ c (Proc.devRef .tc main_arg2) = W12 m ρ c (Proc.devRef .tc main_arg2) ∧
     W22 m ρ c (Proc.devRef .tc main_arg8) = W12 m ρ c (Proc.devRef .tc main_arg8) ∧
     W22 m ρ c (Proc.devRef .tc main_arg10) = W12 m ρ c (Proc.devRef .tc main_arg10) ∧
     W22 m ρ c (Proc.devRef .tc main_arg12) = W12 m ρ c (Proc.devRef .tc main_arg12) ∧
     W22 m ρ c (Proc.devRef .tc main_arg13) = W12 m ρ c (Proc.devRef .tc main_arg13) ∧
     W22 m ρ c (Proc.devRef .tc main_arg14) = W12 m ρ c (Proc.devRef .tc main_arg14)) ∧
    (W22 m ρ c (Proc.devRef .tc main_v3) = W12 m ρ c (Proc.devRef .tc main_v3) ∧
     W22 m ρ c (Proc.devRef .tc main_v4) = W12 m ρ c (Proc.devRef .tc main_v4) ∧
     W22 m ρ c (Proc.devRef .tc main_v5) = W12 m ρ c (Proc.devRef .tc main_v5) ∧
     W22 m ρ c (Proc.devRef .tc main_v6) = W12 m ρ c (Proc.devRef .tc main_v6) ∧
     W22 m ρ c (Proc.devRef .tc main_v7) = W12 m ρ c (Proc.devRef .tc main_v7) ∧
     W22 m ρ c (Proc.devRef .tc main_v8) = W12 m ρ c (Proc.devRef .tc main_v8)) := by
  obtain ⟨e1, e2⟩ := rel_glue rA rB rC rD (k3_0 m ρ c main_v69_0) (agg3 m ρ c) ((k3_0 m ρ c main_v3).trans hw3)
    ((k3_0 m ρ c main_v4).trans hw4) (row3 m ρ c) (k7_4 m ρ c main_v100) (agg7 m ρ c) ((k7_0 m ρ c main_v5).trans hw5)
    ((k7_0 m ρ c main_v6).trans hw6) (row7 m ρ c) ((k9 m ρ c main_v100).trans ((k8 m ρ c main_v100).trans (k7_4 m ρ c main_v100)))
    (k9 m ρ c main_v127) ((k9_0 m ρ c main_v7).trans hw7) ((k9_0 m ρ c main_v8).trans hw8) (row9 m ρ c) (k9_0 m ρ c main_v69_1)
  exact ⟨e1, e2, ⟨k10_0 m ρ c main_arg1, k10_0 m ρ c main_arg2, k10_0 m ρ c main_arg8, k10_0 m ρ c main_arg10,
      k10_0 m ρ c main_arg12, k10_0 m ρ c main_arg13, k10_0 m ρ c main_arg14⟩,
    ⟨k10_0 m ρ c main_v3, k10_0 m ρ c main_v4, k10_0 m ρ c main_v5, k10_0 m ρ c main_v6, k10_0 m ρ c main_v7, k10_0 m ρ c main_v8⟩⟩

end Run

end Cert.KernelIdeal.Val.H1

end
-- ==== Proof.KHost2.lean ====
import proofs.«116818_j36043365548320_1_alg».proof.Proof.KHostLib

noncomputable section

namespace Cert.KernelIdeal.Val.H2

open Cert.KernelIdeal Cert.KernelIdeal.Gen Cert.KernelIdeal.Val.HL Idealize.ShloMosaic Idealize.ShloMosaic.TcCoe Idealize.SL.Sem Cert.Spec

abbrev wA : List (Ref sig .tc) := [main_v130, main_v131, main_v132, main_v133, main_cst_31, main_v134, main_cst_32, main_v135, main_v136, main_v137, main_cst_33, main_v138, main_v139, main_cst_34]
abbrev wAs : List (Ref sig .tc) := [main_call4_v0, main_call4_v1, main_v140]
abbrev wAt : List (Ref sig .tc) := [main_cst_35, main_v141, main_v142, main_v143, main_v144, main_v145, main_c_36, main_v146, main_v147, main_c_37, main_v148, main_v149, main_v150, main_v151, main_v152, main_v153, main_cst_38, main_v154, main_v155, main_v156, main_v157, main_v158, main_v159]
abbrev wB : List (Ref sig .tc) := [main_cst_39, main_v161, main_cst_40, main_v162, main_v163, main_v164, main_cst_41, main_v165, main_v166, main_cst_42]
abbrev wBs : List (Ref sig .tc) := [main_call5_v0, main_call5_v1, main_v167]
abbrev wBt : List (Ref sig .tc) := [main_cst_43, main_v168, main_v169, main_v170, main_v171, main_v172, main_c_44, main_v173, main_v174, main_c_45, main_v175, main_v176, main_v177, main_v178, main_v179, main_v180, main_cst_46, main_v181, main_v182, main_v183, main_v184, main_v185, main_v186]

section Reads

variable (V : Valuation τ sig (Elt Ideal))

theorem hA_src : StableHlo.after hostOps7 V (Proc.devRef .tc main_v131) = edge2 (V (Proc.devRef .tc main_arg1)) := by
  after_results_simp
  rfl
theorem hA_dst : StableHlo.after hostOps7 V (Proc.devRef .tc main_v133) = edge2 (V (Proc.devRef .tc main_arg2)) := by
  after_results_simp
  rfl
theorem hA_deg : StableHlo.after hostOps7 V (Proc.devRef .tc main_v137) = degree (F := Ideal) (edge2 (V (Proc.devRef .tc main_arg2))) := by
  after_results_simp
  rfl
theorem hA_cmp : StableHlo.after hostOps7 V (Proc.devRef .tc main_v139)
    = cmpf .olt (degree (F := Ideal) (edge2 (V (Proc.devRef .tc main_arg2))))
        (broadcastInDim S100000 ![] bcast_S_S100000 (constant S_ .f32 0x3F800000#32)) := by
  after_results_simp
  rfl
theorem hA_one : StableHlo.after hostOps7 V (Proc.devRef .tc main_cst_34) = constant (F := Ideal) S_ .f32 0x3F800000#32 := by
  after_results_simp
theorem hAs_sel : StableHlo.after hostOps7_1 V (Proc.devRef .tc main_v140)
    = select (V (Proc.devRef .tc main_v139)) (broadcastInDim S100000 ![] bcast_S_S100000 (id (V (Proc.devRef .tc main_cst_34))))
        (V (Proc.devRef .tc main_v137)) := by
  after_results_simp
  rfl
theorem hAt_agg : StableHlo.after hostOps7_2 V (Proc.devRef .tc main_v158)
    = aggTail (V (Proc.devRef .tc main_v129_0)) (V (Proc.devRef .tc main_v140)) (V (Proc.devRef .tc main_v131)) (V (Proc.devRef .tc main_v133)) := by
  after_results_simp
  rfl
theorem hAt_row : (StableHlo.after hostOps7_2 V (Proc.devRef .tc main_v159) : Arr 1 64) = row (V (Proc.devRef .tc main_arg8)) := by
  after_results_simp
  exact reshape_row _ _
theorem hB_deg : StableHlo.after hostOps8 V (Proc.devRef .tc main_v164) = degree (F := Ideal) (V (Proc.devRef .tc main_v133)) := by
  after_results_simp
  rfl
theorem hB_cmp : StableHlo.after hostOps8 V (Proc.devRef .tc main_v166)
    = cmpf .olt (degree (F := Ideal) (V (Proc.devRef .tc main_v133)))
        (broadcastInDim S100000 ![] bcast_S_S100000 (constant S_ .f32 0x3F800000#32)) := by
  after_results_simp
  rfl
theorem hB_one : StableHlo.after hostOps8 V (Proc.devRef .tc main_cst_42) = constant (F := Ideal) S_ .f32 0x3F800000#32 := by
  after_results_simp
theorem hBs_sel : StableHlo.after hostOps8_1 V (Proc.devRef .tc main_v167)
    = select (V (Proc.devRef .tc main_v166)) (broadcastInDim S100000 ![] bcast_S_S100000 (id (V (Proc.devRef .tc main_cst_42))))
        (V (Proc.devRef .tc main_v164)) := by
  after_results_simp
  rfl
theorem hBt_agg : StableHlo.after hostOps8_2 V (Proc.devRef .tc main_v185)
    = aggTail (V (Proc.devRef .tc main_v160)) (V (Proc.devRef .tc main_v167)) (V (Proc.devRef .tc main_v131)) (V (Proc.devRef .tc main_v133)) := by
  after_results_simp
  rfl
theorem hBt_row : (StableHlo.after hostOps8_2 V (Proc.devRef .tc main_v186) : Arr 1 64) = row (V (Proc.devRef .tc main_arg10)) := by
  after_results_simp
  exact reshape_row _ _
theorem hC_row : (StableHlo.after hostOps9 V (Proc.devRef .tc main_v188) : Arr 1 64) = row (V (Proc.devRef .tc main_arg12)) := by
  after_results_simp
  exact reshape_row _ _

end Reads

section Run

variable (m : (ℓ : Loc nD τ sig) → Buf (Elt Ideal) ℓ) (ρ : Dev nD → PrngReg) (c : Dev nD) (b : Ref sig .tc)

theorem wr : WritesIn hostOps7 wA ∧ WritesIn hostOps7_1 wAs ∧ WritesIn hostOps7_2 wAt ∧ WritesIn hostOps8 wB ∧ WritesIn hostOps8_1 wBs
    ∧ WritesIn hostOps8_2 wBt ∧ WritesIn hostOps9 [main_v188] := by
  simp only [WritesIn, hostOps7, hostOps7_1, hostOps7_2, hostOps8, hostOps8_1, hostOps8_2, hostOps9, List.Forall, StableHlo.nullary_writes,
    StableHlo.unary_writes, StableHlo.binary_writes, StableHlo.ternary_writes, StableHlo.reshape_writes,
    Finset.singleton_subset_iff, List.mem_toFinset]
  repeat' apply And.intro
  all_goals exact List.mem_map_of_mem (by decide)

theorem k1 (h : b ∉ wA := by decide) : W23 m ρ c (Proc.devRef .tc b) = W22 m ρ c (Proc.devRef .tc b) :=
  StableHlo.after_of_writes_sub (W := wA) hostOps7 _ wr.1 h
theorem k2 (h : b ∉ wAs := by decide) : W24 m ρ c (Proc.devRef .tc b) = W23 m ρ c (Proc.devRef .tc b) :=
  StableHlo.after_of_writes_sub (W := wAs) hostOps7_1 _ wr.2.1 h
theorem k3 (h : b ∉ wAt := by decide) : W25 m ρ c (Proc.devRef .tc b) = W24 m ρ c (Proc.devRef .tc b) :=
  StableHlo.after_of_writes_sub (W := wAt) hostOps7_2 _ wr.2.2.1 h
theorem k5 (h : b ∉ wB := by decide) : W27 m ρ c (Proc.devRef .tc b) = W26 m ρ c (Proc.devRef .tc b) :=
  StableHlo.after_of_writes_sub (W := wB) hostOps8 _ wr.2.2.2.1 h
theorem k6 (h : b ∉ wBs := by decide) : W28 m ρ c (Proc.devRef .tc b) = W27 m ρ c (Proc.devRef .tc b) :=
  StableHlo.after_of_writes_sub (W := wBs) hostOps8_1 _ wr.2.2.2.2.1 h
theorem k7 (h : b ∉ wBt := by decide) : W29 m ρ c (Proc.devRef .tc b) = W28 m ρ c (Proc.devRef .tc b) :=
  StableHlo.after_of_writes_sub (W := wBt) hostOps8_2 _ wr.2.2.2.2.2.1 h
theorem k9 (h : b ∉ [main_v188] := by decide) : W31 m ρ c (Proc.devRef .tc b) = W30 m ρ c (Proc.devRef .tc b) :=
  StableHlo.after_of_writes_sub (W := [main_v188]) hostOps9 _ wr.2.2.2.2.2.2 h

theorem k4 (h : ∀ w, Pipeline.arrRef spec7 w = b → (cfg7.win w).isOut = false := by decide) :
    W26 m ρ c (Proc.devRef .tc b) = W25 m ρ c (Proc.devRef .tc b) :=
  keep_region (Pipeline.arrRef spec7) (fun w => (cfg7.win w).isOut) (W26_of_ne m ρ c) (fun w hin => by rw [W26_arr, (dat7 (V25 m ρ) c).arrAt_in w hin, A_eq7]) b h
theorem k8 (h : ∀ w, Pipeline.arrRef spec8 w = b → (cfg8.win w).isOut = false := by decide) :
    W30 m ρ c (Proc.devRef .tc b) = W29 m ρ c (Proc.devRef .tc b) :=
  keep_region (Pipeline.arrRef spec8) (fun w => (cfg8.win w).isOut) (W30_of_ne m ρ c) (fun w hin => by rw [W30_arr, (dat8 (V29 m ρ) c).arrAt_in w hin, A_eq8]) b h
theorem k10 (h : ∀ w, Pipeline.arrRef spec9 w = b → (cfg9.win w).isOut = false := by decide) :
    W32 m ρ c (Proc.devRef .tc b) = W31 m ρ c (Proc.devRef .tc b) :=
  keep_region (Pipeline.arrRef spec9) (fun w => (cfg9.win w).isOut) (W32_of_ne m ρ c) (fun w hin => by rw [W32_arr, (dat9 (V31 m ρ) c).arrAt_in w hin, A_eq9]) b h

-- A buffer no line of the relation writes and no region has as an output is carried from the entry to every level.
theorem k3_0 (h1 : b ∉ wA := by decide) (h2 : b ∉ wAs := by decide) (h3 : b ∉ wAt := by decide) :
    W25 m ρ c (Proc.devRef .tc b) = W22 m ρ c (Proc.devRef .tc b) :=
  (k3 m ρ c b h3).trans ((k2 m ρ c b h2).trans (k1 m ρ c b h1))
theorem k7_4 (h1 : b ∉ wB := by decide) (h2 : b ∉ wBs := by decide) (h3 : b ∉ wBt := by decide) :
    W29 m ρ c (Proc.devRef .tc b) = W26 m ρ c (Proc.devRef .tc b) :=
  (k7 m ρ c b h3).trans ((k6 m ρ c b h2).trans (k5 m ρ c b h1))
theorem k7_0 (h : b ∉ wA ++ wAs ++ wAt ++ wB ++ wBs ++ wBt := by decide)
    (h4 : ∀ w, Pipeline.arrRef spec7 w = b → (cfg7.win w).isOut = false := by decide) :
    W29 m ρ c (Proc.devRef .tc b) = W22 m ρ c (Proc.devRef .tc b) := by
  simp only [List.mem_append, not_or] at h
  exact (k7_4 m ρ c b h.1.1.2 h.1.2 h.2).trans ((k4 m ρ c b h4).trans (k3_0 m ρ c b h.1.1.1.1.1 h.1.1.1.1.2 h.1.1.1.2))
theorem k9_0 (h : b ∉ wA ++ wAs ++ wAt ++ wB ++ wBs ++ wBt := by decide)
    (h4 : ∀ w, Pipeline.arrRef spec7 w = b → (cfg7.win w).isOut = false := by decide)
    (h8 : ∀ w, Pipeline.arrRef spec8 w = b → (cfg8.win w).isOut = false := by decide)
    (h9 : b ∉ [main_v188] := by decide) : W31 m ρ c (Proc.devRef .tc b) = W22 m ρ c (Proc.devRef .tc b) :=
  (k9 m ρ c b h9).trans ((k8 m ρ c b h8).trans (k7_0 m ρ c b h h4))
theorem k10_0 (h : b ∉ wA ++ wAs ++ wAt ++ wB ++ wBs ++ wBt := by decide)
    (h4 : ∀ w, Pipeline.arrRef spec7 w = b → (cfg7.win w).isOut = false := by decide)
    (h8 : ∀ w, Pipeline.arrRef spec8 w = b → (cfg8.win w).isOut = false := by decide)
    (h9 : b ∉ [main_v188] := by decide)
    (h10 : ∀ w, Pipeline.arrRef spec9 w = b → (cfg9.win w).isOut = false := by decide) :
    W32 m ρ c (Proc.devRef .tc b) = W22 m ρ c (Proc.devRef .tc b) :=
  (k10 m ρ c b h10).trans (k9_0 m ρ c b h h4 h8 h9)

theorem src4 : W26 m ρ c (Proc.devRef .tc main_v131) = edge2 (W22 m ρ c (Proc.devRef .tc main_arg1)) :=
  (k4 m ρ c main_v131).trans ((k3 m ρ c main_v131).trans ((k2 m ρ c main_v131).trans (hA_src (W22 m ρ c))))
theorem dst4 : W26 m ρ c (Proc.devRef .tc main_v133) = edge2 (W22 m ρ c (Proc.devRef .tc main_arg2)) :=
  (k4 m ρ c main_v133).trans ((k3 m ρ c main_v133).trans ((k2 m ρ c main_v133).trans (hA_dst (W22 m ρ c))))

theorem agg3 : W25 m ρ c (Proc.devRef .tc main_v158)
    = agg (F := Ideal) (W22 m ρ c (Proc.devRef .tc main_v129_0)) (edge2 (W22 m ρ c (Proc.devRef .tc main_arg1)))
        (edge2 (W22 m ρ c (Proc.devRef .tc main_arg2))) :=
  agg_of (hAt_agg (W24 m ρ c))
    (clamp_of (hAs_sel (W23 m ρ c)) (hA_cmp (W22 m ρ c)) (hA_one (W22 m ρ c)) (hA_deg (W22 m ρ c)) rfl)
    ((k2 m ρ c main_v129_0).trans (k1 m ρ c main_v129_0)) ((k2 m ρ c main_v131).trans (hA_src (W22 m ρ c)))
    ((k2 m ρ c main_v133).trans (hA_dst (W22 m ρ c)))

theorem agg7 : W29 m ρ c (Proc.devRef .tc main_v185)
    = agg (F := Ideal) (W26 m ρ c (Proc.devRef .tc main_v160)) (edge2 (W22 m ρ c (Proc.devRef .tc main_arg1)))
        (edge2 (W22 m ρ c (Proc.devRef .tc main_arg2))) :=
  agg_of (hBt_agg (W28 m ρ c))
    (clamp_of (hBs_sel (W27 m ρ c)) (hB_cmp (W26 m ρ c)) (hB_one (W26 m ρ c)) (hB_deg (W26 m ρ c)) (dst4 m ρ c))
    ((k6 m ρ c main_v160).trans (k5 m ρ c main_v160)) ((k6 m ρ c main_v131).trans ((k5 m ρ c main_v131).trans (src4 m ρ c)))
    ((k6 m ρ c main_v133).trans ((k5 m ρ c main_v133).trans (dst4 m ρ c)))

theorem row3 : (W25 m ρ c (Proc.devRef .tc main_v159) : Arr 1 64) = row (W22 m ρ c (Proc.devRef .tc main_arg8)) := by
  rw [← k1 m ρ c main_arg8, ← k2 m ρ c main_arg8]
  exact hAt_row (W24 m ρ c)
theorem row7 : (W29 m ρ c (Proc.devRef .tc main_v186) : Arr 1 64) = row (W22 m ρ c (Proc.devRef .tc main_arg10)) := by
  rw [← k3_0 m ρ c main_arg10, ← k4 m ρ c main_arg10, ← k5 m ρ c main_arg10, ← k6 m ρ c main_arg10]
  exact hBt_row (W28 m ρ c)
theorem row9 : (W31 m ρ c (Proc.devRef .tc main_v188) : Arr 1 64) = row (W22 m ρ c (Proc.devRef .tc main_arg12)) := by
  rw [← k7_0 m ρ c main_arg12, ← k8 m ρ c main_arg12]
  exact hC_row (W30 m ρ c)

theorem krel2 (A7 A9 A11 : Arr 128 64)
    (hw3 : (W22 m ρ c (Proc.devRef .tc main_v3) : Arr 64 64) = top A7)
    (hw4 : (W22 m ρ c (Proc.devRef .tc main_v4) : Arr 64 64) = bot A7)
    (hw5 : (W22 m ρ c (Proc.devRef .tc main_v5) : Arr 64 64) = top A9)
    (hw6 : (W22 m ρ c (Proc.devRef .tc main_v6) : Arr 64 64) = bot A9)
    (hw7 : (W22 m ρ c (Proc.devRef .tc main_v7) : Arr 64 64) = top A11)
    (hw8 : (W22 m ρ c (Proc.devRef .tc main_v8) : Arr 64 64) = bot A11)
    (rA : (W26 m ρ c (Proc.devRef .tc main_v160) : Arr N 64)
      = dual negOne (W25 m ρ c (Proc.devRef .tc main_v129_0)) (W25 m ρ c (Proc.devRef .tc main_v158))
          (W25 m ρ c (Proc.devRef .tc main_v3)) (W25 m ρ c (Proc.devRef .tc main_v4)) (W25 m ρ c (Proc.devRef .tc main_v159)))
    (rB : (W30 m ρ c (Proc.devRef .tc main_v187) : Arr N 64)
      = dual negOne (W29 m ρ c (Proc.devRef .tc main_v160)) (W29 m ρ c (Proc.devRef .tc main_v185))
          (W29 m ρ c (Proc.devRef .tc main_v5)) (W29 m ρ c (Proc.devRef .tc main_v6)) (W29 m ρ c (Proc.devRef .tc main_v186)))
    (rC : (W32 m ρ c (Proc.devRef .tc main_v189_0) : Arr N 64)
      = dual posOne (W31 m ρ c (Proc.devRef .tc main_v160)) (W31 m ρ c (Proc.devRef .tc main_v187))
          (W31 m ρ c (Proc.devRef .tc main_v7)) (W31 m ρ c (Proc.devRef .tc main_v8)) (W31 m ρ c (Proc.devRef .tc main_v188)))
    (rD : (W32 m ρ c (Proc.devRef .tc main_v189_1) : Arr N 64)
      = accum (W31 m ρ c (Proc.devRef .tc main_v129_1))
          (dual posOne (W31 m ρ c (Proc.devRef .tc main_v160)) (W31 m ρ c (Proc.devRef .tc main_v187))
            (W31 m ρ c (Proc.devRef .tc main_v7)) (W31 m ρ c (Proc.devRef .tc main_v8)) (W31 m ρ c (Proc.devRef .tc main_v188)))) :
    (W32 m ρ c (Proc.devRef .tc main_v189_0) : Arr N 64)
      = relK (W22 m ρ c (Proc.devRef .tc main_v129_0)) (edge2 (W22 m ρ c (Proc.devRef .tc main_arg1))) (edge2 (W22 m ρ c (Proc.devRef .tc main_arg2)))
          A7 (W22 m ρ c (Proc.devRef .tc main_arg8)) A9 (W22 m ρ c (Proc.devRef .tc main_arg10)) A11 (W22 m ρ c (Proc.devRef .tc main_arg12))
    ∧ (W32 m ρ c (Proc.devRef .tc main_v189_1) : Arr N 64)
      = accum (W22 m ρ c (Proc.devRef .tc main_v129_1))
          (relK (W22 m ρ c (Proc.devRef .tc main_v129_0)) (edge2 (W22 m ρ c (Proc.devRef .tc main_arg1))) (edge2 (W22 m ρ c (Proc.devRef .tc main_arg2)))
            A7 (W22 m ρ c (Proc.devRef .tc main_arg8)) A9 (W22 m ρ c (Proc.devRef .tc main_arg10)) A11 (W22 m ρ c (Proc.devRef .tc main_arg12)))
    ∧ (W32 m ρ c (Proc.devRef .tc main_arg1) = W22 m ρ c (Proc.devRef .tc main_arg1)
      ∧ W32 m ρ c (Proc.devRef .tc main_arg2) = W22 m ρ c (Proc.devRef .tc main_arg2)
      ∧ W32 m ρ c (Proc.devRef .tc main_arg8) = W22 m ρ c (Proc.devRef .tc main_arg8)
      ∧ W32 m ρ c (Proc.devRef .tc main_arg10) = W22 m ρ c (Proc.devRef .tc main_arg10)
      ∧ W32 m ρ c (Proc.devRef .tc main_arg12) = W22 m ρ c (Proc.devRef .tc main_arg12)
      ∧ W32 m ρ c (Proc.devRef .tc main_arg13) = W22 m ρ c (Proc.devRef .tc main_arg13)
      ∧ W32 m ρ c (Proc.devRef .tc main_arg14) = W22 m ρ c (Proc.devRef .tc main_arg14))
    ∧ (W32 m ρ c (Proc.devRef .tc main_v3) = W22 m ρ c (Proc.devRef .tc main_v3)
      ∧ W32 m ρ c (Proc.devRef .tc main_v4) = W22 m ρ c (Proc.devRef .tc main_v4)
      ∧ W32 m ρ c (Proc.devRef .tc main_v5) = W22 m ρ c (Proc.devRef .tc main_v5)
      ∧ W32 m ρ c (Proc.devRef .tc main_v6) = W22 m ρ c (Proc.devRef .tc main_v6)
      ∧ W32 m ρ c (Proc.devRef .tc main_v7) = W22 m ρ c (Proc.devRef .tc main_v7)
      ∧ W32 m ρ c (Proc.devRef .tc main_v8) = W22 m ρ c (Proc.devRef .tc main_v8)) := by
  obtain ⟨e1, e2⟩ := rel_glue rA rB rC rD (k3_0 m ρ c main_v129_0) (agg3 m ρ c) ((k3_0 m ρ c main_v3).trans hw3)
    ((k3_0 m ρ c main_v4).trans hw4) (row3 m ρ c) (k7_4 m ρ c main_v160) (agg7 m ρ c) ((k7_0 m ρ c main_v5).trans hw5)
    ((k7_0 m ρ c main_v6).trans hw6) (row7 m ρ c) ((k9 m ρ c main_v160).trans ((k8 m ρ c main_v160).trans (k7_4 m ρ c main_v160)))
    (k9 m ρ c main_v187) ((k9_0 m ρ c main_v7).trans hw7) ((k9_0 m ρ c main_v8).trans hw8) (row9 m ρ c) (k9_0 m ρ c main_v129_1)
  exact ⟨e1, e2, ⟨k10_0 m ρ c main_arg1, k10_0 m ρ c main_arg2, k10_0 m ρ c main_arg8, k10_0 m ρ c main_arg10,
      k10_0 m ρ c main_arg12, k10_0 m ρ c main_arg13, k10_0 m ρ c main_arg14⟩,
    ⟨k10_0 m ρ c main_v3, k10_0 m ρ c main_v4, k10_0 m ρ c main_v5, k10_0 m ρ c main_v6, k10_0 m ρ c main_v7, k10_0 m ρ c main_v8⟩⟩

end Run

end Cert.KernelIdeal.Val.H2

end
-- ==== Proof.KValue.lean ====
import proofs.«116818_j36043365548320_1_alg».proof.Proof.KReg0
import proofs.«116818_j36043365548320_1_alg».proof.Proof.KReg1
import proofs.«116818_j36043365548320_1_alg».proof.Proof.KReg2
import proofs.«116818_j36043365548320_1_alg».proof.Proof.KReg3
import proofs.«116818_j36043365548320_1_alg».proof.Proof.KReg4
import proofs.«116818_j36043365548320_1_alg».proof.Proof.KReg5
import proofs.«116818_j36043365548320_1_alg».proof.Proof.KReg6
import proofs.«116818_j36043365548320_1_alg».proof.Proof.KReg7
import proofs.«116818_j36043365548320_1_alg».proof.Proof.KReg8
import proofs.«116818_j36043365548320_1_alg».proof.Proof.KReg9
import proofs.«116818_j36043365548320_1_alg».proof.Proof.KReg10
import proofs.«116818_j36043365548320_1_alg».proof.Proof.KHost0
import proofs.«116818_j36043365548320_1_alg».proof.Proof.KHost1
import proofs.«116818_j36043365548320_1_alg».proof.Proof.KHost2

noncomputable section

namespace Cert.KernelIdeal.Val

open Cert.KernelIdeal Cert.KernelIdeal.Gen Idealize.ShloMosaic Idealize.ShloMosaic.TcCoe Idealize.SL.Sem Cert.Spec

theorem glue
    {o : Arr N 2} {s33 : Arr N 64} {w33 : Arr 64 2} {b33 : Arr 1 2} {s32 : Arr N 64} {c13 : Arr 64 2} {c14 : Arr1 2}
    {hall22 h22 : Arr N 64} {b1 b2 : IVec Cert.ReferenceIdeal.S3x1000000 32} {b8 b10 b12 : Arr1 64} {b13 : Arr 64 2} {b14 : Arr1 2}
    {hall12 h12 : Arr N 64} {d1 d2 : IVec Cert.ReferenceIdeal.S3x1000000 32} {d8 d10 d12 : Arr1 64} {d13 : Arr 64 2} {d14 : Arr1 2}
    {h2 : Arr N 64} {f1 f2 : IVec Cert.ReferenceIdeal.S3x1000000 32} {f8 f10 f12 : Arr1 64} {f13 : Arr 64 2} {f14 : Arr1 2}
    {i0 : Arr N 64} {i3 : Arr 64 64} {iv0 : Arr 1 64} {i5 : Arr 64 64} {iv1 : Arr 1 64}
    {x0 : Arr N 64} {x1 x2 : IVec Cert.ReferenceIdeal.S3x1000000 32} {x3 : Arr 64 64} {x4 : Arr1 64} {x5 : Arr 64 64} {x6 : Arr1 64}
    {x7 : Arr 128 64} {x8 : Arr1 64} {x9 : Arr 128 64} {x10 : Arr1 64} {x11 : Arr 128 64} {x12 : Arr1 64} {x13 : Arr 64 2} {x14 : Arr1 2}
    (h10 : o = head s33 w33 b33) (q1 : s33 = s32) (q2 : w33 = c13) (q3 : b33 = Spec.row c14)
    (y2 : s32 = accum hall22 (relK h22 (edge2 b1) (edge2 b2) x7 b8 x9 b10 x11 b12)) (k2_13 : c13 = b13) (k2_14 : c14 = b14)
    (x1' : h22 = relK h12 (edge1 d1) (edge1 d2) x7 d8 x9 d10 x11 d12)
    (y1 : hall22 = accum hall12 (relK h12 (edge1 d1) (edge1 d2) x7 d8 x9 d10 x11 d12))
    (k1_1 : b1 = d1) (k1_2 : b2 = d2) (k1_8 : b8 = d8) (k1_10 : b10 = d10) (k1_12 : b12 = d12) (k1_13 : b13 = d13) (k1_14 : b14 = d14)
    (x0' : h12 = relK h2 (edge0 f1) (edge0 f2) x7 f8 x9 f10 x11 f12)
    (y0 : hall12 = accum zeros (relK h2 (edge0 f1) (edge0 f2) x7 f8 x9 f10 x11 f12))
    (k0_1 : d1 = f1) (k0_2 : d2 = f2) (k0_8 : d8 = f8) (k0_10 : d10 = f10) (k0_12 : d12 = f12) (k0_13 : d13 = f13) (k0_14 : d14 = f14)
    (e0 : h2 = mlp i0 i3 iv0 i5 iv1) (p0 : i0 = x0) (p3 : i3 = x3) (pv0 : iv0 = Spec.row x4) (p5 : i5 = x5) (pv1 : iv1 = Spec.row x6)
    (a1 : f1 = x1) (a2 : f2 = x2) (a8 : f8 = x8) (a10 : f10 = x10) (a12 : f12 = x12) (a13 : f13 = x13) (a14 : f14 = x14) :
    o = outK x0 x1 x2 x3 x4 x5 x6 x7 x8 x9 x10 x11 x12 x13 x14 := by
  subst q1 q2 q3 k2_13 k2_14 k1_1 k1_2 k1_8 k1_10 k1_12 k1_13 k1_14 k0_1 k0_2 k0_8 k0_10 k0_12 k0_13 k0_14
  subst p0 p3 pv0 p5 pv1 a1 a2 a8 a10 a12 a13 a14
  subst e0
  subst x0' y0
  subst x1' y1
  subst y2
  exact h10

theorem kernel_value (m : (ℓ : Loc nD τ sig) → Buf (Elt Ideal) ℓ) (ρ : Dev nD → PrngReg) (c : Dev nD) :
    (W34 m ρ c (Proc.devRef .tc main_v191) : Arr N 2)
      = outK (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) := by
  obtain ⟨p0, p3, pv0, p5, pv1, a1, a2, a7, a8, a9, a10, a11, a12, a13, a14⟩ := H0.kpre m ρ c
  obtain ⟨x0, y0, ⟨k0_1, k0_2, k0_8, k0_10, k0_12, k0_13, k0_14⟩, ⟨w3, w4, w5, w6, w7, w8⟩⟩ :=
    H0.krel0 m ρ c _ _ _ a7 a9 a11 (R1.reg1 m ρ c) (R2.reg2 m ρ c) (R3.reg3 m ρ c).1 (R3.reg3 m ρ c).2
  obtain ⟨x1, y1, ⟨k1_1, k1_2, k1_8, k1_10, k1_12, k1_13, k1_14⟩, ⟨v3, v4, v5, v6, v7, v8⟩⟩ :=
    H1.krel1 m ρ c _ _ _ w3 w4 w5 w6 w7 w8 (R4.reg4 m ρ c) (R5.reg5 m ρ c) (R6.reg6 m ρ c).1 (R6.reg6 m ρ c).2
  obtain ⟨-, y2, ⟨-, -, -, -, -, k2_13, k2_14⟩, -⟩ :=
    H2.krel2 m ρ c _ _ _ (v3.trans w3) (v4.trans w4) (v5.trans w5) (v6.trans w6) (v7.trans w7) (v8.trans w8)
      (R7.reg7 m ρ c) (R8.reg8 m ρ c) (R9.reg9 m ρ c).1 (R9.reg9 m ρ c).2
  obtain ⟨q1, q2, q3⟩ := H0.kpost m ρ c
  exact glue (R10.reg10 m ρ c) q1 q2 q3 y2 k2_13 k2_14 x1 y1 k1_1 k1_2 k1_8 k1_10 k1_12 k1_13 k1_14
    x0 y0 k0_1 k0_2 k0_8 k0_10 k0_12 k0_13 k0_14 (R0.reg0 m ρ c) p0 p3 pv0 p5 pv1 a1 a2 a8 a10 a12 a13 a14

end Cert.KernelIdeal.Val

end
-- ==== Proof.RefOps.lean ====
import proofs.«116818_j36043365548320_1_alg».proof.Proof.Gen.ReferenceIdeal
import Idealize.ShloMosaic.Lib.StableHlo.Run

noncomputable section

namespace Cert.ReferenceIdeal.Val

open Cert.ReferenceIdeal Cert.ReferenceIdeal.Gen Idealize.ShloMosaic Idealize.ShloMosaic.TcCoe Idealize.SL.Sem Idealize.ShloMosaic.StableHlo

variable {F : FTy → Type} [FloatOps F]

abbrev opsPre : List (HloOp τ sig (Elt F)) :=
  [ StableHlo.binary main_arg0 main_arg3 main_v0 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg4 main_v1 (broadcastInDim S1x64 ![1] bcast_S64_S1x64_1 : (⟨S64, .f32⟩ : BufTy).Contents (Elt F) → (⟨S1x64, .f32⟩ : BufTy).Contents (Elt F)),
    StableHlo.unary main_v1 main_v2 (broadcastInDim S100000x64 ![0, 1] bcast_S1x64_S100000x64_0_1 : (⟨S1x64, .f32⟩ : BufTy).Contents (Elt F) → (⟨S100000x64, .f32⟩ : BufTy).Contents (Elt F)),
    StableHlo.binary main_v0 main_v2 main_v3 (addf : (⟨S100000x64, .f32⟩ : BufTy).Contents (Elt F) → (⟨S100000x64, .f32⟩ : BufTy).Contents (Elt F) → (⟨S100000x64, .f32⟩ : BufTy).Contents (Elt F)),
    StableHlo.nullary main_cst (constant S_ .f32 0x3C23D70A#32),
    StableHlo.TRef.nullary main_call0.cst (constant S_ .f32 0x00000000#32),
    StableHlo.TRef.unary main_call0.cst main_call0.v0 (broadcastInDim S100000x64 ![] bcast_S_S100000x64),
    StableHlo.TRef.binary (.of main_v3 : StableHlo.TRef sig ⟨S100000x64, .f32⟩) main_call0.v0 main_call0.v1 (cmpf .oge),
    StableHlo.TRef.unary (.of main_cst : StableHlo.TRef sig ⟨S_, .f32⟩) main_call0.v2 id,
    StableHlo.TRef.unary main_call0.v2 main_call0.v3 (broadcastInDim S100000x64 ![] bcast_S_S100000x64),
    StableHlo.TRef.binary main_call0.v3 (.of main_v3 : StableHlo.TRef sig ⟨S100000x64, .f32⟩) main_call0.v4 mulf,
    StableHlo.TRef.ternary main_call0.v1 (.of main_v3 : StableHlo.TRef sig ⟨S100000x64, .f32⟩) main_call0.v4 main_call0.call0.v0 select,
    StableHlo.binary main_v4 main_arg5 main_v5 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg6 main_v6 (broadcastInDim S1x64 ![1] bcast_S64_S1x64_1 : (⟨S64, .f32⟩ : BufTy).Contents (Elt F) → (⟨S1x64, .f32⟩ : BufTy).Contents (Elt F)),
    StableHlo.unary main_v6 main_v7 (broadcastInDim S100000x64 ![0, 1] bcast_S1x64_S100000x64_0_1 : (⟨S1x64, .f32⟩ : BufTy).Contents (Elt F) → (⟨S100000x64, .f32⟩ : BufTy).Contents (Elt F)),
    StableHlo.binary main_v5 main_v7 main_v8 (addf : (⟨S100000x64, .f32⟩ : BufTy).Contents (Elt F) → (⟨S100000x64, .f32⟩ : BufTy).Contents (Elt F) → (⟨S100000x64, .f32⟩ : BufTy).Contents (Elt F)),
    StableHlo.nullary main_cst_0 (constant S_ .f32 0x3C23D70A#32),
    StableHlo.TRef.nullary main_call1.cst (constant S_ .f32 0x00000000#32),
    StableHlo.TRef.unary main_call1.cst main_call1.v0 (broadcastInDim S100000x64 ![] bcast_S_S100000x64),
    StableHlo.TRef.binary (.of main_v8 : StableHlo.TRef sig ⟨S100000x64, .f32⟩) main_call1.v0 main_call1.v1 (cmpf .oge),
    StableHlo.TRef.unary (.of main_cst_0 : StableHlo.TRef sig ⟨S_, .f32⟩) main_call1.v2 id,
    StableHlo.TRef.unary main_call1.v2 main_call1.v3 (broadcastInDim S100000x64 ![] bcast_S_S100000x64),
    StableHlo.TRef.binary main_call1.v3 (.of main_v8 : StableHlo.TRef sig ⟨S100000x64, .f32⟩) main_call1.v4 mulf,
    StableHlo.TRef.ternary main_call1.v1 (.of main_v8 : StableHlo.TRef sig ⟨S100000x64, .f32⟩) main_call1.v4 main_call1.call0.v0 select,
    StableHlo.nullary main_cst_1 (constant S_ .f32 0x00000000#32),
    StableHlo.unary main_cst_1 main_v10 (broadcastInDim S100000x64 ![] bcast_S_S100000x64 : (⟨S_, .f32⟩ : BufTy).Contents (Elt F) → (⟨S100000x64, .f32⟩ : BufTy).Contents (Elt F)) ]

abbrev opsRel0 : List (HloOp τ sig (Elt F)) :=
  [ StableHlo.unary main_arg1 main_v11 ((extractStridedSlice S1x1000000 ![0, 0] · slices_S3x1000000_S1x1000000_0_0) : (⟨S3x1000000, .i32⟩ : BufTy).Contents (Elt F) → (⟨S1x1000000, .i32⟩ : BufTy).Contents (Elt F)),
    StableHlo.reshape main_v11 main_v12 rfl shapeCasts_S1x1000000_S1000000,
    StableHlo.unary main_arg2 main_v13 ((extractStridedSlice S1x1000000 ![0, 0] · slices_S3x1000000_S1x1000000_0_0) : (⟨S3x1000000, .i32⟩ : BufTy).Contents (Elt F) → (⟨S1x1000000, .i32⟩ : BufTy).Contents (Elt F)),
    StableHlo.reshape main_v13 main_v14 rfl shapeCasts_S1x1000000_S1000000,
    StableHlo.nullary main_cst_2 (constant S_ .f32 0x3F800000#32),
    StableHlo.unary main_cst_2 main_v15 (broadcastInDim S1000000 ![] bcast_S_S1000000 : (⟨S_, .f32⟩ : BufTy).Contents (Elt F) → (⟨S1000000, .f32⟩ : BufTy).Contents (Elt F)),
    StableHlo.nullary main_cst_3 (constant S_ .f32 0x00000000#32),
    StableHlo.unary main_cst_3 main_v16 (broadcastInDim S100000 ![] bcast_S_S100000 : (⟨S_, .f32⟩ : BufTy).Contents (Elt F) → (⟨S100000, .f32⟩ : BufTy).Contents (Elt F)),
    StableHlo.unary main_v14 main_v17 (broadcastInDim S1000000x1 ![0] bcast_S1000000_S1000000x1_0 : (⟨S1000000, .i32⟩ : BufTy).Contents (Elt F) → (⟨S1000000x1, .i32⟩ : BufTy).Contents (Elt F)),
    StableHlo.ternary main_v16 main_v17 main_v15 main_v18 ((fun x i u => Host.scatterAdd scatter_S100000_S1000000x1_S1000000_n_0_0_1 x i u) : (⟨S100000, .f32⟩ : BufTy).Contents (Elt F) → (⟨S1000000x1, .i32⟩ : BufTy).Contents (Elt F) → (⟨S1000000, .f32⟩ : BufTy).Contents (Elt F) → (⟨S100000, .f32⟩ : BufTy).Contents (Elt F)),
    StableHlo.nullary main_cst_4 (constant S_ .f32 0x3F800000#32),
    StableHlo.unary main_cst_4 main_v19 (broadcastInDim S100000 ![] bcast_S_S100000 : (⟨S_, .f32⟩ : BufTy).Contents (Elt F) → (⟨S100000, .f32⟩ : BufTy).Contents (Elt F)),
    StableHlo.binary main_v18 main_v19 main_v20 (cmpf .olt : (⟨S100000, .f32⟩ : BufTy).Contents (Elt F) → (⟨S100000, .f32⟩ : BufTy).Contents (Elt F) → (⟨S100000, .i1⟩ : BufTy).Contents (Elt F)),
    StableHlo.nullary main_cst_5 (constant S_ .f32 0x3F800000#32),
    StableHlo.TRef.unary (.of main_cst_5 : StableHlo.TRef sig ⟨S_, .f32⟩) main_call2.v0 id,
    StableHlo.TRef.unary main_call2.v0 main_call2.v1 (broadcastInDim S100000 ![] bcast_S_S100000),
    StableHlo.TRef.ternary (.of main_v20 : StableHlo.TRef sig ⟨S100000, .i1⟩) main_call2.v1 (.of main_v18 : StableHlo.TRef sig ⟨S100000, .f32⟩) main_call2.v2 select,
    StableHlo.nullary main_cst_6 (constant S_ .f32 0xBF000000#32),
    StableHlo.unary main_cst_6 main_v22 (broadcastInDim S100000 ![] bcast_S_S100000 : (⟨S_, .f32⟩ : BufTy).Contents (Elt F) → (⟨S100000, .f32⟩ : BufTy).Contents (Elt F)),
    StableHlo.binary main_v21 main_v22 main_v23 (Host.powf : (⟨S100000, .f32⟩ : BufTy).Contents (Elt F) → (⟨S100000, .f32⟩ : BufTy).Contents (Elt F) → (⟨S100000, .f32⟩ : BufTy).Contents (Elt F)),
    StableHlo.unary main_v23 main_v24 (broadcastInDim S100000x1 ![0] bcast_S100000_S100000x1_0 : (⟨S100000, .f32⟩ : BufTy).Contents (Elt F) → (⟨S100000x1, .f32⟩ : BufTy).Contents (Elt F)),
    StableHlo.unary main_v24 main_v25 (broadcastInDim S100000x64 ![0, 1] bcast_S100000x1_S100000x64_0_1 : (⟨S100000x1, .f32⟩ : BufTy).Contents (Elt F) → (⟨S100000x64, .f32⟩ : BufTy).Contents (Elt F)),
    StableHlo.binary main_v9 main_v25 main_v26 (mulf : (⟨S100000x64, .f32⟩ : BufTy).Contents (Elt F) → (⟨S100000x64, .f32⟩ : BufTy).Contents (Elt F) → (⟨S100000x64, .f32⟩ : BufTy).Contents (Elt F)),
    StableHlo.nullary main_c (constantI S_ 32 0#32),
    StableHlo.unary main_c main_v27 (broadcastInDim S1000000 ![] bcast_S_S1000000 : (⟨S_, .i32⟩ : BufTy).Contents (Elt F) → (⟨S1000000, .i32⟩ : BufTy).Contents (Elt F)),
    StableHlo.binary main_v12 main_v27 main_v28 (cmpi .slt : (⟨S1000000, .i32⟩ : BufTy).Contents (Elt F) → (⟨S1000000, .i32⟩ : BufTy).Contents (Elt F) → (⟨S1000000, .i1⟩ : BufTy).Contents (Elt F)),
    StableHlo.nullary main_c_7 (constantI S_ 32 100000#32),
    StableHlo.unary main_c_7 main_v29 (broadcastInDim S1000000 ![] bcast_S_S1000000 : (⟨S_, .i32⟩ : BufTy).Contents (Elt F) → (⟨S1000000, .i32⟩ : BufTy).Contents (Elt F)),
    StableHlo.binary main_v12 main_v29 main_v30 (addi : (⟨S1000000, .i32⟩ : BufTy).Contents (Elt F) → (⟨S1000000, .i32⟩ : BufTy).Contents (Elt F) → (⟨S1000000, .i32⟩ : BufTy).Contents (Elt F)),
    StableHlo.ternary main_v28 main_v30 main_v12 main_v31 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v31 main_v32 (broadcastInDim S1000000x1 ![0] bcast_S1000000_S1000000x1_0 : (⟨S1000000, .i32⟩ : BufTy).Contents (Elt F) → (⟨S1000000x1, .i32⟩ : BufTy).Contents (Elt F)),
    StableHlo.binary main_v26 main_v32 main_v33 ((fun x i => Host.gather gather_S100000x64_S1000000x1_S1000000x64_1_0_n_n_0_1_164 x i) : (⟨S100000x64, .f32⟩ : BufTy).Contents (Elt F) → (⟨S1000000x1, .i32⟩ : BufTy).Contents (Elt F) → (⟨S1000000x64, .f32⟩ : BufTy).Contents (Elt F)),
    StableHlo.unary main_v23 main_v34 (broadcastInDim S100000x1 ![0] bcast_S100000_S100000x1_0 : (⟨S100000, .f32⟩ : BufTy).Contents (Elt F) → (⟨S100000x1, .f32⟩ : BufTy).Contents (Elt F)),
    StableHlo.nullary main_cst_8 (constant S_ .f32 0x00000000#32),
    StableHlo.unary main_cst_8 main_v35 (broadcastInDim S100000x64 ![] bcast_S_S100000x64 : (⟨S_, .f32⟩ : BufTy).Contents (Elt F) → (⟨S100000x64, .f32⟩ : BufTy).Contents (Elt F)),
    StableHlo.unary main_v14 main_v36 (broadcastInDim S1000000x1 ![0] bcast_S1000000_S1000000x1_0 : (⟨S1000000, .i32⟩ : BufTy).Contents (Elt F) → (⟨S1000000x1, .i32⟩ : BufTy).Contents (Elt F)),
    StableHlo.ternary main_v35 main_v36 main_v33 main_v37 ((fun x i u => Host.scatterAdd scatter_S100000x64_S1000000x1_S1000000x64_1_0_0_1 x i u) : (⟨S100000x64, .f32⟩ : BufTy).Contents (Elt F) → (⟨S1000000x1, .i32⟩ : BufTy).Contents (Elt F) → (⟨S1000000x64, .f32⟩ : BufTy).Contents (Elt F) → (⟨S100000x64, .f32⟩ : BufTy).Contents (Elt F)),
    StableHlo.unary main_v34 main_v38 (broadcastInDim S100000x64 ![0, 1] bcast_S100000x1_S100000x64_0_1 : (⟨S100000x1, .f32⟩ : BufTy).Contents (Elt F) → (⟨S100000x64, .f32⟩ : BufTy).Contents (Elt F)),
    StableHlo.binary main_v38 main_v37 main_v39 (mulf : (⟨S100000x64, .f32⟩ : BufTy).Contents (Elt F) → (⟨S100000x64, .f32⟩ : BufTy).Contents (Elt F) → (⟨S100000x64, .f32⟩ : BufTy).Contents (Elt F)),
    StableHlo.unary main_v39 main_v40 (Host.negf : (⟨S100000x64, .f32⟩ : BufTy).Contents (Elt F) → (⟨S100000x64, .f32⟩ : BufTy).Contents (Elt F)),
    StableHlo.binary main_v9 main_v40 main_v41 ((fun a b => concatenate S100000x128 1 [⟨S100000x64, a⟩, ⟨S100000x64, b⟩] concatenates_S100000x64_S100000x64_S100000x128_d1) : (⟨S100000x64, .f32⟩ : BufTy).Contents (Elt F) → (⟨S100000x64, .f32⟩ : BufTy).Contents (Elt F) → (⟨S100000x128, .f32⟩ : BufTy).Contents (Elt F)),
    StableHlo.binary main_v41 main_arg7 main_v42 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    StableHlo.unary main_arg8 main_v43 (broadcastInDim S1x64 ![1] bcast_S64_S1x64_1 : (⟨S64, .f32⟩ : BufTy).Contents (Elt F) → (⟨S1x64, .f32⟩ : BufTy).Contents (Elt F)),
    StableHlo.unary main_v43 main_v44 (broadcastInDim S100000x64 ![0, 1] bcast_S1x64_S100000x64_0_1 : (⟨S1x64, .f32⟩ : BufTy).Contents (Elt F) → (⟨S100000x64, .f32⟩ : BufTy).Contents (Elt F)),
    StableHlo.binary main_v42 main_v44 main_v45 (addf : (⟨S100000x64, .f32⟩ : BufTy).Contents (Elt F) → (⟨S100000x64, .f32⟩ : BufTy).Contents (Elt F) → (⟨S100000x64, .f32⟩ : BufTy).Contents (Elt F)),
    StableHlo.unary main_arg1 main_v46 ((extractStridedSlice S1x1000000 ![0, 0] · slices_S3x1000000_S1x1000000_0_0) : (⟨S3x1000000, .i32⟩ : BufTy).Contents (Elt F) → (⟨S1x1000000, .i32⟩ : BufTy).Contents (Elt F)),
    StableHlo.reshape main_v46 main_v47 rfl shapeCasts_S1x1000000_S1000000,
    StableHlo.unary main_arg2 main_v48 ((extractStridedSlice S1x1000000 ![0, 0] · slices_S3x1000000_S1x1000000_0_0) : (⟨S3x1000000, .i32⟩ : BufTy).Contents (Elt F) → (⟨S1x1000000, .i32⟩ : BufTy).Contents (Elt F)),
    StableHlo.reshape main_v48 main_v49 rfl shapeCasts_S1x1000000_S1000000,
    StableHlo.nullary main_cst_9 (constant S_ .f32 0x3F800000#32),
    StableHlo.unary main_cst_9 main_v50 (broadcastInDim S1000000 ![] bcast_S_S1000000 : (⟨S_, .f32⟩ : BufTy).Contents (Elt F) → (⟨S1000000, .f32⟩ : BufTy).Contents (Elt F)),
    StableHlo.nullary main_cst_10 (constant S_ .f32 0x00000000#32),
    StableHlo.unary main_cst_10 main_v51 (broadcastInDim S100000 ![] bcast_S_S100000 : (⟨S_, .f32⟩ : BufTy).Contents (Elt F) → (⟨S100000, .f32⟩ : BufTy).Contents (Elt F)),
    StableHlo.unary main_v49 main_v52 (broadcastInDim S1000000x1 ![0] bcast_S1000000_S1000000x1_0 : (⟨S1000000, .i32⟩ : BufTy).Contents (Elt F) → (⟨S1000000x1, .i32⟩ : BufTy).Contents (Elt F)),
    StableHlo.ternary main_v51 main_v52 main_v50 main_v53 ((fun x i u => Host.scatterAdd scatter_S100000_S1000000x1_S1000000_n_0_0_1 x i u) : (⟨S100000, .f32⟩ : BufTy).Contents (Elt F) → (⟨S1000000x1, .i32⟩ : BufTy).Contents (Elt F) → (⟨S1000000, .f32⟩ : BufTy).Contents (Elt F) → (⟨S100000, .f32⟩ : BufTy).Contents (Elt F)),
    StableHlo.nullary main_cst_11 (constant S_ .f32 0x3F800000#32),
    StableHlo.unary main_cst_11 main_v54 (broadcastInDim S100000 ![] bcast_S_S100000 : (⟨S_, .f32⟩ : BufTy).Contents (Elt F) → (⟨S100000, .f32⟩ : BufTy).Contents (Elt F)),
    StableHlo.binary main_v53 main_v54 main_v55 (cmpf .olt : (⟨S100000, .f32⟩ : BufTy).Contents (Elt F) → (⟨S100000, .f32⟩ : BufTy).Contents (Elt F) → (⟨S100000, .i1⟩ : BufTy).Contents (Elt F)),
    StableHlo.nullary main_cst_12 (constant S_ .f32 0x3F800000#32),
    StableHlo.TRef.unary (.of main_cst_12 : StableHlo.TRef sig ⟨S_, .f32⟩) main_call3.v0 id,
    StableHlo.TRef.unary main_call3.v0 main_call3.v1 (broadcastInDim S100000 ![] bcast_S_S100000),
    StableHlo.TRef.ternary (.of main_v55 : StableHlo.TRef sig ⟨S100000, .i1⟩) main_call3.v1 (.of main_v53 : StableHlo.TRef sig ⟨S100000, .f32⟩) main_call3.v2 select,
    StableHlo.nullary main_cst_13 (constant S_ .f32 0xBF000000#32),
    StableHlo.unary main_cst_13 main_v57 (broadcastInDim S100000 ![] bcast_S_S100000 : (⟨S_, .f32⟩ : BufTy).Contents (Elt F) → (⟨S100000, .f32⟩ : BufTy).Contents (Elt F)),
    StableHlo.binary main_v56 main_v57 main_v58 (Host.powf : (⟨S100000, .f32⟩ : BufTy).Contents (Elt F) → (⟨S100000, .f32⟩ : BufTy).Contents (Elt F) → (⟨S100000, .f32⟩ : BufTy).Contents (Elt F)),
    StableHlo.unary main_v58 main_v59 (broadcastInDim S100000x1 ![0] bcast_S100000_S100000x1_0 : (⟨S100000, .f32⟩ : BufTy).Contents (Elt F) → (⟨S100000x1, .f32⟩ : BufTy).Contents (Elt F)),
    StableHlo.unary main_v59 main_v60 (broadcastInDim S100000x64 ![0, 1] bcast_S100000x1_S100000x64_0_1 : (⟨S100000x1, .f32⟩ : BufTy).Contents (Elt F) → (⟨S100000x64, .f32⟩ : BufTy).Contents (Elt F)),
    StableHlo.binary main_v45 main_v60 main_v61 (mulf : (⟨S100000x64, .f32⟩ : BufTy).Contents (Elt F) → (⟨S100000x64, .f32⟩ : BufTy).Contents (Elt F) → (⟨S100000x64, .f32⟩ : BufTy).Contents (Elt F)),
    StableHlo.nullary main_c_14 (constantI S_ 32 0#32),
    StableHlo.unary main_c_14 main_v62 (broadcastInDim S1000000 ![] bcast_S_S1000000 : (⟨S_, .i32⟩ : BufTy).Contents (Elt F) → (⟨S1000000, .i32⟩ : BufTy).Contents (Elt F)),
    StableHlo.binary main_v47 main_v62 main_v63 (cmpi .slt : (⟨S1000000, .i32⟩ : BufTy).Contents (Elt F) → (⟨S1000000, .i32⟩ : BufTy).Contents (Elt F) → (⟨S1000000, .i1⟩ : BufTy).Contents (Elt F)),
    StableHlo.nullary main_c_15 (constantI S_ 32 100000#32),
    StableHlo.unary main_c_15 main_v64 (broadcastInDim S1000000 ![] bcast_S_S1000000 : (⟨S_, .i32⟩ : BufTy).Contents (Elt F) → (⟨S1000000, .i32⟩ : BufTy).Contents (Elt F)),
    StableHlo.binary main_v47 main_v64 main_v65 (addi : (⟨S1000000, .i32⟩ : BufTy).Contents (Elt F) → (⟨S1000000, .i32⟩ : BufTy).Contents (Elt F) → (⟨S1000000, .i32⟩ : BufTy).Contents (Elt F)),
    StableHlo.ternary main_v63 main_v65 main_v47 main_v66 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v66 main_v67 (broadcastInDim S1000000x1 ![0] bcast_S1000000_S1000000x1_0 : (⟨S1000000, .i32⟩ : BufTy).Contents (Elt F) → (⟨S1000000x1, .i32⟩ : BufTy).Contents (Elt F)),
    StableHlo.binary main_v61 main_v67 main_v68 ((fun x i => Host.gather gather_S100000x64_S1000000x1_S1000000x64_1_0_n_n_0_1_164 x i) : (⟨S100000x64, .f32⟩ : BufTy).Contents (Elt F) → (⟨S1000000x1, .i32⟩ : BufTy).Contents (Elt F) → (⟨S1000000x64, .f32⟩ : BufTy).Contents (Elt F)),
    StableHlo.unary main_v58 main_v69 (broadcastInDim S100000x1 ![0] bcast_S100000_S100000x1_0 : (⟨S100000, .f32⟩ : BufTy).Contents (Elt F) → (⟨S100000x1, .f32⟩ : BufTy).Contents (Elt F)),
    StableHlo.nullary main_cst_16 (constant S_ .f32 0x00000000#32),
    StableHlo.unary main_cst_16 main_v70 (broadcastInDim S100000x64 ![] bcast_S_S100000x64 : (⟨S_, .f32⟩ : BufTy).Contents (Elt F) → (⟨S100000x64, .f32⟩ : BufTy).Contents (Elt F)),
    StableHlo.unary main_v49 main_v71 (broadcastInDim S1000000x1 ![0] bcast_S1000000_S1000000x1_0 : (⟨S1000000, .i32⟩ : BufTy).Contents (Elt F) → (⟨S1000000x1, .i32⟩ : BufTy).Contents (Elt F)),
    StableHlo.ternary main_v70 main_v71 main_v68 main_v72 ((fun x i u => Host.scatterAdd scatter_S100000x64_S1000000x1_S1000000x64_1_0_0_1 x i u) : (⟨S100000x64, .f32⟩ : BufTy).Contents (Elt F) → (⟨S1000000x1, .i32⟩ : BufTy).Contents (Elt F) → (⟨S1000000x64, .f32⟩ : BufTy).Contents (Elt F) → (⟨S100000x64, .f32⟩ : BufTy).Contents (Elt F)),
    StableHlo.unary main_v69 main_v73 (broadcastInDim S100000x64 ![0, 1] bcast_S100000x1_S100000x64_0_1 : (⟨S100000x1, .f32⟩ : BufTy).Contents (Elt F) → (⟨S100000x64, .f32⟩ : BufTy).Contents (Elt F)),
    StableHlo.binary main_v73 main_v72 main_v74 (mulf : (⟨S100000x64, .f32⟩ : BufTy).Contents (Elt F) → (⟨S100000x64, .f32⟩ : BufTy).Contents (Elt F) → (⟨S100000x64, .f32⟩ : BufTy).Contents (Elt F)),
    StableHlo.unary main_v74 main_v75 (Host.negf : (⟨S100000x64, .f32⟩ : BufTy).Contents (Elt F) → (⟨S100000x64, .f32⟩ : BufTy).Contents (Elt F)),
    StableHlo.binary main_v45 main_v75 main_v76 ((fun a b => concatenate S100000x128 1 [⟨S100000x64, a⟩, ⟨S100000x64, b⟩] concatenates_S100000x64_S100000x64_S100000x128_d1) : (⟨S100000x64, .f32⟩ : BufTy).Contents (Elt F) → (⟨S100000x64, .f32⟩ : BufTy).Contents (Elt F) → (⟨S100000x128, .f32⟩ : BufTy).Contents (Elt F)),
    StableHlo.binary main_v76 main_arg9 main_v77 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    StableHlo.unary main_arg10 main_v78 (broadcastInDim S1x64 ![1] bcast_S64_S1x64_1 : (⟨S64, .f32⟩ : BufTy).Contents (Elt F) → (⟨S1x64, .f32⟩ : BufTy).Contents (Elt F)),
    StableHlo.unary main_v78 main_v79 (broadcastInDim S100000x64 ![0, 1] bcast_S1x64_S100000x64_0_1 : (⟨S1x64, .f32⟩ : BufTy).Contents (Elt F) → (⟨S100000x64, .f32⟩ : BufTy).Contents (Elt F)),
    StableHlo.binary main_v77 main_v79 main_v80 (addf : (⟨S100000x64, .f32⟩ : BufTy).Contents (Elt F) → (⟨S100000x64, .f32⟩ : BufTy).Contents (Elt F) → (⟨S100000x64, .f32⟩ : BufTy).Contents (Elt F)),
    StableHlo.binary main_v45 main_v80 main_v81 ((fun a b => concatenate S100000x128 1 [⟨S100000x64, a⟩, ⟨S100000x64, b⟩] concatenates_S100000x64_S100000x64_S100000x128_d1) : (⟨S100000x64, .f32⟩ : BufTy).Contents (Elt F) → (⟨S100000x64, .f32⟩ : BufTy).Contents (Elt F) → (⟨S100000x128, .f32⟩ : BufTy).Contents (Elt F)),
    StableHlo.binary main_v81 main_arg11 main_v82 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    StableHlo.unary main_arg12 main_v83 (broadcastInDim S1x64 ![1] bcast_S64_S1x64_1 : (⟨S64, .f32⟩ : BufTy).Contents (Elt F) → (⟨S1x64, .f32⟩ : BufTy).Contents (Elt F)),
    StableHlo.unary main_v83 main_v84 (broadcastInDim S100000x64 ![0, 1] bcast_S1x64_S100000x64_0_1 : (⟨S1x64, .f32⟩ : BufTy).Contents (Elt F) → (⟨S100000x64, .f32⟩ : BufTy).Contents (Elt F)),
    StableHlo.binary main_v82 main_v84 main_v85 (addf : (⟨S100000x64, .f32⟩ : BufTy).Contents (Elt F) → (⟨S100000x64, .f32⟩ : BufTy).Contents (Elt F) → (⟨S100000x64, .f32⟩ : BufTy).Contents (Elt F)),
    StableHlo.binary main_v10 main_v85 main_v86 (addf : (⟨S100000x64, .f32⟩ : BufTy).Contents (Elt F) → (⟨S100000x64, .f32⟩ : BufTy).Contents (Elt F) → (⟨S100000x64, .f32⟩ : BufTy).Contents (Elt F)) ]

abbrev opsRel1 : List (HloOp τ sig (Elt F)) :=
  [ StableHlo.unary main_arg1 main_v87 ((extractStridedSlice S1x1000000 ![1, 0] · slices_S3x1000000_S1x1000000_1_0) : (⟨S3x1000000, .i32⟩ : BufTy).Contents (Elt F) → (⟨S1x1000000, .i32⟩ : BufTy).Contents (Elt F)),
    StableHlo.reshape main_v87 main_v88 rfl shapeCasts_S1x1000000_S1000000,
    StableHlo.unary main_arg2 main_v89 ((extractStridedSlice S1x1000000 ![1, 0] · slices_S3x1000000_S1x1000000_1_0) : (⟨S3x1000000, .i32⟩ : BufTy).Contents (Elt F) → (⟨S1x1000000, .i32⟩ : BufTy).Contents (Elt F)),
    StableHlo.reshape main_v89 main_v90 rfl shapeCasts_S1x1000000_S1000000,
    StableHlo.nullary main_cst_17 (constant S_ .f32 0x3F800000#32),
    StableHlo.unary main_cst_17 main_v91 (broadcastInDim S1000000 ![] bcast_S_S1000000 : (⟨S_, .f32⟩ : BufTy).Contents (Elt F) → (⟨S1000000, .f32⟩ : BufTy).Contents (Elt F)),
    StableHlo.nullary main_cst_18 (constant S_ .f32 0x00000000#32),
    StableHlo.unary main_cst_18 main_v92 (broadcastInDim S100000 ![] bcast_S_S100000 : (⟨S_, .f32⟩ : BufTy).Contents (Elt F) → (⟨S100000, .f32⟩ : BufTy).Contents (Elt F)),
    StableHlo.unary main_v90 main_v93 (broadcastInDim S1000000x1 ![0] bcast_S1000000_S1000000x1_0 : (⟨S1000000, .i32⟩ : BufTy).Contents (Elt F) → (⟨S1000000x1, .i32⟩ : BufTy).Contents (Elt F)),
    StableHlo.ternary main_v92 main_v93 main_v91 main_v94 ((fun x i u => Host.scatterAdd scatter_S100000_S1000000x1_S1000000_n_0_0_1 x i u) : (⟨S100000, .f32⟩ : BufTy).Contents (Elt F) → (⟨S1000000x1, .i32⟩ : BufTy).Contents (Elt F) → (⟨S1000000, .f32⟩ : BufTy).Contents (Elt F) → (⟨S100000, .f32⟩ : BufTy).Contents (Elt F)),
    StableHlo.nullary main_cst_19 (constant S_ .f32 0x3F800000#32),
    StableHlo.unary main_cst_19 main_v95 (broadcastInDim S100000 ![] bcast_S_S100000 : (⟨S_, .f32⟩ : BufTy).Contents (Elt F) → (⟨S100000, .f32⟩ : BufTy).Contents (Elt F)),
    StableHlo.binary main_v94 main_v95 main_v96 (cmpf .olt : (⟨S100000, .f32⟩ : BufTy).Contents (Elt F) → (⟨S100000, .f32⟩ : BufTy).Contents (Elt F) → (⟨S100000, .i1⟩ : BufTy).Contents (Elt F)),
    StableHlo.nullary main_cst_20 (constant S_ .f32 0x3F800000#32),
    StableHlo.TRef.unary (.of main_cst_20 : StableHlo.TRef sig ⟨S_, .f32⟩) main_call4.v0 id,
    StableHlo.TRef.unary main_call4.v0 main_call4.v1 (broadcastInDim S100000 ![] bcast_S_S100000),
    StableHlo.TRef.ternary (.of main_v96 : StableHlo.TRef sig ⟨S100000, .i1⟩) main_call4.v1 (.of main_v94 : StableHlo.TRef sig ⟨S100000, .f32⟩) main_call4.v2 select,
    StableHlo.nullary main_cst_21 (constant S_ .f32 0xBF000000#32),
    StableHlo.unary main_cst_21 main_v98 (broadcastInDim S100000 ![] bcast_S_S100000 : (⟨S_, .f32⟩ : BufTy).Contents (Elt F) → (⟨S100000, .f32⟩ : BufTy).Contents (Elt F)),
    StableHlo.binary main_v97 main_v98 main_v99 (Host.powf : (⟨S100000, .f32⟩ : BufTy).Contents (Elt F) → (⟨S100000, .f32⟩ : BufTy).Contents (Elt F) → (⟨S100000, .f32⟩ : BufTy).Contents (Elt F)),
    StableHlo.unary main_v99 main_v100 (broadcastInDim S100000x1 ![0] bcast_S100000_S100000x1_0 : (⟨S100000, .f32⟩ : BufTy).Contents (Elt F) → (⟨S100000x1, .f32⟩ : BufTy).Contents (Elt F)),
    StableHlo.unary main_v100 main_v101 (broadcastInDim S100000x64 ![0, 1] bcast_S100000x1_S100000x64_0_1 : (⟨S100000x1, .f32⟩ : BufTy).Contents (Elt F) → (⟨S100000x64, .f32⟩ : BufTy).Contents (Elt F)),
    StableHlo.binary main_v85 main_v101 main_v102 (mulf : (⟨S100000x64, .f32⟩ : BufTy).Contents (Elt F) → (⟨S100000x64, .f32⟩ : BufTy).Contents (Elt F) → (⟨S100000x64, .f32⟩ : BufTy).Contents (Elt F)),
    StableHlo.nullary main_c_22 (constantI S_ 32 0#32),
    StableHlo.unary main_c_22 main_v103 (broadcastInDim S1000000 ![] bcast_S_S1000000 : (⟨S_, .i32⟩ : BufTy).Contents (Elt F) → (⟨S1000000, .i32⟩ : BufTy).Contents (Elt F)),
    StableHlo.binary main_v88 main_v103 main_v104 (cmpi .slt : (⟨S1000000, .i32⟩ : BufTy).Contents (Elt F) → (⟨S1000000, .i32⟩ : BufTy).Contents (Elt F) → (⟨S1000000, .i1⟩ : BufTy).Contents (Elt F)),
    StableHlo.nullary main_c_23 (constantI S_ 32 100000#32),
    StableHlo.unary main_c_23 main_v105 (broadcastInDim S1000000 ![] bcast_S_S1000000 : (⟨S_, .i32⟩ : BufTy).Contents (Elt F) → (⟨S1000000, .i32⟩ : BufTy).Contents (Elt F)),
    StableHlo.binary main_v88 main_v105 main_v106 (addi : (⟨S1000000, .i32⟩ : BufTy).Contents (Elt F) → (⟨S1000000, .i32⟩ : BufTy).Contents (Elt F) → (⟨S1000000, .i32⟩ : BufTy).Contents (Elt F)),
    StableHlo.ternary main_v104 main_v106 main_v88 main_v107 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v107 main_v108 (broadcastInDim S1000000x1 ![0] bcast_S1000000_S1000000x1_0 : (⟨S1000000, .i32⟩ : BufTy).Contents (Elt F) → (⟨S1000000x1, .i32⟩ : BufTy).Contents (Elt F)),
    StableHlo.binary main_v102 main_v108 main_v109 ((fun x i => Host.gather gather_S100000x64_S1000000x1_S1000000x64_1_0_n_n_0_1_164 x i) : (⟨S100000x64, .f32⟩ : BufTy).Contents (Elt F) → (⟨S1000000x1, .i32⟩ : BufTy).Contents (Elt F) → (⟨S1000000x64, .f32⟩ : BufTy).Contents (Elt F)),
    StableHlo.unary main_v99 main_v110 (broadcastInDim S100000x1 ![0] bcast_S100000_S100000x1_0 : (⟨S100000, .f32⟩ : BufTy).Contents (Elt F) → (⟨S100000x1, .f32⟩ : BufTy).Contents (Elt F)),
    StableHlo.nullary main_cst_24 (constant S_ .f32 0x00000000#32),
    StableHlo.unary main_cst_24 main_v111 (broadcastInDim S100000x64 ![] bcast_S_S100000x64 : (⟨S_, .f32⟩ : BufTy).Contents (Elt F) → (⟨S100000x64, .f32⟩ : BufTy).Contents (Elt F)),
    StableHlo.unary main_v90 main_v112 (broadcastInDim S1000000x1 ![0] bcast_S1000000_S1000000x1_0 : (⟨S1000000, .i32⟩ : BufTy).Contents (Elt F) → (⟨S1000000x1, .i32⟩ : BufTy).Contents (Elt F)),
    StableHlo.ternary main_v111 main_v112 main_v109 main_v113 ((fun x i u => Host.scatterAdd scatter_S100000x64_S1000000x1_S1000000x64_1_0_0_1 x i u) : (⟨S100000x64, .f32⟩ : BufTy).Contents (Elt F) → (⟨S1000000x1, .i32⟩ : BufTy).Contents (Elt F) → (⟨S1000000x64, .f32⟩ : BufTy).Contents (Elt F) → (⟨S100000x64, .f32⟩ : BufTy).Contents (Elt F)),
    StableHlo.unary main_v110 main_v114 (broadcastInDim S100000x64 ![0, 1] bcast_S100000x1_S100000x64_0_1 : (⟨S100000x1, .f32⟩ : BufTy).Contents (Elt F) → (⟨S100000x64, .f32⟩ : BufTy).Contents (Elt F)),
    StableHlo.binary main_v114 main_v113 main_v115 (mulf : (⟨S100000x64, .f32⟩ : BufTy).Contents (Elt F) → (⟨S100000x64, .f32⟩ : BufTy).Contents (Elt F) → (⟨S100000x64, .f32⟩ : BufTy).Contents (Elt F)),
    StableHlo.unary main_v115 main_v116 (Host.negf : (⟨S100000x64, .f32⟩ : BufTy).Contents (Elt F) → (⟨S100000x64, .f32⟩ : BufTy).Contents (Elt F)),
    StableHlo.binary main_v85 main_v116 main_v117 ((fun a b => concatenate S100000x128 1 [⟨S100000x64, a⟩, ⟨S100000x64, b⟩] concatenates_S100000x64_S100000x64_S100000x128_d1) : (⟨S100000x64, .f32⟩ : BufTy).Contents (Elt F) → (⟨S100000x64, .f32⟩ : BufTy).Contents (Elt F) → (⟨S100000x128, .f32⟩ : BufTy).Contents (Elt F)),
    StableHlo.binary main_v117 main_arg7 main_v118 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    StableHlo.unary main_arg8 main_v119 (broadcastInDim S1x64 ![1] bcast_S64_S1x64_1 : (⟨S64, .f32⟩ : BufTy).Contents (Elt F) → (⟨S1x64, .f32⟩ : BufTy).Contents (Elt F)),
    StableHlo.unary main_v119 main_v120 (broadcastInDim S100000x64 ![0, 1] bcast_S1x64_S100000x64_0_1 : (⟨S1x64, .f32⟩ : BufTy).Contents (Elt F) → (⟨S100000x64, .f32⟩ : BufTy).Contents (Elt F)),
    StableHlo.binary main_v118 main_v120 main_v121 (addf : (⟨S100000x64, .f32⟩ : BufTy).Contents (Elt F) → (⟨S100000x64, .f32⟩ : BufTy).Contents (Elt F) → (⟨S100000x64, .f32⟩ : BufTy).Contents (Elt F)),
    StableHlo.unary main_arg1 main_v122 ((extractStridedSlice S1x1000000 ![1, 0] · slices_S3x1000000_S1x1000000_1_0) : (⟨S3x1000000, .i32⟩ : BufTy).Contents (Elt F) → (⟨S1x1000000, .i32⟩ : BufTy).Contents (Elt F)),
    StableHlo.reshape main_v122 main_v123 rfl shapeCasts_S1x1000000_S1000000,
    StableHlo.unary main_arg2 main_v124 ((extractStridedSlice S1x1000000 ![1, 0] · slices_S3x1000000_S1x1000000_1_0) : (⟨S3x1000000, .i32⟩ : BufTy).Contents (Elt F) → (⟨S1x1000000, .i32⟩ : BufTy).Contents (Elt F)),
    StableHlo.reshape main_v124 main_v125 rfl shapeCasts_S1x1000000_S1000000,
    StableHlo.nullary main_cst_25 (constant S_ .f32 0x3F800000#32),
    StableHlo.unary main_cst_25 main_v126 (broadcastInDim S1000000 ![] bcast_S_S1000000 : (⟨S_, .f32⟩ : BufTy).Contents (Elt F) → (⟨S1000000, .f32⟩ : BufTy).Contents (Elt F)),
    StableHlo.nullary main_cst_26 (constant S_ .f32 0x00000000#32),
    StableHlo.unary main_cst_26 main_v127 (broadcastInDim S100000 ![] bcast_S_S100000 : (⟨S_, .f32⟩ : BufTy).Contents (Elt F) → (⟨S100000, .f32⟩ : BufTy).Contents (Elt F)),
    StableHlo.unary main_v125 main_v128 (broadcastInDim S1000000x1 ![0] bcast_S1000000_S1000000x1_0 : (⟨S1000000, .i32⟩ : BufTy).Contents (Elt F) → (⟨S1000000x1, .i32⟩ : BufTy).Contents (Elt F)),
    StableHlo.ternary main_v127 main_v128 main_v126 main_v129 ((fun x i u => Host.scatterAdd scatter_S100000_S1000000x1_S1000000_n_0_0_1 x i u) : (⟨S100000, .f32⟩ : BufTy).Contents (Elt F) → (⟨S1000000x1, .i32⟩ : BufTy).Contents (Elt F) → (⟨S1000000, .f32⟩ : BufTy).Contents (Elt F) → (⟨S100000, .f32⟩ : BufTy).Contents (Elt F)),
    StableHlo.nullary main_cst_27 (constant S_ .f32 0x3F800000#32),
    StableHlo.unary main_cst_27 main_v130 (broadcastInDim S100000 ![] bcast_S_S100000 : (⟨S_, .f32⟩ : BufTy).Contents (Elt F) → (⟨S100000, .f32⟩ : BufTy).Contents (Elt F)),
    StableHlo.binary main_v129 main_v130 main_v131 (cmpf .olt : (⟨S100000, .f32⟩ : BufTy).Contents (Elt F) → (⟨S100000, .f32⟩ : BufTy).Contents (Elt F) → (⟨S100000, .i1⟩ : BufTy).Contents (Elt F)),
    StableHlo.nullary main_cst_28 (constant S_ .f32 0x3F800000#32),
    StableHlo.TRef.unary (.of main_cst_28 : StableHlo.TRef sig ⟨S_, .f32⟩) main_call5.v0 id,
    StableHlo.TRef.unary main_call5.v0 main_call5.v1 (broadcastInDim S100000 ![] bcast_S_S100000),
    StableHlo.TRef.ternary (.of main_v131 : StableHlo.TRef sig ⟨S100000, .i1⟩) main_call5.v1 (.of main_v129 : StableHlo.TRef sig ⟨S100000, .f32⟩) main_call5.v2 select,
    StableHlo.nullary main_cst_29 (constant S_ .f32 0xBF000000#32),
    StableHlo.unary main_cst_29 main_v133 (broadcastInDim S100000 ![] bcast_S_S100000 : (⟨S_, .f32⟩ : BufTy).Contents (Elt F) → (⟨S100000, .f32⟩ : BufTy).Contents (Elt F)),
    StableHlo.binary main_v132 main_v133 main_v134 (Host.powf : (⟨S100000, .f32⟩ : BufTy).Contents (Elt F) → (⟨S100000, .f32⟩ : BufTy).Contents (Elt F) → (⟨S100000, .f32⟩ : BufTy).Contents (Elt F)),
    StableHlo.unary main_v134 main_v135 (broadcastInDim S100000x1 ![0] bcast_S100000_S100000x1_0 : (⟨S100000, .f32⟩ : BufTy).Contents (Elt F) → (⟨S100000x1, .f32⟩ : BufTy).Contents (Elt F)),
    StableHlo.unary main_v135 main_v136 (broadcastInDim S100000x64 ![0, 1] bcast_S100000x1_S100000x64_0_1 : (⟨S100000x1, .f32⟩ : BufTy).Contents (Elt F) → (⟨S100000x64, .f32⟩ : BufTy).Contents (Elt F)),
    StableHlo.binary main_v121 main_v136 main_v137 (mulf : (⟨S100000x64, .f32⟩ : BufTy).Contents (Elt F) → (⟨S100000x64, .f32⟩ : BufTy).Contents (Elt F) → (⟨S100000x64, .f32⟩ : BufTy).Contents (Elt F)),
    StableHlo.nullary main_c_30 (constantI S_ 32 0#32),
    StableHlo.unary main_c_30 main_v138 (broadcastInDim S1000000 ![] bcast_S_S1000000 : (⟨S_, .i32⟩ : BufTy).Contents (Elt F) → (⟨S1000000, .i32⟩ : BufTy).Contents (Elt F)),
    StableHlo.binary main_v123 main_v138 main_v139 (cmpi .slt : (⟨S1000000, .i32⟩ : BufTy).Contents (Elt F) → (⟨S1000000, .i32⟩ : BufTy).Contents (Elt F) → (⟨S1000000, .i1⟩ : BufTy).Contents (Elt F)),
    StableHlo.nullary main_c_31 (constantI S_ 32 100000#32),
    StableHlo.unary main_c_31 main_v140 (broadcastInDim S1000000 ![] bcast_S_S1000000 : (⟨S_, .i32⟩ : BufTy).Contents (Elt F) → (⟨S1000000, .i32⟩ : BufTy).Contents (Elt F)),
    StableHlo.binary main_v123 main_v140 main_v141 (addi : (⟨S1000000, .i32⟩ : BufTy).Contents (Elt F) → (⟨S1000000, .i32⟩ : BufTy).Contents (Elt F) → (⟨S1000000, .i32⟩ : BufTy).Contents (Elt F)),
    StableHlo.ternary main_v139 main_v141 main_v123 main_v142 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v142 main_v143 (broadcastInDim S1000000x1 ![0] bcast_S1000000_S1000000x1_0 : (⟨S1000000, .i32⟩ : BufTy).Contents (Elt F) → (⟨S1000000x1, .i32⟩ : BufTy).Contents (Elt F)),
    StableHlo.binary main_v137 main_v143 main_v144 ((fun x i => Host.gather gather_S100000x64_S1000000x1_S1000000x64_1_0_n_n_0_1_164 x i) : (⟨S100000x64, .f32⟩ : BufTy).Contents (Elt F) → (⟨S1000000x1, .i32⟩ : BufTy).Contents (Elt F) → (⟨S1000000x64, .f32⟩ : BufTy).Contents (Elt F)),
    StableHlo.unary main_v134 main_v145 (broadcastInDim S100000x1 ![0] bcast_S100000_S100000x1_0 : (⟨S100000, .f32⟩ : BufTy).Contents (Elt F) → (⟨S100000x1, .f32⟩ : BufTy).Contents (Elt F)),
    StableHlo.nullary main_cst_32 (constant S_ .f32 0x00000000#32),
    StableHlo.unary main_cst_32 main_v146 (broadcastInDim S100000x64 ![] bcast_S_S100000x64 : (⟨S_, .f32⟩ : BufTy).Contents (Elt F) → (⟨S100000x64, .f32⟩ : BufTy).Contents (Elt F)),
    StableHlo.unary main_v125 main_v147 (broadcastInDim S1000000x1 ![0] bcast_S1000000_S1000000x1_0 : (⟨S1000000, .i32⟩ : BufTy).Contents (Elt F) → (⟨S1000000x1, .i32⟩ : BufTy).Contents (Elt F)),
    StableHlo.ternary main_v146 main_v147 main_v144 main_v148 ((fun x i u => Host.scatterAdd scatter_S100000x64_S1000000x1_S1000000x64_1_0_0_1 x i u) : (⟨S100000x64, .f32⟩ : BufTy).Contents (Elt F) → (⟨S1000000x1, .i32⟩ : BufTy).Contents (Elt F) → (⟨S1000000x64, .f32⟩ : BufTy).Contents (Elt F) → (⟨S100000x64, .f32⟩ : BufTy).Contents (Elt F)),
    StableHlo.unary main_v145 main_v149 (broadcastInDim S100000x64 ![0, 1] bcast_S100000x1_S100000x64_0_1 : (⟨S100000x1, .f32⟩ : BufTy).Contents (Elt F) → (⟨S100000x64, .f32⟩ : BufTy).Contents (Elt F)),
    StableHlo.binary main_v149 main_v148 main_v150 (mulf : (⟨S100000x64, .f32⟩ : BufTy).Contents (Elt F) → (⟨S100000x64, .f32⟩ : BufTy).Contents (Elt F) → (⟨S100000x64, .f32⟩ : BufTy).Contents (Elt F)),
    StableHlo.unary main_v150 main_v151 (Host.negf : (⟨S100000x64, .f32⟩ : BufTy).Contents (Elt F) → (⟨S100000x64, .f32⟩ : BufTy).Contents (Elt F)),
    StableHlo.binary main_v121 main_v151 main_v152 ((fun a b => concatenate S100000x128 1 [⟨S100000x64, a⟩, ⟨S100000x64, b⟩] concatenates_S100000x64_S100000x64_S100000x128_d1) : (⟨S100000x64, .f32⟩ : BufTy).Contents (Elt F) → (⟨S100000x64, .f32⟩ : BufTy).Contents (Elt F) → (⟨S100000x128, .f32⟩ : BufTy).Contents (Elt F)),
    StableHlo.binary main_v152 main_arg9 main_v153 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    StableHlo.unary main_arg10 main_v154 (broadcastInDim S1x64 ![1] bcast_S64_S1x64_1 : (⟨S64, .f32⟩ : BufTy).Contents (Elt F) → (⟨S1x64, .f32⟩ : BufTy).Contents (Elt F)),
    StableHlo.unary main_v154 main_v155 (broadcastInDim S100000x64 ![0, 1] bcast_S1x64_S100000x64_0_1 : (⟨S1x64, .f32⟩ : BufTy).Contents (Elt F) → (⟨S100000x64, .f32⟩ : BufTy).Contents (Elt F)),
    StableHlo.binary main_v153 main_v155 main_v156 (addf : (⟨S100000x64, .f32⟩ : BufTy).Contents (Elt F) → (⟨S100000x64, .f32⟩ : BufTy).Contents (Elt F) → (⟨S100000x64, .f32⟩ : BufTy).Contents (Elt F)),
    StableHlo.binary main_v121 main_v156 main_v157 ((fun a b => concatenate S100000x128 1 [⟨S100000x64, a⟩, ⟨S100000x64, b⟩] concatenates_S100000x64_S100000x64_S100000x128_d1) : (⟨S100000x64, .f32⟩ : BufTy).Contents (Elt F) → (⟨S100000x64, .f32⟩ : BufTy).Contents (Elt F) → (⟨S100000x128, .f32⟩ : BufTy).Contents (Elt F)),
    StableHlo.binary main_v157 main_arg11 main_v158 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    StableHlo.unary main_arg12 main_v159 (broadcastInDim S1x64 ![1] bcast_S64_S1x64_1 : (⟨S64, .f32⟩ : BufTy).Contents (Elt F) → (⟨S1x64, .f32⟩ : BufTy).Contents (Elt F)),
    StableHlo.unary main_v159 main_v160 (broadcastInDim S100000x64 ![0, 1] bcast_S1x64_S100000x64_0_1 : (⟨S1x64, .f32⟩ : BufTy).Contents (Elt F) → (⟨S100000x64, .f32⟩ : BufTy).Contents (Elt F)),
    StableHlo.binary main_v158 main_v160 main_v161 (addf : (⟨S100000x64, .f32⟩ : BufTy).Contents (Elt F) → (⟨S100000x64, .f32⟩ : BufTy).Contents (Elt F) → (⟨S100000x64, .f32⟩ : BufTy).Contents (Elt F)),
    StableHlo.binary main_v86 main_v161 main_v162 (addf : (⟨S100000x64, .f32⟩ : BufTy).Contents (Elt F) → (⟨S100000x64, .f32⟩ : BufTy).Contents (Elt F) → (⟨S100000x64, .f32⟩ : BufTy).Contents (Elt F)) ]

abbrev opsRel2 : List (HloOp τ sig (Elt F)) :=
  [ StableHlo.unary main_arg1 main_v163 ((extractStridedSlice S1x1000000 ![2, 0] · slices_S3x1000000_S1x1000000_2_0) : (⟨S3x1000000, .i32⟩ : BufTy).Contents (Elt F) → (⟨S1x1000000, .i32⟩ : BufTy).Contents (Elt F)),
    StableHlo.reshape main_v163 main_v164 rfl shapeCasts_S1x1000000_S1000000,
    StableHlo.unary main_arg2 main_v165 ((extractStridedSlice S1x1000000 ![2, 0] · slices_S3x1000000_S1x1000000_2_0) : (⟨S3x1000000, .i32⟩ : BufTy).Contents (Elt F) → (⟨S1x1000000, .i32⟩ : BufTy).Contents (Elt F)),
    StableHlo.reshape main_v165 main_v166 rfl shapeCasts_S1x1000000_S1000000,
    StableHlo.nullary main_cst_33 (constant S_ .f32 0x3F800000#32),
    StableHlo.unary main_cst_33 main_v167 (broadcastInDim S1000000 ![] bcast_S_S1000000 : (⟨S_, .f32⟩ : BufTy).Contents (Elt F) → (⟨S1000000, .f32⟩ : BufTy).Contents (Elt F)),
    StableHlo.nullary main_cst_34 (constant S_ .f32 0x00000000#32),
    StableHlo.unary main_cst_34 main_v168 (broadcastInDim S100000 ![] bcast_S_S100000 : (⟨S_, .f32⟩ : BufTy).Contents (Elt F) → (⟨S100000, .f32⟩ : BufTy).Contents (Elt F)),
    StableHlo.unary main_v166 main_v169 (broadcastInDim S1000000x1 ![0] bcast_S1000000_S1000000x1_0 : (⟨S1000000, .i32⟩ : BufTy).Contents (Elt F) → (⟨S1000000x1, .i32⟩ : BufTy).Contents (Elt F)),
    StableHlo.ternary main_v168 main_v169 main_v167 main_v170 ((fun x i u => Host.scatterAdd scatter_S100000_S1000000x1_S1000000_n_0_0_1 x i u) : (⟨S100000, .f32⟩ : BufTy).Contents (Elt F) → (⟨S1000000x1, .i32⟩ : BufTy).Contents (Elt F) → (⟨S1000000, .f32⟩ : BufTy).Contents (Elt F) → (⟨S100000, .f32⟩ : BufTy).Contents (Elt F)),
    StableHlo.nullary main_cst_35 (constant S_ .f32 0x3F800000#32),
    StableHlo.unary main_cst_35 main_v171 (broadcastInDim S100000 ![] bcast_S_S100000 : (⟨S_, .f32⟩ : BufTy).Contents (Elt F) → (⟨S100000, .f32⟩ : BufTy).Contents (Elt F)),
    StableHlo.binary main_v170 main_v171 main_v172 (cmpf .olt : (⟨S100000, .f32⟩ : BufTy).Contents (Elt F) → (⟨S100000, .f32⟩ : BufTy).Contents (Elt F) → (⟨S100000, .i1⟩ : BufTy).Contents (Elt F)),
    StableHlo.nullary main_cst_36 (constant S_ .f32 0x3F800000#32),
    StableHlo.TRef.unary (.of main_cst_36 : StableHlo.TRef sig ⟨S_, .f32⟩) main_call6.v0 id,
    StableHlo.TRef.unary main_call6.v0 main_call6.v1 (broadcastInDim S100000 ![] bcast_S_S100000),
    StableHlo.TRef.ternary (.of main_v172 : StableHlo.TRef sig ⟨S100000, .i1⟩) main_call6.v1 (.of main_v170 : StableHlo.TRef sig ⟨S100000, .f32⟩) main_call6.v2 select,
    StableHlo.nullary main_cst_37 (constant S_ .f32 0xBF000000#32),
    StableHlo.unary main_cst_37 main_v174 (broadcastInDim S100000 ![] bcast_S_S100000 : (⟨S_, .f32⟩ : BufTy).Contents (Elt F) → (⟨S100000, .f32⟩ : BufTy).Contents (Elt F)),
    StableHlo.binary main_v173 main_v174 main_v175 (Host.powf : (⟨S100000, .f32⟩ : BufTy).Contents (Elt F) → (⟨S100000, .f32⟩ : BufTy).Contents (Elt F) → (⟨S100000, .f32⟩ : BufTy).Contents (Elt F)),
    StableHlo.unary main_v175 main_v176 (broadcastInDim S100000x1 ![0] bcast_S100000_S100000x1_0 : (⟨S100000, .f32⟩ : BufTy).Contents (Elt F) → (⟨S100000x1, .f32⟩ : BufTy).Contents (Elt F)),
    StableHlo.unary main_v176 main_v177 (broadcastInDim S100000x64 ![0, 1] bcast_S100000x1_S100000x64_0_1 : (⟨S100000x1, .f32⟩ : BufTy).Contents (Elt F) → (⟨S100000x64, .f32⟩ : BufTy).Contents (Elt F)),
    StableHlo.binary main_v161 main_v177 main_v178 (mulf : (⟨S100000x64, .f32⟩ : BufTy).Contents (Elt F) → (⟨S100000x64, .f32⟩ : BufTy).Contents (Elt F) → (⟨S100000x64, .f32⟩ : BufTy).Contents (Elt F)),
    StableHlo.nullary main_c_38 (constantI S_ 32 0#32),
    StableHlo.unary main_c_38 main_v179 (broadcastInDim S1000000 ![] bcast_S_S1000000 : (⟨S_, .i32⟩ : BufTy).Contents (Elt F) → (⟨S1000000, .i32⟩ : BufTy).Contents (Elt F)),
    StableHlo.binary main_v164 main_v179 main_v180 (cmpi .slt : (⟨S1000000, .i32⟩ : BufTy).Contents (Elt F) → (⟨S1000000, .i32⟩ : BufTy).Contents (Elt F) → (⟨S1000000, .i1⟩ : BufTy).Contents (Elt F)),
    StableHlo.nullary main_c_39 (constantI S_ 32 100000#32),
    StableHlo.unary main_c_39 main_v181 (broadcastInDim S1000000 ![] bcast_S_S1000000 : (⟨S_, .i32⟩ : BufTy).Contents (Elt F) → (⟨S1000000, .i32⟩ : BufTy).Contents (Elt F)),
    StableHlo.binary main_v164 main_v181 main_v182 (addi : (⟨S1000000, .i32⟩ : BufTy).Contents (Elt F) → (⟨S1000000, .i32⟩ : BufTy).Contents (Elt F) → (⟨S1000000, .i32⟩ : BufTy).Contents (Elt F)),
    StableHlo.ternary main_v180 main_v182 main_v164 main_v183 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v183 main_v184 (broadcastInDim S1000000x1 ![0] bcast_S1000000_S1000000x1_0 : (⟨S1000000, .i32⟩ : BufTy).Contents (Elt F) → (⟨S1000000x1, .i32⟩ : BufTy).Contents (Elt F)),
    StableHlo.binary main_v178 main_v184 main_v185 ((fun x i => Host.gather gather_S100000x64_S1000000x1_S1000000x64_1_0_n_n_0_1_164 x i) : (⟨S100000x64, .f32⟩ : BufTy).Contents (Elt F) → (⟨S1000000x1, .i32⟩ : BufTy).Contents (Elt F) → (⟨S1000000x64, .f32⟩ : BufTy).Contents (Elt F)),
    StableHlo.unary main_v175 main_v186 (broadcastInDim S100000x1 ![0] bcast_S100000_S100000x1_0 : (⟨S100000, .f32⟩ : BufTy).Contents (Elt F) → (⟨S100000x1, .f32⟩ : BufTy).Contents (Elt F)),
    StableHlo.nullary main_cst_40 (constant S_ .f32 0x00000000#32),
    StableHlo.unary main_cst_40 main_v187 (broadcastInDim S100000x64 ![] bcast_S_S100000x64 : (⟨S_, .f32⟩ : BufTy).Contents (Elt F) → (⟨S100000x64, .f32⟩ : BufTy).Contents (Elt F)),
    StableHlo.unary main_v166 main_v188 (broadcastInDim S1000000x1 ![0] bcast_S1000000_S1000000x1_0 : (⟨S1000000, .i32⟩ : BufTy).Contents (Elt F) → (⟨S1000000x1, .i32⟩ : BufTy).Contents (Elt F)),
    StableHlo.ternary main_v187 main_v188 main_v185 main_v189 ((fun x i u => Host.scatterAdd scatter_S100000x64_S1000000x1_S1000000x64_1_0_0_1 x i u) : (⟨S100000x64, .f32⟩ : BufTy).Contents (Elt F) → (⟨S1000000x1, .i32⟩ : BufTy).Contents (Elt F) → (⟨S1000000x64, .f32⟩ : BufTy).Contents (Elt F) → (⟨S100000x64, .f32⟩ : BufTy).Contents (Elt F)),
    StableHlo.unary main_v186 main_v190 (broadcastInDim S100000x64 ![0, 1] bcast_S100000x1_S100000x64_0_1 : (⟨S100000x1, .f32⟩ : BufTy).Contents (Elt F) → (⟨S100000x64, .f32⟩ : BufTy).Contents (Elt F)),
    StableHlo.binary main_v190 main_v189 main_v191 (mulf : (⟨S100000x64, .f32⟩ : BufTy).Contents (Elt F) → (⟨S100000x64, .f32⟩ : BufTy).Contents (Elt F) → (⟨S100000x64, .f32⟩ : BufTy).Contents (Elt F)),
    StableHlo.unary main_v191 main_v192 (Host.negf : (⟨S100000x64, .f32⟩ : BufTy).Contents (Elt F) → (⟨S100000x64, .f32⟩ : BufTy).Contents (Elt F)),
    StableHlo.binary main_v161 main_v192 main_v193 ((fun a b => concatenate S100000x128 1 [⟨S100000x64, a⟩, ⟨S100000x64, b⟩] concatenates_S100000x64_S100000x64_S100000x128_d1) : (⟨S100000x64, .f32⟩ : BufTy).Contents (Elt F) → (⟨S100000x64, .f32⟩ : BufTy).Contents (Elt F) → (⟨S100000x128, .f32⟩ : BufTy).Contents (Elt F)),
    StableHlo.binary main_v193 main_arg7 main_v194 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    StableHlo.unary main_arg8 main_v195 (broadcastInDim S1x64 ![1] bcast_S64_S1x64_1 : (⟨S64, .f32⟩ : BufTy).Contents (Elt F) → (⟨S1x64, .f32⟩ : BufTy).Contents (Elt F)),
    StableHlo.unary main_v195 main_v196 (broadcastInDim S100000x64 ![0, 1] bcast_S1x64_S100000x64_0_1 : (⟨S1x64, .f32⟩ : BufTy).Contents (Elt F) → (⟨S100000x64, .f32⟩ : BufTy).Contents (Elt F)),
    StableHlo.binary main_v194 main_v196 main_v197 (addf : (⟨S100000x64, .f32⟩ : BufTy).Contents (Elt F) → (⟨S100000x64, .f32⟩ : BufTy).Contents (Elt F) → (⟨S100000x64, .f32⟩ : BufTy).Contents (Elt F)),
    StableHlo.unary main_arg1 main_v198 ((extractStridedSlice S1x1000000 ![2, 0] · slices_S3x1000000_S1x1000000_2_0) : (⟨S3x1000000, .i32⟩ : BufTy).Contents (Elt F) → (⟨S1x1000000, .i32⟩ : BufTy).Contents (Elt F)),
    StableHlo.reshape main_v198 main_v199 rfl shapeCasts_S1x1000000_S1000000,
    StableHlo.unary main_arg2 main_v200 ((extractStridedSlice S1x1000000 ![2, 0] · slices_S3x1000000_S1x1000000_2_0) : (⟨S3x1000000, .i32⟩ : BufTy).Contents (Elt F) → (⟨S1x1000000, .i32⟩ : BufTy).Contents (Elt F)),
    StableHlo.reshape main_v200 main_v201 rfl shapeCasts_S1x1000000_S1000000,
    StableHlo.nullary main_cst_41 (constant S_ .f32 0x3F800000#32),
    StableHlo.unary main_cst_41 main_v202 (broadcastInDim S1000000 ![] bcast_S_S1000000 : (⟨S_, .f32⟩ : BufTy).Contents (Elt F) → (⟨S1000000, .f32⟩ : BufTy).Contents (Elt F)),
    StableHlo.nullary main_cst_42 (constant S_ .f32 0x00000000#32),
    StableHlo.unary main_cst_42 main_v203 (broadcastInDim S100000 ![] bcast_S_S100000 : (⟨S_, .f32⟩ : BufTy).Contents (Elt F) → (⟨S100000, .f32⟩ : BufTy).Contents (Elt F)),
    StableHlo.unary main_v201 main_v204 (broadcastInDim S1000000x1 ![0] bcast_S1000000_S1000000x1_0 : (⟨S1000000, .i32⟩ : BufTy).Contents (Elt F) → (⟨S1000000x1, .i32⟩ : BufTy).Contents (Elt F)),
    StableHlo.ternary main_v203 main_v204 main_v202 main_v205 ((fun x i u => Host.scatterAdd scatter_S100000_S1000000x1_S1000000_n_0_0_1 x i u) : (⟨S100000, .f32⟩ : BufTy).Contents (Elt F) → (⟨S1000000x1, .i32⟩ : BufTy).Contents (Elt F) → (⟨S1000000, .f32⟩ : BufTy).Contents (Elt F) → (⟨S100000, .f32⟩ : BufTy).Contents (Elt F)),
    StableHlo.nullary main_cst_43 (constant S_ .f32 0x3F800000#32),
    StableHlo.unary main_cst_43 main_v206 (broadcastInDim S100000 ![] bcast_S_S100000 : (⟨S_, .f32⟩ : BufTy).Contents (Elt F) → (⟨S100000, .f32⟩ : BufTy).Contents (Elt F)),
    StableHlo.binary main_v205 main_v206 main_v207 (cmpf .olt : (⟨S100000, .f32⟩ : BufTy).Contents (Elt F) → (⟨S100000, .f32⟩ : BufTy).Contents (Elt F) → (⟨S100000, .i1⟩ : BufTy).Contents (Elt F)),
    StableHlo.nullary main_cst_44 (constant S_ .f32 0x3F800000#32),
    StableHlo.TRef.unary (.of main_cst_44 : StableHlo.TRef sig ⟨S_, .f32⟩) main_call7.v0 id,
    StableHlo.TRef.unary main_call7.v0 main_call7.v1 (broadcastInDim S100000 ![] bcast_S_S100000),
    StableHlo.TRef.ternary (.of main_v207 : StableHlo.TRef sig ⟨S100000, .i1⟩) main_call7.v1 (.of main_v205 : StableHlo.TRef sig ⟨S100000, .f32⟩) main_call7.v2 select,
    StableHlo.nullary main_cst_45 (constant S_ .f32 0xBF000000#32),
    StableHlo.unary main_cst_45 main_v209 (broadcastInDim S100000 ![] bcast_S_S100000 : (⟨S_, .f32⟩ : BufTy).Contents (Elt F) → (⟨S100000, .f32⟩ : BufTy).Contents (Elt F)),
    StableHlo.binary main_v208 main_v209 main_v210 (Host.powf : (⟨S100000, .f32⟩ : BufTy).Contents (Elt F) → (⟨S100000, .f32⟩ : BufTy).Contents (Elt F) → (⟨S100000, .f32⟩ : BufTy).Contents (Elt F)),
    StableHlo.unary main_v210 main_v211 (broadcastInDim S100000x1 ![0] bcast_S100000_S100000x1_0 : (⟨S100000, .f32⟩ : BufTy).Contents (Elt F) → (⟨S100000x1, .f32⟩ : BufTy).Contents (Elt F)),
    StableHlo.unary main_v211 main_v212 (broadcastInDim S100000x64 ![0, 1] bcast_S100000x1_S100000x64_0_1 : (⟨S100000x1, .f32⟩ : BufTy).Contents (Elt F) → (⟨S100000x64, .f32⟩ : BufTy).Contents (Elt F)),
    StableHlo.binary main_v197 main_v212 main_v213 (mulf : (⟨S100000x64, .f32⟩ : BufTy).Contents (Elt F) → (⟨S100000x64, .f32⟩ : BufTy).Contents (Elt F) → (⟨S100000x64, .f32⟩ : BufTy).Contents (Elt F)),
    StableHlo.nullary main_c_46 (constantI S_ 32 0#32),
    StableHlo.unary main_c_46 main_v214 (broadcastInDim S1000000 ![] bcast_S_S1000000 : (⟨S_, .i32⟩ : BufTy).Contents (Elt F) → (⟨S1000000, .i32⟩ : BufTy).Contents (Elt F)),
    StableHlo.binary main_v199 main_v214 main_v215 (cmpi .slt : (⟨S1000000, .i32⟩ : BufTy).Contents (Elt F) → (⟨S1000000, .i32⟩ : BufTy).Contents (Elt F) → (⟨S1000000, .i1⟩ : BufTy).Contents (Elt F)),
    StableHlo.nullary main_c_47 (constantI S_ 32 100000#32),
    StableHlo.unary main_c_47 main_v216 (broadcastInDim S1000000 ![] bcast_S_S1000000 : (⟨S_, .i32⟩ : BufTy).Contents (Elt F) → (⟨S1000000, .i32⟩ : BufTy).Contents (Elt F)),
    StableHlo.binary main_v199 main_v216 main_v217 (addi : (⟨S1000000, .i32⟩ : BufTy).Contents (Elt F) → (⟨S1000000, .i32⟩ : BufTy).Contents (Elt F) → (⟨S1000000, .i32⟩ : BufTy).Contents (Elt F)),
    StableHlo.ternary main_v215 main_v217 main_v199 main_v218 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v218 main_v219 (broadcastInDim S1000000x1 ![0] bcast_S1000000_S1000000x1_0 : (⟨S1000000, .i32⟩ : BufTy).Contents (Elt F) → (⟨S1000000x1, .i32⟩ : BufTy).Contents (Elt F)),
    StableHlo.binary main_v213 main_v219 main_v220 ((fun x i => Host.gather gather_S100000x64_S1000000x1_S1000000x64_1_0_n_n_0_1_164 x i) : (⟨S100000x64, .f32⟩ : BufTy).Contents (Elt F) → (⟨S1000000x1, .i32⟩ : BufTy).Contents (Elt F) → (⟨S1000000x64, .f32⟩ : BufTy).Contents (Elt F)),
    StableHlo.unary main_v210 main_v221 (broadcastInDim S100000x1 ![0] bcast_S100000_S100000x1_0 : (⟨S100000, .f32⟩ : BufTy).Contents (Elt F) → (⟨S100000x1, .f32⟩ : BufTy).Contents (Elt F)),
    StableHlo.nullary main_cst_48 (constant S_ .f32 0x00000000#32),
    StableHlo.unary main_cst_48 main_v222 (broadcastInDim S100000x64 ![] bcast_S_S100000x64 : (⟨S_, .f32⟩ : BufTy).Contents (Elt F) → (⟨S100000x64, .f32⟩ : BufTy).Contents (Elt F)),
    StableHlo.unary main_v201 main_v223 (broadcastInDim S1000000x1 ![0] bcast_S1000000_S1000000x1_0 : (⟨S1000000, .i32⟩ : BufTy).Contents (Elt F) → (⟨S1000000x1, .i32⟩ : BufTy).Contents (Elt F)),
    StableHlo.ternary main_v222 main_v223 main_v220 main_v224 ((fun x i u => Host.scatterAdd scatter_S100000x64_S1000000x1_S1000000x64_1_0_0_1 x i u) : (⟨S100000x64, .f32⟩ : BufTy).Contents (Elt F) → (⟨S1000000x1, .i32⟩ : BufTy).Contents (Elt F) → (⟨S1000000x64, .f32⟩ : BufTy).Contents (Elt F) → (⟨S100000x64, .f32⟩ : BufTy).Contents (Elt F)),
    StableHlo.unary main_v221 main_v225 (broadcastInDim S100000x64 ![0, 1] bcast_S100000x1_S100000x64_0_1 : (⟨S100000x1, .f32⟩ : BufTy).Contents (Elt F) → (⟨S100000x64, .f32⟩ : BufTy).Contents (Elt F)),
    StableHlo.binary main_v225 main_v224 main_v226 (mulf : (⟨S100000x64, .f32⟩ : BufTy).Contents (Elt F) → (⟨S100000x64, .f32⟩ : BufTy).Contents (Elt F) → (⟨S100000x64, .f32⟩ : BufTy).Contents (Elt F)),
    StableHlo.unary main_v226 main_v227 (Host.negf : (⟨S100000x64, .f32⟩ : BufTy).Contents (Elt F) → (⟨S100000x64, .f32⟩ : BufTy).Contents (Elt F)),
    StableHlo.binary main_v197 main_v227 main_v228 ((fun a b => concatenate S100000x128 1 [⟨S100000x64, a⟩, ⟨S100000x64, b⟩] concatenates_S100000x64_S100000x64_S100000x128_d1) : (⟨S100000x64, .f32⟩ : BufTy).Contents (Elt F) → (⟨S100000x64, .f32⟩ : BufTy).Contents (Elt F) → (⟨S100000x128, .f32⟩ : BufTy).Contents (Elt F)),
    StableHlo.binary main_v228 main_arg9 main_v229 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    StableHlo.unary main_arg10 main_v230 (broadcastInDim S1x64 ![1] bcast_S64_S1x64_1 : (⟨S64, .f32⟩ : BufTy).Contents (Elt F) → (⟨S1x64, .f32⟩ : BufTy).Contents (Elt F)),
    StableHlo.unary main_v230 main_v231 (broadcastInDim S100000x64 ![0, 1] bcast_S1x64_S100000x64_0_1 : (⟨S1x64, .f32⟩ : BufTy).Contents (Elt F) → (⟨S100000x64, .f32⟩ : BufTy).Contents (Elt F)),
    StableHlo.binary main_v229 main_v231 main_v232 (addf : (⟨S100000x64, .f32⟩ : BufTy).Contents (Elt F) → (⟨S100000x64, .f32⟩ : BufTy).Contents (Elt F) → (⟨S100000x64, .f32⟩ : BufTy).Contents (Elt F)),
    StableHlo.binary main_v197 main_v232 main_v233 ((fun a b => concatenate S100000x128 1 [⟨S100000x64, a⟩, ⟨S100000x64, b⟩] concatenates_S100000x64_S100000x64_S100000x128_d1) : (⟨S100000x64, .f32⟩ : BufTy).Contents (Elt F) → (⟨S100000x64, .f32⟩ : BufTy).Contents (Elt F) → (⟨S100000x128, .f32⟩ : BufTy).Contents (Elt F)),
    StableHlo.binary main_v233 main_arg11 main_v234 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    StableHlo.unary main_arg12 main_v235 (broadcastInDim S1x64 ![1] bcast_S64_S1x64_1 : (⟨S64, .f32⟩ : BufTy).Contents (Elt F) → (⟨S1x64, .f32⟩ : BufTy).Contents (Elt F)),
    StableHlo.unary main_v235 main_v236 (broadcastInDim S100000x64 ![0, 1] bcast_S1x64_S100000x64_0_1 : (⟨S1x64, .f32⟩ : BufTy).Contents (Elt F) → (⟨S100000x64, .f32⟩ : BufTy).Contents (Elt F)),
    StableHlo.binary main_v234 main_v236 main_v237 (addf : (⟨S100000x64, .f32⟩ : BufTy).Contents (Elt F) → (⟨S100000x64, .f32⟩ : BufTy).Contents (Elt F) → (⟨S100000x64, .f32⟩ : BufTy).Contents (Elt F)),
    StableHlo.binary main_v162 main_v237 main_v238 (addf : (⟨S100000x64, .f32⟩ : BufTy).Contents (Elt F) → (⟨S100000x64, .f32⟩ : BufTy).Contents (Elt F) → (⟨S100000x64, .f32⟩ : BufTy).Contents (Elt F)) ]

abbrev opsPost : List (HloOp τ sig (Elt F)) :=
  [ StableHlo.nullary main_cst_49 (constant S_ .f32 0x3C23D70A#32),
    StableHlo.TRef.nullary main_call8.cst (constant S_ .f32 0x00000000#32),
    StableHlo.TRef.unary main_call8.cst main_call8.v0 (broadcastInDim S100000x64 ![] bcast_S_S100000x64),
    StableHlo.TRef.binary (.of main_v238 : StableHlo.TRef sig ⟨S100000x64, .f32⟩) main_call8.v0 main_call8.v1 (cmpf .oge),
    StableHlo.TRef.unary (.of main_cst_49 : StableHlo.TRef sig ⟨S_, .f32⟩) main_call8.v2 id,
    StableHlo.TRef.unary main_call8.v2 main_call8.v3 (broadcastInDim S100000x64 ![] bcast_S_S100000x64),
    StableHlo.TRef.binary main_call8.v3 (.of main_v238 : StableHlo.TRef sig ⟨S100000x64, .f32⟩) main_call8.v4 mulf,
    StableHlo.TRef.ternary main_call8.v1 (.of main_v238 : StableHlo.TRef sig ⟨S100000x64, .f32⟩) main_call8.v4 main_call8.call0.v0 select,
    StableHlo.binary main_v239 main_arg13 main_v240 ((fun l r => Host.dotGeneral dot_S100000x64_S64x2_S100000x2_1_0_0_1_n_n none l r) : (⟨S100000x64, .f32⟩ : BufTy).Contents (Elt F) → (⟨S64x2, .f32⟩ : BufTy).Contents (Elt F) → (⟨S100000x2, .f32⟩ : BufTy).Contents (Elt F)),
    StableHlo.unary main_arg14 main_v241 (broadcastInDim S1x2 ![1] bcast_S2_S1x2_1 : (⟨S2, .f32⟩ : BufTy).Contents (Elt F) → (⟨S1x2, .f32⟩ : BufTy).Contents (Elt F)),
    StableHlo.unary main_v241 main_v242 (broadcastInDim S100000x2 ![0, 1] bcast_S1x2_S100000x2_0_1 : (⟨S1x2, .f32⟩ : BufTy).Contents (Elt F) → (⟨S100000x2, .f32⟩ : BufTy).Contents (Elt F)),
    StableHlo.binary main_v240 main_v242 main_v243 (addf : (⟨S100000x2, .f32⟩ : BufTy).Contents (Elt F) → (⟨S100000x2, .f32⟩ : BufTy).Contents (Elt F) → (⟨S100000x2, .f32⟩ : BufTy).Contents (Elt F)) ]

abbrev ops : List (HloOp τ sig (Elt F)) := opsPre ++ opsRel0 ++ opsRel1 ++ opsRel2 ++ opsPost

/-- Each part of @main is the line of the next stretch of `ops`. -/
theorem main_parts_eq (c : Dev nD) :
    main_part0 (F := F) c = seq (ops.take 74) ∧
    main_part1 (F := F) c = seq ((ops.drop 74).take 62) ∧
    main_part2 (F := F) c = seq (((ops.drop 74).drop 62).take 64) ∧
    main_part3 (F := F) c = seq ((((ops.drop 74).drop 62).drop 64).take 62) ∧
    main_part4 (F := F) c = seq ((((ops.drop 74).drop 62).drop 64).drop 62) := by
  refine ⟨?_, ?_, ?_, ?_, ?_⟩ <;>
    (simp only [main_part0, main_part1, main_part2, main_part3, main_part4, fn_where.body, fn_leaky_relu.body, fn_where_0.body, bind_assoc, pure_bind]; rfl)

theorem main_eq (c : Dev nD) : main (F := F) c = seq ops := by
  obtain ⟨h0, h1, h2, h3, h4⟩ := main_parts_eq (F := F) c
  rw [main, h0, h1, h2, h3, h4]
  simp only [← seq_append, List.take_append_drop]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig := by
  simp only [ops, List.forall_append]
  repeat' apply And.intro
  all_goals simp only [List.Forall, nullary_bufs_sub, unary_bufs_sub, binary_bufs_sub, ternary_bufs_sub, reshape_bufs_sub]

theorem ops_fresh : ∀ op ∈ (ops : List (HloOp τ sig (Elt F))), op.fresh = ∅ := by
  refine List.forall_iff_forall_mem.mp ?_
  simp only [ops, List.forall_append]
  repeat' apply And.intro
  all_goals rfl

/-- An operation whose one written buffer is listed in `W` writes within `W`. -/
theorem writes_sub {op : HloOp τ sig (Elt F)} {y : Ref sig .tc} {W : List (Ref sig .tc)}
    (e : op.writes = {Proc.devRef .tc y}) (h : y ∈ W) : op.writes ⊆ (W.map (Proc.devRef (τ := τ) .tc)).toFinset := by
  rw [e, Finset.singleton_subset_iff, List.mem_toFinset]; exact List.mem_map_of_mem h

abbrev opsPre_W : List (Ref sig .tc) :=
  [main_v0, main_v1, main_v2, main_v3, main_cst, main_call0_cst, main_call0_v0, main_call0_v1, main_call0_v2, main_call0_v3, main_call0_v4, main_v4,
    main_v5, main_v6, main_v7, main_v8, main_cst_0, main_call1_cst, main_call1_v0, main_call1_v1, main_call1_v2, main_call1_v3, main_call1_v4, main_v9,
    main_cst_1, main_v10]
theorem opsPre_writes : (opsPre : List (HloOp τ sig (Elt F))).Forall fun op => op.writes ⊆ (opsPre_W.map (Proc.devRef (τ := τ) .tc)).toFinset := by
  repeat' apply And.intro
  all_goals exact writes_sub rfl (by decide)
theorem opsPre_keep (V : Valuation τ sig (Elt F)) (r : Ref sig .tc) (h : r ∉ opsPre_W) :
    after opsPre V (Proc.devRef .tc r) = V (Proc.devRef .tc r) :=
  after_of_writes_sub opsPre V opsPre_writes h

abbrev opsRel0_W : List (Ref sig .tc) :=
  [main_v11, main_v12, main_v13, main_v14, main_cst_2, main_v15, main_cst_3, main_v16, main_v17, main_v18, main_cst_4, main_v19,
    main_v20, main_cst_5, main_call2_v0, main_call2_v1, main_v21, main_cst_6, main_v22, main_v23, main_v24, main_v25, main_v26, main_c,
    main_v27, main_v28, main_c_7, main_v29, main_v30, main_v31, main_v32, main_v33, main_v34, main_cst_8, main_v35, main_v36,
    main_v37, main_v38, main_v39, main_v40, main_v41, main_v42, main_v43, main_v44, main_v45, main_v46, main_v47, main_v48,
    main_v49, main_cst_9, main_v50, main_cst_10, main_v51, main_v52, main_v53, main_cst_11, main_v54, main_v55, main_cst_12, main_call3_v0,
    main_call3_v1, main_v56, main_cst_13, main_v57, main_v58, main_v59, main_v60, main_v61, main_c_14, main_v62, main_v63, main_c_15,
    main_v64, main_v65, main_v66, main_v67, main_v68, main_v69, main_cst_16, main_v70, main_v71, main_v72, main_v73, main_v74,
    main_v75, main_v76, main_v77, main_v78, main_v79, main_v80, main_v81, main_v82, main_v83, main_v84, main_v85, main_v86]
theorem opsRel0_writes : (opsRel0 : List (HloOp τ sig (Elt F))).Forall fun op => op.writes ⊆ (opsRel0_W.map (Proc.devRef (τ := τ) .tc)).toFinset := by
  repeat' apply And.intro
  all_goals exact writes_sub rfl (by decide)
theorem opsRel0_keep (V : Valuation τ sig (Elt F)) (r : Ref sig .tc) (h : r ∉ opsRel0_W) :
    after opsRel0 V (Proc.devRef .tc r) = V (Proc.devRef .tc r) :=
  after_of_writes_sub opsRel0 V opsRel0_writes h

abbrev opsRel1_W : List (Ref sig .tc) :=
  [main_v87, main_v88, main_v89, main_v90, main_cst_17, main_v91, main_cst_18, main_v92, main_v93, main_v94, main_cst_19, main_v95,
    main_v96, main_cst_20, main_call4_v0, main_call4_v1, main_v97, main_cst_21, main_v98, main_v99, main_v100, main_v101, main_v102, main_c_22,
    main_v103, main_v104, main_c_23, main_v105, main_v106, main_v107, main_v108, main_v109, main_v110, main_cst_24, main_v111, main_v112,
    main_v113, main_v114, main_v115, main_v116, main_v117, main_v118, main_v119, main_v120, main_v121, main_v122, main_v123, main_v124,
    main_v125, main_cst_25, main_v126, main_cst_26, main_v127, main_v128, main_v129, main_cst_27, main_v130, main_v131, main_cst_28, main_call5_v0,
    main_call5_v1, main_v132, main_cst_29, main_v133, main_v134, main_v135, main_v136, main_v137, main_c_30, main_v138, main_v139, main_c_31,
    main_v140, main_v141, main_v142, main_v143, main_v144, main_v145, main_cst_32, main_v146, main_v147, main_v148, main_v149, main_v150,
    main_v151, main_v152, main_v153, main_v154, main_v155, main_v156, main_v157, main_v158, main_v159, main_v160, main_v161, main_v162]
theorem opsRel1_writes : (opsRel1 : List (HloOp τ sig (Elt F))).Forall fun op => op.writes ⊆ (opsRel1_W.map (Proc.devRef (τ := τ) .tc)).toFinset := by
  repeat' apply And.intro
  all_goals exact writes_sub rfl (by decide)
theorem opsRel1_keep (V : Valuation τ sig (Elt F)) (r : Ref sig .tc) (h : r ∉ opsRel1_W) :
    after opsRel1 V (Proc.devRef .tc r) = V (Proc.devRef .tc r) :=
  after_of_writes_sub opsRel1 V opsRel1_writes h

abbrev opsRel2_W : List (Ref sig .tc) :=
  [main_v163, main_v164, main_v165, main_v166, main_cst_33, main_v167, main_cst_34, main_v168, main_v169, main_v170, main_cst_35, main_v171,
    main_v172, main_cst_36, main_call6_v0, main_call6_v1, main_v173, main_cst_37, main_v174, main_v175, main_v176, main_v177, main_v178, main_c_38,
    main_v179, main_v180, main_c_39, main_v181, main_v182, main_v183, main_v184, main_v185, main_v186, main_cst_40, main_v187, main_v188,
    main_v189, main_v190, main_v191, main_v192, main_v193, main_v194, main_v195, main_v196, main_v197, main_v198, main_v199, main_v200,
    main_v201, main_cst_41, main_v202, main_cst_42, main_v203, main_v204, main_v205, main_cst_43, main_v206, main_v207, main_cst_44, main_call7_v0,
    main_call7_v1, main_v208, main_cst_45, main_v209, main_v210, main_v211, main_v212, main_v213, main_c_46, main_v214, main_v215, main_c_47,
    main_v216, main_v217, main_v218, main_v219, main_v220, main_v221, main_cst_48, main_v222, main_v223, main_v224, main_v225, main_v226,
    main_v227, main_v228, main_v229, main_v230, main_v231, main_v232, main_v233, main_v234, main_v235, main_v236, main_v237, main_v238]
theorem opsRel2_writes : (opsRel2 : List (HloOp τ sig (Elt F))).Forall fun op => op.writes ⊆ (opsRel2_W.map (Proc.devRef (τ := τ) .tc)).toFinset := by
  repeat' apply And.intro
  all_goals exact writes_sub rfl (by decide)
theorem opsRel2_keep (V : Valuation τ sig (Elt F)) (r : Ref sig .tc) (h : r ∉ opsRel2_W) :
    after opsRel2 V (Proc.devRef .tc r) = V (Proc.devRef .tc r) :=
  after_of_writes_sub opsRel2 V opsRel2_writes h

abbrev opsPost_W : List (Ref sig .tc) :=
  [main_cst_49, main_call8_cst, main_call8_v0, main_call8_v1, main_call8_v2, main_call8_v3, main_call8_v4, main_v239, main_v240, main_v241, main_v242, main_v243]
theorem opsPost_writes : (opsPost : List (HloOp τ sig (Elt F))).Forall fun op => op.writes ⊆ (opsPost_W.map (Proc.devRef (τ := τ) .tc)).toFinset := by
  repeat' apply And.intro
  all_goals exact writes_sub rfl (by decide)
theorem opsPost_keep (V : Valuation τ sig (Elt F)) (r : Ref sig .tc) (h : r ∉ opsPost_W) :
    after opsPost V (Proc.devRef .tc r) = V (Proc.devRef .tc r) :=
  after_of_writes_sub opsPost V opsPost_writes h

theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

theorem after_append' (l₁ l₂ : List (HloOp τ sig (Elt F))) (V : Valuation τ sig (Elt F)) : after (l₁ ++ l₂) V = after l₂ (after l₁ V) := by
  induction l₁ generalizing V with
  | nil => rfl
  | cons op l ih => exact ih (op.result V)

theorem after_ops (V : Valuation τ sig (Elt F)) :
    after ops V = after opsPost (after opsRel2 (after opsRel1 (after opsRel0 (after opsPre V)))) := by
  simp only [ops, after_append']

end Cert.ReferenceIdeal.Val

end
-- ==== Proof.RefFrame.lean ====
import proofs.«116818_j36043365548320_1_alg».proof.Proof.RefOps
import proofs.«116818_j36043365548320_1_alg».proof.Proof.Gen.Pre_finite_inputs
import proofs.«116818_j36043365548320_1_alg».proof.Defs

noncomputable section

namespace Cert.ReferenceIdeal.Val

open Cert.ReferenceIdeal Cert.ReferenceIdeal.Gen Idealize.ShloMosaic Idealize.ShloMosaic.TcCoe Idealize.SL.Sem Idealize.ShloMosaic.StableHlo

variable {F : FTy → Type} [FloatOps F]

theorem ops_keep (V : Valuation τ sig (Elt F)) (r : Ref sig .tc) (hPre : r ∉ opsPre_W) (h0 : r ∉ opsRel0_W)
    (h1 : r ∉ opsRel1_W) (h2 : r ∉ opsRel2_W) (hPost : r ∉ opsPost_W) :
    after ops V (Proc.devRef .tc r) = V (Proc.devRef .tc r) := by
  rw [after_ops, opsPost_keep _ r hPost, opsRel2_keep _ r h2, opsRel1_keep _ r h1, opsRel0_keep _ r h0,
    opsPre_keep _ r hPre]

abbrev args : List (Ref sig .tc) :=
  [main_arg0, main_arg1, main_arg2, main_arg3, main_arg4, main_arg5, main_arg6, main_arg7, main_arg8, main_arg9,
    main_arg10, main_arg11, main_arg12, main_arg13, main_arg14]

theorem args_not_written : ∀ r ∈ args,
    r ∉ opsPre_W ∧ r ∉ opsRel0_W ∧ r ∉ opsRel1_W ∧ r ∉ opsRel2_W ∧ r ∉ opsPost_W := by
  decide

-- No operation writes an argument: every operation's result buffer is an intermediate value's.
theorem arg_kept (V : Valuation τ sig (Elt F)) (r : Ref sig .tc) (hr : r ∈ args) :
    after ops V (Proc.devRef .tc r) = V (Proc.devRef .tc r) :=
  have h := args_not_written r hr
  ops_keep V r h.1 h.2.1 h.2.2.1 h.2.2.2.1 h.2.2.2.2

theorem frame : Cert.frame_ReferenceIdeal (hReferenceIdeal := Cert.ReferenceIdeal.Gen.facts)
    (hPre_finite_inputs := Cert.Pre_finite_inputs.Gen.facts) := fun m g _ =>
  (θ_run _ _ _).mono (fun _ h c =>
    ⟨(h c main_arg0).trans (arg_kept _ _ (by decide)), (h c main_arg1).trans (arg_kept _ _ (by decide)),
      (h c main_arg2).trans (arg_kept _ _ (by decide)), (h c main_arg3).trans (arg_kept _ _ (by decide)),
      (h c main_arg4).trans (arg_kept _ _ (by decide)), (h c main_arg5).trans (arg_kept _ _ (by decide)),
      (h c main_arg6).trans (arg_kept _ _ (by decide)), (h c main_arg7).trans (arg_kept _ _ (by decide)),
      (h c main_arg8).trans (arg_kept _ _ (by decide)), (h c main_arg9).trans (arg_kept _ _ (by decide)),
      (h c main_arg10).trans (arg_kept _ _ (by decide)), (h c main_arg11).trans (arg_kept _ _ (by decide)),
      (h c main_arg12).trans (arg_kept _ _ (by decide)), (h c main_arg13).trans (arg_kept _ _ (by decide)),
      (h c main_arg14).trans (arg_kept _ _ (by decide))⟩)
    (run_main (F := Ideal) m g)

end Cert.ReferenceIdeal.Val

end
-- ==== Proof.RefLemmas.lean ====
import proofs.«116818_j36043365548320_1_alg».proof.Proof.Agg
import Idealize.ShloMosaic.PureOps.Ideal.Laws
import Idealize.ShloMosaic.Lib.ValueIdx
import Idealize.ShloMosaic.Lib.Pipeline.Value
import Idealize.ShloMosaic.Lib.ValueLayout
import Idealize.ShloMosaic.Lib.IdealHost
import Idealize.ShloMosaic.Lib.StackMember

noncomputable section

open scoped BigOperators

namespace Cert.ReferenceIdeal.Val

open Idealize.ShloMosaic Idealize.ShloMosaic.ValueIdx Cert.ReferenceIdeal Cert.ReferenceIdeal.Facts₀ Cert.Spec

-- The host's product of an m × k by a k × n matrix is, entry by entry, the sum over the contracted coordinate.
theorem dot_plain {m k n : Nat} (x : FVec Ideal ⟨2, ![m, k]⟩ .f32) (w : FVec Ideal ⟨2, ![k, n]⟩ .f32) :
    Host.dotGeneral (DotDims.plain m k n) none x w = mm x w := by
  funext i
  obtain ⟨a, b, rfl⟩ : ∃ (a : Fin m) (b : Fin n), i = ix2 a b := ⟨i 0, i 1, eq_ix2 i⟩
  exact StackMember.dotGeneral_plain_apply none x w a b

theorem dot64_eq (x : FVec Ideal S100000x64 .f32) (w : FVec Ideal S64x64 .f32) :
    Host.dotGeneral dot_S100000x64_S64x64_S100000x64_1_0_0_1_n_n none x w = mm x w := dot_plain x w

theorem dot128_eq (x : FVec Ideal S100000x128 .f32) (w : FVec Ideal S128x64 .f32) :
    Host.dotGeneral dot_S100000x128_S128x64_S100000x64_1_0_0_1_n_n none x w = mm x w := dot_plain x w

theorem dot2_eq (x : FVec Ideal S100000x64 .f32) (w : FVec Ideal S64x2 .f32) :
    Host.dotGeneral dot_S100000x64_S64x2_S100000x2_1_0_0_1_n_n none x w = mm x w := dot_plain x w

theorem addBias64_eq (y : FVec Ideal S100000x64 .f32) (b : FVec Ideal S64 .f32) :
    addf y (broadcastInDim S100000x64 ![0, 1] bcast_S1x64_S100000x64_0_1 (broadcastInDim S1x64 ![1] bcast_S64_S1x64_1 b))
      = addRow y (row b) := by
  funext j
  obtain ⟨p, q, rfl⟩ : ∃ (p : Fin 100000) (q : Fin 64), j = ix2 p q := ⟨j 0, j 1, eq_ix2 j⟩
  rw [addf_apply,
    broadcastInDim_apply _ bcast_S1x64_S100000x64_0_1 _ (ix2 p q) (ix2 (0 : Fin 1) q)
      (fun a => by match a with | ⟨0, _⟩ => rfl | ⟨1, _⟩ => rfl),
    broadcastInDim_apply _ bcast_S64_S1x64_1 _ (ix2 (0 : Fin 1) q) (ix1 q)
      (fun a => by match a with | ⟨0, _⟩ => rfl)]
  rfl

theorem addBias2_eq (y : FVec Ideal S100000x2 .f32) (b : FVec Ideal S2 .f32) :
    addf y (broadcastInDim S100000x2 ![0, 1] bcast_S1x2_S100000x2_0_1 (broadcastInDim S1x2 ![1] bcast_S2_S1x2_1 b))
      = addRow y (row b) := by
  funext j
  obtain ⟨p, q, rfl⟩ : ∃ (p : Fin 100000) (q : Fin 2), j = ix2 p q := ⟨j 0, j 1, eq_ix2 j⟩
  rw [addf_apply,
    broadcastInDim_apply _ bcast_S1x2_S100000x2_0_1 _ (ix2 p q) (ix2 (0 : Fin 1) q)
      (fun a => by match a with | ⟨0, _⟩ => rfl | ⟨1, _⟩ => rfl),
    broadcastInDim_apply _ bcast_S2_S1x2_1 _ (ix2 (0 : Fin 1) q) (ix1 q)
      (fun a => by match a with | ⟨0, _⟩ => rfl)]
  rfl

theorem select_oge_eq_lrelu (z : EReal) :
    Scalar.select (Ideal.cmp .oge z 0) z (slope * z) = lrelu z := by
  unfold lrelu
  by_cases h : 0 < z
  · rw [if_pos h]
    have : Ideal.cmp .oge z 0 = 1#1 := by simp [Ideal.cmp, h.le]
    rw [this, select_one]
  · rw [if_neg h]
    rcases (not_lt.mp h).eq_or_lt with h0 | hlt
    · subst h0
      have : Ideal.cmp .oge (0 : EReal) 0 = 1#1 := by simp [Ideal.cmp]
      rw [this, select_one, mul_zero]
    · have : Ideal.cmp .oge z 0 = 0#1 := by simp [Ideal.cmp, not_le.mpr hlt]
      rw [this, select_zero]

theorem leaky_eq (z : FVec Ideal S100000x64 .f32) :
    select (cmpf .oge z (broadcastInDim S100000x64 ![] bcast_S_S100000x64 (constant S_ .f32 0x00000000#32))) z
        (mulf (broadcastInDim S100000x64 ![] bcast_S_S100000x64 (id (constant S_ .f32 0x3C23D70A#32))) z)
      = act z := by
  funext j
  rw [select_apply, cmpf_apply, mulf_apply, broadcastInDim_scalar_apply, broadcastInDim_scalar_apply]
  show Scalar.select (Ideal.cmp .oge (z j) (Ideal.ofBits .f32 0x00000000#32)) (z j) (slope * z j) = lrelu (z j)
  rw [Ideal.ofBits_zero_f32]
  exact select_oge_eq_lrelu (z j)

theorem concat_eq (a b : FVec Ideal S100000x64 .f32) :
    concatenate S100000x128 1 [⟨S100000x64, a⟩, ⟨S100000x64, b⟩] concatenates_S100000x64_S100000x64_S100000x128_d1
      = cat a b := by
  funext j
  obtain ⟨p, q, rfl⟩ : ∃ (p : Fin 100000) (q : Fin 128), j = ix2 p q := ⟨j 0, j 1, eq_ix2 j⟩
  unfold cat
  by_cases h : q.val < 64
  · rw [dif_pos (show ((ix2 p q : S100000x128.Idx) 1).val < 64 from h)]
    exact concatenate_pair_apply_left 1 a b concatenates_S100000x64_S100000x64_S100000x128_d1 (ix2 p q) rfl
      (ix2 p ⟨q.val, h⟩) (fun c => by match c with | ⟨0, _⟩ => rfl | ⟨1, _⟩ => rfl)
  · rw [dif_neg (show ¬ ((ix2 p q : S100000x128.Idx) 1).val < 64 from h)]
    exact concatenate_pair_apply_right 1 a b concatenates_S100000x64_S100000x64_S100000x128_d1 (ix2 p q) rfl rfl
      (ix2 p ⟨q.val - 64, by have := q.isLt; omega⟩)
      (fun c hc => by
        match c with
        | ⟨0, _⟩ => rfl
        | ⟨1, _⟩ => exact absurd rfl hc)
      (by show (q.val - 64) + 64 = q.val; omega)

theorem negf_eq (x : FVec Ideal S100000x64 .f32) : Host.negf x = neg x := rfl

theorem zeros_eq :
    (broadcastInDim S100000x64 ![] bcast_S_S100000x64 (constant S_ .f32 0x00000000#32) : FVec Ideal S100000x64 .f32) = zeros := by
  funext j
  rw [broadcastInDim_scalar_apply, constant_apply, Ideal.ofBits_zero_f32]
  rfl

theorem addf_eq (a b : FVec Ideal S100000x64 .f32) : addf a b = accum a b := rfl

end Cert.ReferenceIdeal.Val

end
-- ==== Proof.RValP.lean ====
import proofs.«116818_j36043365548320_1_alg».proof.Proof.RefOps
import proofs.«116818_j36043365548320_1_alg».proof.Proof.RefLemmas
import proofs.«116818_j36043365548320_1_alg».proof.Proof.SpecRel

noncomputable section

namespace Cert.ReferenceIdeal.Val.VP

open Idealize.ShloMosaic Idealize.ShloMosaic.TcCoe Idealize.SL.Sem Idealize.ShloMosaic.StableHlo Cert.ReferenceIdeal Cert.ReferenceIdeal.Facts₀ Cert.Spec

variable (V : Valuation τ sig (Elt Ideal))

/-- The two dense layers with their rectifiers are `mlp`; the running sum starts at zero. -/
theorem rpre :
    (after opsPre V (Proc.devRef .tc main_v9) : Arr N 64)
        = mlp (V (Proc.devRef .tc main_arg0)) (V (Proc.devRef .tc main_arg3)) (row (V (Proc.devRef .tc main_arg4)))
            (V (Proc.devRef .tc main_arg5)) (row (V (Proc.devRef .tc main_arg6)))
      ∧ (after opsPre V (Proc.devRef .tc main_v10) : Arr N 64) = zeros := by
  constructor <;> show after opsPre V (Proc.devRef .tc _ : DevRef τ sig) = _ <;>
    simp only [opsPre, TRef.unary, TRef.binary, TRef.ternary, TRef.nullary, TRef.ofBuf, TRef.toBuf, cast_eq] <;> after_results_simp
  · rw [leaky_eq, addBias64_eq, dot64_eq, leaky_eq, addBias64_eq, dot64_eq]
    rfl
  · exact zeros_eq

theorem rpost :
    (after opsPost V (Proc.devRef .tc main_v243) : Arr N 2)
      = head (V (Proc.devRef .tc main_v238)) (V (Proc.devRef .tc main_arg13)) (row (V (Proc.devRef .tc main_arg14))) := by
  show after opsPost V (Proc.devRef .tc main_v243 : DevRef τ sig) = _
  simp only [opsPost, TRef.unary, TRef.binary, TRef.ternary, TRef.nullary, TRef.ofBuf, TRef.toBuf, cast_eq]
  after_results_simp
  rw [addBias2_eq, dot2_eq, leaky_eq]
  rfl

end Cert.ReferenceIdeal.Val.VP

end
-- ==== Proof.RVal0.lean ====
import proofs.«116818_j36043365548320_1_alg».proof.Proof.RefOps
import proofs.«116818_j36043365548320_1_alg».proof.Proof.RefLemmas
import proofs.«116818_j36043365548320_1_alg».proof.Proof.SpecRel

noncomputable section

namespace Cert.ReferenceIdeal.Val.V0

open Idealize.ShloMosaic Idealize.ShloMosaic.TcCoe Idealize.SL.Sem Idealize.ShloMosaic.StableHlo
open Cert.ReferenceIdeal Cert.ReferenceIdeal.Gen Cert.ReferenceIdeal.Facts₀ Cert.Spec Cert.ReferenceIdeal.Val

/-- Each step's 39 aggregation operations compose to `agg`, term for term. -/
theorem aggs (V : Valuation τ sig (Elt Ideal)) :
    after (opsRel0.take 39) V (Proc.devRef .tc main_v39 : DevRef τ sig)
        = agg (F := Ideal) (V (Proc.devRef .tc main_v9)) (edge0 (V (Proc.devRef .tc main_arg1))) (edge0 (V (Proc.devRef .tc main_arg2)))
      ∧ after ((opsRel0.drop 45).take 39) V (Proc.devRef .tc main_v74 : DevRef τ sig)
        = agg (F := Ideal) (V (Proc.devRef .tc main_v45)) (edge0 (V (Proc.devRef .tc main_arg1))) (edge0 (V (Proc.devRef .tc main_arg2))) := by
  constructor <;>
  · simp only [List.take_succ_cons, List.take_zero, List.drop_succ_cons, List.drop_zero, TRef.unary, TRef.ternary, TRef.ofBuf, TRef.toBuf, cast_eq]
    after_results_simp
    unfold agg dinvFull dinv degree wrap edge0
    rfl

/-- A step's six dense operations are `cheb`; the last twelve are `fuse` over `cheb`, and `accum` of it. -/
theorem dense (V : Valuation τ sig (Elt Ideal)) :
    after ((opsRel0.drop 39).take 6) V (Proc.devRef .tc main_v45 : DevRef τ sig)
        = cheb (V (Proc.devRef .tc main_v9)) (V (Proc.devRef .tc main_v39)) (V (Proc.devRef .tc main_arg7)) (row (V (Proc.devRef .tc main_arg8)))
      ∧ after (opsRel0.drop 84) V (Proc.devRef .tc main_v85 : DevRef τ sig) = fuse (V (Proc.devRef .tc main_v45)) (cheb (V (Proc.devRef .tc main_v45)) (V (Proc.devRef .tc main_v74)) (V (Proc.devRef .tc main_arg9)) (row (V (Proc.devRef .tc main_arg10)))) (V (Proc.devRef .tc main_arg11)) (row (V (Proc.devRef .tc main_arg12)))
      ∧ after (opsRel0.drop 84) V (Proc.devRef .tc main_v86 : DevRef τ sig) = accum (V (Proc.devRef .tc main_v10)) (fuse (V (Proc.devRef .tc main_v45)) (cheb (V (Proc.devRef .tc main_v45)) (V (Proc.devRef .tc main_v74)) (V (Proc.devRef .tc main_arg9)) (row (V (Proc.devRef .tc main_arg10)))) (V (Proc.devRef .tc main_arg11)) (row (V (Proc.devRef .tc main_arg12)))) := by
  refine ⟨?_, ?_, ?_⟩ <;>
  · simp only [List.take_succ_cons, List.take_zero, List.drop_succ_cons, List.drop_zero]
    after_results_simp
    repeat (simp only [concat_eq]; after_results_simp)
    repeat rw [addBias64_eq, dot128_eq]
    rfl

/-- A buffer the relation never writes keeps its contents through any number of its operations. -/
theorem keep (V : Valuation τ sig (Elt Ideal)) (n : Nat) (r : Ref sig .tc) (h : r ∉ opsRel0_W) :
    after (opsRel0.take n) V (Proc.devRef .tc r) = V (Proc.devRef .tc r) :=
  after_of_writes_sub _ V (List.forall_iff_forall_mem.mpr fun op ho =>
    List.forall_iff_forall_mem.mp opsRel0_writes op (List.mem_of_mem_take ho)) h

/-- The first step's result stays in main_v45 through the second aggregation. -/
theorem keepB (V : Valuation τ sig (Elt Ideal)) : after ((opsRel0.drop 45).take 39) V (Proc.devRef .tc main_v45 : DevRef τ sig) = V (Proc.devRef .tc main_v45) := by
  simp only [List.take_succ_cons, List.take_zero, List.drop_succ_cons, List.drop_zero, TRef.unary, TRef.ternary, TRef.ofBuf, TRef.toBuf, cast_eq]
  after_results_simp

theorem rrel0 (V : Valuation τ sig (Elt Ideal)) :
    (after opsRel0 V (Proc.devRef .tc main_v85) : Arr N 64)
        = relR (V (Proc.devRef .tc main_v9)) (edge0 (V (Proc.devRef .tc main_arg1))) (edge0 (V (Proc.devRef .tc main_arg2)))
            (V (Proc.devRef .tc main_arg7)) (V (Proc.devRef .tc main_arg8)) (V (Proc.devRef .tc main_arg9))
            (V (Proc.devRef .tc main_arg10)) (V (Proc.devRef .tc main_arg11)) (V (Proc.devRef .tc main_arg12))
      ∧ (after opsRel0 V (Proc.devRef .tc main_v86) : Arr N 64)
        = accum (V (Proc.devRef .tc main_v10))
            (relR (V (Proc.devRef .tc main_v9)) (edge0 (V (Proc.devRef .tc main_arg1))) (edge0 (V (Proc.devRef .tc main_arg2)))
              (V (Proc.devRef .tc main_arg7)) (V (Proc.devRef .tc main_arg8)) (V (Proc.devRef .tc main_arg9))
              (V (Proc.devRef .tc main_arg10)) (V (Proc.devRef .tc main_arg11)) (V (Proc.devRef .tc main_arg12))) := by
  have e1 : after (opsRel0.take 45) V = after ((opsRel0.drop 39).take 6) (after (opsRel0.take 39) V) :=
    after_append' (opsRel0.take 39) ((opsRel0.drop 39).take 6) V
  have e2 : after (opsRel0.take 84) V = after ((opsRel0.drop 45).take 39) (after (opsRel0.take 45) V) :=
    after_append' (opsRel0.take 45) ((opsRel0.drop 45).take 39) V
  have e3 : after opsRel0 V = after (opsRel0.drop 84) (after (opsRel0.take 84) V) :=
    after_append' (opsRel0.take 84) (opsRel0.drop 84) V
  have s : after (opsRel0.take 45) V (Proc.devRef .tc main_v45 : DevRef τ sig)
      = stepR (V (Proc.devRef .tc main_v9)) (edge0 (V (Proc.devRef .tc main_arg1))) (edge0 (V (Proc.devRef .tc main_arg2))) (V (Proc.devRef .tc main_arg7)) (V (Proc.devRef .tc main_arg8)) := by
    rw [e1, (dense _).1, (aggs V).1, keep V 39 main_v9 (by decide), keep V 39 main_arg7 (by decide), keep V 39 main_arg8 (by decide)]
    rfl
  have t := (dense (after (opsRel0.take 84) V)).2
  rw [← e3, keep V 84 main_arg9 (by decide), keep V 84 main_arg10 (by decide), keep V 84 main_arg11 (by decide), keep V 84 main_arg12 (by decide),
    keep V 84 main_v10 (by decide), e2, keepB, (aggs _).2, s, keep V 45 main_arg1 (by decide), keep V 45 main_arg2 (by decide)] at t
  exact t

end Cert.ReferenceIdeal.Val.V0

end
-- ==== Proof.RVal1.lean ====
import proofs.«116818_j36043365548320_1_alg».proof.Proof.RefOps
import proofs.«116818_j36043365548320_1_alg».proof.Proof.RefLemmas
import proofs.«116818_j36043365548320_1_alg».proof.Proof.SpecRel

noncomputable section

namespace Cert.ReferenceIdeal.Val.V1

open Idealize.ShloMosaic Idealize.ShloMosaic.TcCoe Idealize.SL.Sem Idealize.ShloMosaic.StableHlo Cert.ReferenceIdeal Cert.ReferenceIdeal.Facts₀ Cert.Spec

variable (V : Valuation τ sig (Elt Ideal))

/-- Each step's 39 aggregation operations compose to `agg`, term for term. -/
theorem aggs :
    after (opsRel1.take 39) V (Proc.devRef .tc main_v115 : DevRef τ sig)
        = agg (F := Ideal) (V (Proc.devRef .tc main_v85)) (edge1 (V (Proc.devRef .tc main_arg1))) (edge1 (V (Proc.devRef .tc main_arg2)))
      ∧ after ((opsRel1.drop 45).take 39) V (Proc.devRef .tc main_v150 : DevRef τ sig)
        = agg (F := Ideal) (V (Proc.devRef .tc main_v121)) (edge1 (V (Proc.devRef .tc main_arg1))) (edge1 (V (Proc.devRef .tc main_arg2))) := by
  constructor <;>
  · simp only [List.take_succ_cons, List.take_zero, List.drop_succ_cons, List.drop_zero, TRef.unary, TRef.ternary, TRef.ofBuf, TRef.toBuf, cast_eq]
    after_results_simp
    unfold agg dinvFull dinv degree wrap edge1
    rfl

/-- A step's six dense operations are `cheb`; the last twelve are `fuse` over `cheb`, and `accum` of it. -/
theorem dense :
    after ((opsRel1.drop 39).take 6) V (Proc.devRef .tc main_v121 : DevRef τ sig)
        = cheb (V (Proc.devRef .tc main_v85)) (V (Proc.devRef .tc main_v115)) (V (Proc.devRef .tc main_arg7)) (row (V (Proc.devRef .tc main_arg8)))
      ∧ after (opsRel1.drop 84) V (Proc.devRef .tc main_v161 : DevRef τ sig) = fuse (V (Proc.devRef .tc main_v121)) (cheb (V (Proc.devRef .tc main_v121)) (V (Proc.devRef .tc main_v150)) (V (Proc.devRef .tc main_arg9)) (row (V (Proc.devRef .tc main_arg10)))) (V (Proc.devRef .tc main_arg11)) (row (V (Proc.devRef .tc main_arg12)))
      ∧ after (opsRel1.drop 84) V (Proc.devRef .tc main_v162 : DevRef τ sig) = accum (V (Proc.devRef .tc main_v86)) (fuse (V (Proc.devRef .tc main_v121)) (cheb (V (Proc.devRef .tc main_v121)) (V (Proc.devRef .tc main_v150)) (V (Proc.devRef .tc main_arg9)) (row (V (Proc.devRef .tc main_arg10)))) (V (Proc.devRef .tc main_arg11)) (row (V (Proc.devRef .tc main_arg12)))) := by
  refine ⟨?_, ?_, ?_⟩ <;>
  · simp only [List.take_succ_cons, List.take_zero, List.drop_succ_cons, List.drop_zero]
    after_results_simp
    repeat (simp only [concat_eq]; after_results_simp)
    repeat rw [addBias64_eq, dot128_eq]
    rfl

/-- A buffer the relation never writes keeps its contents through any number of its operations. -/
theorem keep (n : Nat) (r : Ref sig .tc) (h : r ∉ opsRel1_W) :
    after (opsRel1.take n) V (Proc.devRef .tc r) = V (Proc.devRef .tc r) :=
  after_of_writes_sub _ V (List.forall_iff_forall_mem.mpr fun op ho =>
    List.forall_iff_forall_mem.mp opsRel1_writes op (List.mem_of_mem_take ho)) h

/-- The first step's result stays in main_v121 through the second aggregation. -/
theorem keepB : after ((opsRel1.drop 45).take 39) V (Proc.devRef .tc main_v121 : DevRef τ sig) = V (Proc.devRef .tc main_v121) := by
  simp only [List.take_succ_cons, List.take_zero, List.drop_succ_cons, List.drop_zero, TRef.unary, TRef.ternary, TRef.ofBuf, TRef.toBuf, cast_eq]
  after_results_simp

theorem rrel1 :
    (after opsRel1 V (Proc.devRef .tc main_v161) : Arr N 64) = relR (V (Proc.devRef .tc main_v85)) (edge1 (V (Proc.devRef .tc main_arg1))) (edge1 (V (Proc.devRef .tc main_arg2))) (V (Proc.devRef .tc main_arg7)) (V (Proc.devRef .tc main_arg8)) (V (Proc.devRef .tc main_arg9)) (V (Proc.devRef .tc main_arg10)) (V (Proc.devRef .tc main_arg11)) (V (Proc.devRef .tc main_arg12))
    ∧ (after opsRel1 V (Proc.devRef .tc main_v162) : Arr N 64) = accum (V (Proc.devRef .tc main_v86)) (relR (V (Proc.devRef .tc main_v85)) (edge1 (V (Proc.devRef .tc main_arg1))) (edge1 (V (Proc.devRef .tc main_arg2))) (V (Proc.devRef .tc main_arg7)) (V (Proc.devRef .tc main_arg8)) (V (Proc.devRef .tc main_arg9)) (V (Proc.devRef .tc main_arg10)) (V (Proc.devRef .tc main_arg11)) (V (Proc.devRef .tc main_arg12))) := by
  have e1 : after (opsRel1.take 45) V = after ((opsRel1.drop 39).take 6) (after (opsRel1.take 39) V) :=
    after_append' (opsRel1.take 39) ((opsRel1.drop 39).take 6) V
  have e2 : after (opsRel1.take 84) V = after ((opsRel1.drop 45).take 39) (after (opsRel1.take 45) V) :=
    after_append' (opsRel1.take 45) ((opsRel1.drop 45).take 39) V
  have e3 : after opsRel1 V = after (opsRel1.drop 84) (after (opsRel1.take 84) V) :=
    after_append' (opsRel1.take 84) (opsRel1.drop 84) V
  have s : after (opsRel1.take 45) V (Proc.devRef .tc main_v121 : DevRef τ sig)
      = stepR (V (Proc.devRef .tc main_v85)) (edge1 (V (Proc.devRef .tc main_arg1))) (edge1 (V (Proc.devRef .tc main_arg2))) (V (Proc.devRef .tc main_arg7)) (V (Proc.devRef .tc main_arg8)) := by
    rw [e1, (dense _).1, (aggs V).1, keep V 39 main_v85 (by decide), keep V 39 main_arg7 (by decide), keep V 39 main_arg8 (by decide)]
    rfl
  have t := (dense (after (opsRel1.take 84) V)).2
  rw [← e3, keep V 84 main_arg9 (by decide), keep V 84 main_arg10 (by decide), keep V 84 main_arg11 (by decide), keep V 84 main_arg12 (by decide),
    keep V 84 main_v86 (by decide), e2, keepB, (aggs _).2, s, keep V 45 main_arg1 (by decide), keep V 45 main_arg2 (by decide)] at t
  exact t

end Cert.ReferenceIdeal.Val.V1

end
-- ==== Proof.RVal2.lean ====
import proofs.«116818_j36043365548320_1_alg».proof.Proof.RefOps
import proofs.«116818_j36043365548320_1_alg».proof.Proof.RefLemmas
import proofs.«116818_j36043365548320_1_alg».proof.Proof.SpecRel

noncomputable section

namespace Cert.ReferenceIdeal.Val.V2

open Idealize.ShloMosaic Idealize.ShloMosaic.TcCoe Idealize.SL.Sem Idealize.ShloMosaic.StableHlo Cert.ReferenceIdeal
  Cert.ReferenceIdeal.Gen Cert.ReferenceIdeal.Val Cert.Spec

/-- Each step's 39 aggregation operations compose to `agg`, term for term. -/
theorem aggs (V : Valuation τ sig (Elt Ideal)) :
    after (opsRel2.take 39) V (Proc.devRef .tc main_v191 : DevRef τ sig)
        = agg (F := Ideal) (V (Proc.devRef .tc main_v161)) (edge2 (V (Proc.devRef .tc main_arg1))) (edge2 (V (Proc.devRef .tc main_arg2)))
      ∧ after ((opsRel2.drop 45).take 39) V (Proc.devRef .tc main_v226 : DevRef τ sig)
        = agg (F := Ideal) (V (Proc.devRef .tc main_v197)) (edge2 (V (Proc.devRef .tc main_arg1))) (edge2 (V (Proc.devRef .tc main_arg2))) := by
  constructor <;>
  · simp only [List.take_succ_cons, List.take_zero, List.drop_succ_cons, List.drop_zero, TRef.unary, TRef.ternary, TRef.ofBuf, TRef.toBuf, cast_eq]
    after_results_simp
    unfold agg dinvFull dinv degree wrap edge2
    rfl

/-- A step's six dense operations are `cheb`; the last twelve are `fuse` over `cheb`, and `accum` of it. -/
theorem dense (V : Valuation τ sig (Elt Ideal)) :
    after ((opsRel2.drop 39).take 6) V (Proc.devRef .tc main_v197 : DevRef τ sig)
        = cheb (V (Proc.devRef .tc main_v161)) (V (Proc.devRef .tc main_v191)) (V (Proc.devRef .tc main_arg7)) (row (V (Proc.devRef .tc main_arg8)))
      ∧ after (opsRel2.drop 84) V (Proc.devRef .tc main_v237 : DevRef τ sig) = fuse (V (Proc.devRef .tc main_v197)) (cheb (V (Proc.devRef .tc main_v197)) (V (Proc.devRef .tc main_v226)) (V (Proc.devRef .tc main_arg9)) (row (V (Proc.devRef .tc main_arg10)))) (V (Proc.devRef .tc main_arg11)) (row (V (Proc.devRef .tc main_arg12)))
      ∧ after (opsRel2.drop 84) V (Proc.devRef .tc main_v238 : DevRef τ sig) = accum (V (Proc.devRef .tc main_v162)) (fuse (V (Proc.devRef .tc main_v197)) (cheb (V (Proc.devRef .tc main_v197)) (V (Proc.devRef .tc main_v226)) (V (Proc.devRef .tc main_arg9)) (row (V (Proc.devRef .tc main_arg10)))) (V (Proc.devRef .tc main_arg11)) (row (V (Proc.devRef .tc main_arg12)))) := by
  refine ⟨?_, ?_, ?_⟩ <;>
  · simp only [List.take_succ_cons, List.take_zero, List.drop_succ_cons, List.drop_zero]
    after_results_simp
    repeat (simp only [concat_eq]; after_results_simp)
    repeat rw [addBias64_eq, dot128_eq]
    rfl

/-- A buffer the relation never writes keeps its contents through any number of its operations. -/
theorem keep (V : Valuation τ sig (Elt Ideal)) (n : Nat) (r : Ref sig .tc) (h : r ∉ opsRel2_W) :
    after (opsRel2.take n) V (Proc.devRef .tc r) = V (Proc.devRef .tc r) :=
  after_of_writes_sub _ V (List.forall_iff_forall_mem.mpr fun op ho =>
    List.forall_iff_forall_mem.mp opsRel2_writes op (List.mem_of_mem_take ho)) h

/-- The first step's result stays in main_v197 through the second aggregation. -/
theorem keepB (V : Valuation τ sig (Elt Ideal)) : after ((opsRel2.drop 45).take 39) V (Proc.devRef .tc main_v197 : DevRef τ sig) = V (Proc.devRef .tc main_v197) := by
  simp only [List.take_succ_cons, List.take_zero, List.drop_succ_cons, List.drop_zero, TRef.unary, TRef.ternary, TRef.ofBuf, TRef.toBuf, cast_eq]
  after_results_simp

theorem rrel2 (V : Valuation τ sig (Elt Ideal)) :
    (after opsRel2 V (Proc.devRef .tc main_v237) : Arr N 64)
        = relR (V (Proc.devRef .tc main_v161)) (edge2 (V (Proc.devRef .tc main_arg1))) (edge2 (V (Proc.devRef .tc main_arg2)))
            (V (Proc.devRef .tc main_arg7)) (V (Proc.devRef .tc main_arg8)) (V (Proc.devRef .tc main_arg9))
            (V (Proc.devRef .tc main_arg10)) (V (Proc.devRef .tc main_arg11)) (V (Proc.devRef .tc main_arg12))
      ∧ (after opsRel2 V (Proc.devRef .tc main_v238) : Arr N 64)
        = accum (V (Proc.devRef .tc main_v162))
          (relR (V (Proc.devRef .tc main_v161)) (edge2 (V (Proc.devRef .tc main_arg1))) (edge2 (V (Proc.devRef .tc main_arg2)))
            (V (Proc.devRef .tc main_arg7)) (V (Proc.devRef .tc main_arg8)) (V (Proc.devRef .tc main_arg9))
            (V (Proc.devRef .tc main_arg10)) (V (Proc.devRef .tc main_arg11)) (V (Proc.devRef .tc main_arg12))) := by
  have e1 : after (opsRel2.take 45) V = after ((opsRel2.drop 39).take 6) (after (opsRel2.take 39) V) :=
    after_append' (opsRel2.take 39) ((opsRel2.drop 39).take 6) V
  have e2 : after (opsRel2.take 84) V = after ((opsRel2.drop 45).take 39) (after (opsRel2.take 45) V) :=
    after_append' (opsRel2.take 45) ((opsRel2.drop 45).take 39) V
  have e3 : after opsRel2 V = after (opsRel2.drop 84) (after (opsRel2.take 84) V) :=
    after_append' (opsRel2.take 84) (opsRel2.drop 84) V
  have s : after (opsRel2.take 45) V (Proc.devRef .tc main_v197 : DevRef τ sig)
      = stepR (V (Proc.devRef .tc main_v161)) (edge2 (V (Proc.devRef .tc main_arg1))) (edge2 (V (Proc.devRef .tc main_arg2))) (V (Proc.devRef .tc main_arg7)) (V (Proc.devRef .tc main_arg8)) := by
    rw [e1, (dense _).1, (aggs V).1, keep V 39 main_v161 (by decide), keep V 39 main_arg7 (by decide), keep V 39 main_arg8 (by decide)]
    rfl
  have t := (dense (after (opsRel2.take 84) V)).2
  rw [← e3, keep V 84 main_arg9 (by decide), keep V 84 main_arg10 (by decide), keep V 84 main_arg11 (by decide), keep V 84 main_arg12 (by decide),
    keep V 84 main_v162 (by decide), e2, keepB, (aggs _).2, s, keep V 45 main_arg1 (by decide), keep V 45 main_arg2 (by decide)] at t
  exact t

end Cert.ReferenceIdeal.Val.V2

end
-- ==== Proof.RValue.lean ====
import proofs.«116818_j36043365548320_1_alg».proof.Proof.RValP
import proofs.«116818_j36043365548320_1_alg».proof.Proof.RVal0
import proofs.«116818_j36043365548320_1_alg».proof.Proof.RVal1
import proofs.«116818_j36043365548320_1_alg».proof.Proof.RVal2

noncomputable section

namespace Cert.ReferenceIdeal.Val

open Idealize.ShloMosaic Idealize.ShloMosaic.TcCoe Idealize.SL.Sem Idealize.ShloMosaic.StableHlo
open Cert.ReferenceIdeal Cert.Spec

/-- A buffer outside a list holding all that a stretch writes keeps its contents through it. -/
theorem keep {ops : List (HloOp τ sig (Elt Ideal))} {W : List (Ref sig .tc)}
    (hW : ops.Forall fun op => op.writes ⊆ (W.map (Proc.devRef (τ := τ) .tc)).toFinset) (V : Valuation τ sig (Elt Ideal))
    {r : Ref sig .tc} (h : r ∉ W) : after ops V (no_index (Proc.devRef .tc r)) = V (Proc.devRef .tc r) :=
  after_of_writes_sub ops V hW h

/-- Stage by stage: the head of the running sum of the three relations of the two dense layers; no stage writes an argument. -/
theorem ref_value (V : Valuation τ sig (Elt Ideal)) :
    (after ops V (Proc.devRef .tc main_v243) : Arr N 2)
      = outR (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) := by
  obtain ⟨hh, hz⟩ := VP.rpre V
  obtain ⟨r0h, r0s⟩ := V0.rrel0 (after opsPre V)
  obtain ⟨r1h, r1s⟩ := V1.rrel1 (after opsRel0 (after opsPre V))
  obtain ⟨-, r2s⟩ := V2.rrel2 (after opsRel1 (after opsRel0 (after opsPre V)))
  rw [after_ops, VP.rpost, r2s, r1s, r1h, r0s, r0h, hz, hh]
  simp (disch := decide) only [keep opsPre_writes, keep opsRel0_writes, keep opsRel1_writes, keep opsRel2_writes]
  rfl

end Cert.ReferenceIdeal.Val

end
-- ==== Proof.Bridge.lean ====
import proofs.«116818_j36043365548320_1_alg».proof.Proof.Spec
import Mathlib.Algebra.BigOperators.Fin

noncomputable section

open scoped BigOperators

namespace Cert.Spec

open Idealize.ShloMosaic Idealize.ShloMosaic.ValueIdx

theorem negOne_eq : negOne = ((-1 : ℝ) : EReal) := by
  unfold negOne
  simp [Ideal.ofBits, Ideal.ieee, -EReal.coe_mul]; norm_num

theorem posOne_eq : posOne = ((1 : ℝ) : EReal) := by
  unfold posOne
  simp [Ideal.ofBits, Ideal.ieee, -EReal.coe_mul]; norm_num

theorem slope_real : ∃ v : ℝ, slope = (v : EReal) := by
  unfold slope
  simp [Ideal.ofBits, Ideal.ieee, -EReal.coe_mul]

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem real_mm {r k c : Nat} {a : Arr r k} {w : Arr k c} (ha : Real2 a) (hw : Real2 w) : Real2 (mm a w) := by
  intro j
  choose fa hfa using ha
  choose fw hfw using hw
  refine ⟨∑ l : Fin k, fa (ix2 (j 0) l) * fw (ix2 l (j 1)), ?_⟩
  show ∑ l : Fin k, a (ix2 (j 0) l) * w (ix2 l (j 1)) = _
  rw [coe_sum]
  refine Finset.sum_congr rfl fun l _ => ?_
  rw [EReal.coe_mul, hfa, hfw]

theorem real_addRow {r c : Nat} {x : Arr r c} {b : Arr 1 c} (hx : Real2 x) (hb : Real2 b) : Real2 (addRow x b) := by
  intro j
  obtain ⟨u, hu⟩ := hx j
  obtain ⟨v, hv⟩ := hb (ix2 0 (j 1))
  refine ⟨u + v, ?_⟩
  show x j + b (ix2 0 (j 1)) = _
  rw [hu, hv, EReal.coe_add]

theorem real_lrelu {z : EReal} (hz : ∃ v : ℝ, z = (v : EReal)) : ∃ v : ℝ, lrelu z = (v : EReal) := by
  obtain ⟨v, rfl⟩ := hz
  obtain ⟨s, hs⟩ := slope_real
  unfold lrelu
  split_ifs
  · exact ⟨v, rfl⟩
  · exact ⟨s * v, by rw [hs, EReal.coe_mul]⟩

theorem real_act {r c : Nat} {x : Arr r c} (hx : Real2 x) : Real2 (act x) := fun j => real_lrelu (hx j)

theorem real_mlp {x : Arr N 64} {w1 : Arr 64 64} {b1 : Arr 1 64} {w2 : Arr 64 64} {b2 : Arr 1 64} (hx : Real2 x)
    (hw1 : Real2 w1) (hb1 : Real2 b1) (hw2 : Real2 w2) (hb2 : Real2 b2) : Real2 (mlp x w1 b1 w2 b2) :=
  real_act (real_addRow (real_mm (real_act (real_addRow (real_mm hx hw1) hb1)) hw2) hb2)

theorem real_dual {sgn : EReal} {a b : Arr N 64} {wa wb : Arr 64 64} {bias : Arr 1 64} (hs : ∃ v : ℝ, sgn = (v : EReal))
    (ha : Real2 a) (hb : Real2 b) (hwa : Real2 wa) (hwb : Real2 wb) (hbias : Real2 bias) :
    Real2 (dual sgn a b wa wb bias) := by
  intro j
  obtain ⟨s, rfl⟩ := hs
  obtain ⟨u, hu⟩ := real_mm ha hwa j
  obtain ⟨v, hv⟩ := real_mm hb hwb j
  obtain ⟨t, ht⟩ := hbias (ix2 0 (j 1))
  refine ⟨(u + s * v) + t, ?_⟩
  show (mm a wa j + (s : EReal) * mm b wb j) + bias (ix2 0 (j 1)) = _
  rw [hu, hv, ht, EReal.coe_add, EReal.coe_add, EReal.coe_mul]

theorem real_top {w : Arr 128 64} (hw : Real2 w) : Real2 (top w) :=
  fun j => hw (ix2 (Fin.castAdd 64 (j 0)) (j 1))

theorem real_bot {w : Arr 128 64} (hw : Real2 w) : Real2 (bot w) :=
  fun j => hw (ix2 (Fin.natAdd 64 (j 0)) (j 1))

theorem real_row {c : Nat} {b : Arr1 c} (hb : Real1 b) : Real2 (row b) := fun j => hb (ix1 (j 1))

theorem mm_cat_apply (a b : Arr N 64) (w : Arr 128 64) (j : (⟨2, ![N, 64]⟩ : Shape).Idx) :
    mm (cat a b) w j = mm a (top w) j + mm b (bot w) j := by
  show ∑ l : Fin (64 + 64), cat a b (ix2 (j 0) l) * w (ix2 l (j 1)) = _
  rw [Fin.sum_univ_add]
  refine congrArg₂ (· + ·) ?_ ?_
  · refine Finset.sum_congr rfl fun l _ => ?_
    show cat a b (ix2 (j 0) (Fin.castAdd 64 l)) * _ = a (ix2 (j 0) l) * w (ix2 (Fin.castAdd 64 l) (j 1))
    congr 1
    unfold cat
    have h : (Fin.castAdd 64 l : Fin (64 + 64)).val < 64 := l.isLt
    simp only [at2]
    rw [dif_pos h]
    rfl
  · refine Finset.sum_congr rfl fun l _ => ?_
    show cat a b (ix2 (j 0) (Fin.natAdd 64 l)) * _ = b (ix2 (j 0) l) * w (ix2 (Fin.natAdd 64 l) (j 1))
    congr 1
    unfold cat
    have h : ¬ (Fin.natAdd 64 l : Fin (64 + 64)).val < 64 := by simp [Fin.natAdd]
    simp only [at2]
    rw [dif_neg h]
    congr 2
    apply Fin.ext
    simp [Fin.natAdd]

theorem fuse_eq_dual (h0 h1 : Arr N 64) (w : Arr 128 64) (b : Arr 1 64) :
    fuse h0 h1 w b = dual posOne h0 h1 (top w) (bot w) b := by
  funext j
  show mm (cat h0 h1) w j + b (ix2 0 (j 1)) = (mm h0 (top w) j + posOne * mm h1 (bot w) j) + b (ix2 0 (j 1))
  rw [mm_cat_apply, posOne_eq, EReal.coe_one, one_mul]

theorem mm_neg {r k c : Nat} {a : Arr r k} {w : Arr k c} (ha : Real2 a) (hw : Real2 w)
    (j : (⟨2, ![r, c]⟩ : Shape).Idx) : mm (neg a) w j = negOne * mm a w j := by
  choose fa hfa using ha
  choose fw hfw using hw
  show ∑ l : Fin k, -a (ix2 (j 0) l) * w (ix2 l (j 1)) = negOne * ∑ l : Fin k, a (ix2 (j 0) l) * w (ix2 l (j 1))
  have h1 : ∀ l : Fin k, -a (ix2 (j 0) l) * w (ix2 l (j 1)) = ((-(fa (ix2 (j 0) l) * fw (ix2 l (j 1))) : ℝ) : EReal) :=
    fun l => by rw [hfa, hfw, ← EReal.coe_neg, ← EReal.coe_mul, neg_mul]
  have h2 : ∀ l : Fin k, a (ix2 (j 0) l) * w (ix2 l (j 1)) = ((fa (ix2 (j 0) l) * fw (ix2 l (j 1)) : ℝ) : EReal) :=
    fun l => by rw [hfa, hfw, EReal.coe_mul]
  rw [Finset.sum_congr rfl fun l _ => h1 l, Finset.sum_congr rfl fun l _ => h2 l, ← coe_sum, ← coe_sum, negOne_eq,
    ← EReal.coe_mul, Finset.sum_neg_distrib, neg_one_mul]

theorem cheb_eq_dual (feat ah : Arr N 64) (w : Arr 128 64) (b : Arr 1 64) (hah : Real2 ah) (hw : Real2 w) :
    cheb feat ah w b = dual negOne feat ah (top w) (bot w) b := by
  funext j
  show mm (cat feat (neg ah)) w j + b (ix2 0 (j 1)) = (mm feat (top w) j + negOne * mm ah (bot w) j) + b (ix2 0 (j 1))
  rw [mm_cat_apply, mm_neg hah (real_bot hw)]

end Cert.Spec

end
-- ==== Proof.NetEq.lean ====
import proofs.«116818_j36043365548320_1_alg».proof.Proof.SpecRel
import proofs.«116818_j36043365548320_1_alg».proof.Proof.Bridge

noncomputable section

namespace Cert.Spec

open Idealize.ShloMosaic Cert.ReferenceIdeal

theorem stepK_eq_stepR (hagg : ∀ (f : Arr N 64) (s d : Edges), Real2 f → Real2 (agg (F := Ideal) f s d))
    (h : Arr N 64) (s d : Edges) (wc : Arr 128 64) (bc : Arr1 64) (hh : Real2 h) (hwc : Real2 wc) (hbc : Real1 bc) :
    stepK h s d wc bc = stepR h s d wc bc ∧ Real2 (stepK h s d wc bc) := by
  have ha := hagg h s d hh
  refine ⟨?_, ?_⟩
  · unfold stepK stepR
    exact (cheb_eq_dual h _ wc (row bc) ha hwc).symm
  · unfold stepK
    exact real_dual ⟨-1, negOne_eq⟩ hh ha (real_top hwc) (real_bot hwc) (real_row hbc)

theorem relK_eq_relR (hagg : ∀ (f : Arr N 64) (s d : Edges), Real2 f → Real2 (agg (F := Ideal) f s d))
    (h : Arr N 64) (s d : Edges) (wc1 : Arr 128 64) (bc1 : Arr1 64) (wc2 : Arr 128 64) (bc2 : Arr1 64) (w3 : Arr 128 64)
    (b3 : Arr1 64) (hh : Real2 h) (hwc1 : Real2 wc1) (hbc1 : Real1 bc1) (hwc2 : Real2 wc2) (hbc2 : Real1 bc2)
    (hw3 : Real2 w3) (hb3 : Real1 b3) :
    relK h s d wc1 bc1 wc2 bc2 w3 b3 = relR h s d wc1 bc1 wc2 bc2 w3 b3 ∧ Real2 (relK h s d wc1 bc1 wc2 bc2 w3 b3) := by
  obtain ⟨e1, r1⟩ := stepK_eq_stepR hagg h s d wc1 bc1 hh hwc1 hbc1
  obtain ⟨e2, r2⟩ := stepK_eq_stepR hagg (stepK h s d wc1 bc1) s d wc2 bc2 r1 hwc2 hbc2
  refine ⟨?_, ?_⟩
  · unfold relK relR
    rw [← e1, ← e2, fuse_eq_dual]
  · unfold relK
    exact real_dual ⟨1, posOne_eq⟩ r1 r2 (real_top hw3) (real_bot hw3) (real_row hb3)

theorem outK_eq_outR (hagg : ∀ (f : Arr N 64) (s d : Edges), Real2 f → Real2 (agg (F := Ideal) f s d))
    (x : Arr N 64) (src dst : IVec S3x1000000 32) (w1 : Arr 64 64) (b1 : Arr1 64) (w2 : Arr 64 64) (b2 : Arr1 64)
    (wc1 : Arr 128 64) (bc1 : Arr1 64) (wc2 : Arr 128 64) (bc2 : Arr1 64) (w3 : Arr 128 64) (b3 : Arr1 64)
    (w4 : Arr 64 2) (b4 : Arr1 2) (hx : Real2 x) (hw1 : Real2 w1) (hb1 : Real1 b1) (hw2 : Real2 w2) (hb2 : Real1 b2)
    (hwc1 : Real2 wc1) (hbc1 : Real1 bc1) (hwc2 : Real2 wc2) (hbc2 : Real1 bc2) (hw3 : Real2 w3) (hb3 : Real1 b3) :
    outK x src dst w1 b1 w2 b2 wc1 bc1 wc2 bc2 w3 b3 w4 b4 = outR x src dst w1 b1 w2 b2 wc1 bc1 wc2 bc2 w3 b3 w4 b4 := by
  have hh : Real2 (mlp x w1 (row b1) w2 (row b2)) := real_mlp hx hw1 (real_row hb1) hw2 (real_row hb2)
  obtain ⟨e0, r0⟩ :=
    relK_eq_relR hagg _ (edge0 src) (edge0 dst) wc1 bc1 wc2 bc2 w3 b3 hh hwc1 hbc1 hwc2 hbc2 hw3 hb3
  obtain ⟨e1, r1⟩ :=
    relK_eq_relR hagg _ (edge1 src) (edge1 dst) wc1 bc1 wc2 bc2 w3 b3 r0 hwc1 hbc1 hwc2 hbc2 hw3 hb3
  obtain ⟨e2, _⟩ :=
    relK_eq_relR hagg _ (edge2 src) (edge2 dst) wc1 bc1 wc2 bc2 w3 b3 r1 hwc1 hbc1 hwc2 hbc2 hw3 hb3
  dsimp only [outK, outR, net]
  rw [← e0, ← e1, ← e2]

end Cert.Spec

end
-- ==== Proof.AggReal.lean ====
import proofs.«116818_j36043365548320_1_alg».proof.Proof.Agg
import Idealize.ShloMosaic.PureOps.Ideal.Laws
import Idealize.ShloMosaic.Lib.IdealHost
import Idealize.ShloMosaic.Lib.ValueIdx

noncomputable section

open scoped BigOperators

namespace Cert.Spec

open Idealize.ShloMosaic Idealize.ShloMosaic.ValueIdx Cert.ReferenceIdeal Cert.ReferenceIdeal.Facts₀

def IsReal (x : EReal) : Prop := ∃ v : ℝ, x = (v : EReal)

def RealAll {s : Shape} (x : s.Idx → EReal) : Prop := ∀ i, IsReal (x i)

theorem isReal_coe (v : ℝ) : IsReal (v : EReal) := ⟨v, rfl⟩

theorem isReal_zero : IsReal 0 := ⟨0, EReal.coe_zero.symm⟩

theorem isReal_one : IsReal 1 := ⟨1, EReal.coe_one.symm⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.sum {ι : Type} (t : Finset ι) (f : ι → EReal) (h : ∀ j ∈ t, IsReal (f j)) : IsReal (∑ j ∈ t, f j) :=
  Finset.sum_induction f IsReal (fun _ _ hx hy => hx.add hy) isReal_zero h

theorem IsReal.pow {x y : EReal} (hx : IsReal x) (hy : IsReal y) : IsReal (Ideal.pow x y) := by
  obtain ⟨a, rfl⟩ := hx
  obtain ⟨b, rfl⟩ := hy
  exact ⟨Real.rpow a b, rfl⟩

theorem ofBits_negHalf : Ideal.ofBits .f32 0xBF000000#32 = ((-(1 / 2) : ℝ) : EReal) := by
  simp [Ideal.ofBits, Ideal.ieee, -EReal.coe_mul]; norm_num

theorem isReal_lit_zero : IsReal (Ideal.ofBits .f32 0x00000000#32) := by
  rw [Ideal.ofBits_zero_f32]; exact isReal_zero

theorem isReal_lit_one : IsReal (Ideal.ofBits .f32 0x3F800000#32) := by
  rw [Ideal.ofBits_one_f32]; exact isReal_one

theorem isReal_lit_negHalf : IsReal (Ideal.ofBits .f32 0xBF000000#32) := by
  rw [ofBits_negHalf]; exact isReal_coe _

section Ops
variable {s t : Shape}

theorem realAll_constant (b : BitVec 32) (hb : IsReal (Ideal.ofBits .f32 b)) :
    RealAll (constant (F := Ideal) s .f32 b) := fun _ => hb

theorem realAll_broadcastInDim (dims : Fin s.rank → Fin t.rank) (h : s.BroadcastsInDim t dims) (x : s.Idx → EReal)
    (hx : RealAll x) : RealAll (broadcastInDim t dims h x) := fun _ => hx _

theorem realAll_gather {si : Shape} {w : Nat} (d : GatherDims s si t) (x : s.Idx → EReal) (idx : IVec si w)
    (hx : RealAll x) : RealAll (Host.gather d x idx) := fun _ => hx _

theorem realAll_select (c : IVec s 1) (a b : s.Idx → EReal) (ha : RealAll a) (hb : RealAll b) :
    RealAll (select c a b) := by
  intro i
  rw [select_apply]
  unfold Scalar.select
  split
  · exact ha i
  · exact hb i

theorem realAll_mulf (a b : FVec Ideal s .f32) (ha : RealAll a) (hb : RealAll b) : RealAll (mulf a b) :=
  fun i => (ha i).mul (hb i)

theorem realAll_powf (a b : FVec Ideal s .f32) (ha : RealAll a) (hb : RealAll b) : RealAll (Host.powf a b) :=
  fun i => (ha i).pow (hb i)

theorem realAll_scatterAdd {si u : Shape} {w : Nat} (d : ScatterDims s si u) (x : FVec Ideal s .f32) (idx : IVec si w)
    (upd : FVec Ideal u .f32) (hx : RealAll x) (hu : RealAll upd) : RealAll (Host.scatterAdd d x idx upd) := by
  intro i
  show IsReal (x i + ∑ j ∈ Finset.univ.filter (fun j => d.resultIdx? j idx = some i), upd j)
  exact (hx i).add (IsReal.sum _ _ fun j _ => hu j)

end Ops

theorem real_degree (d : IVec S1000000 32) : RealAll (degree (F := Ideal) d) :=
  realAll_scatterAdd _ _ _ _
    (realAll_broadcastInDim _ _ _ (realAll_constant _ isReal_lit_zero))
    (realAll_broadcastInDim _ _ _ (realAll_constant _ isReal_lit_one))

theorem real_dinv (d : IVec S1000000 32) : RealAll (dinv (F := Ideal) d) :=
  realAll_powf _ _
    (realAll_select _ _ _ (realAll_broadcastInDim _ _ _ (realAll_constant _ isReal_lit_one)) (real_degree d))
    (realAll_broadcastInDim _ _ _ (realAll_constant _ isReal_lit_negHalf))

theorem real_dinvFull (d : IVec S1000000 32) : RealAll (dinvFull (F := Ideal) d) :=
  realAll_broadcastInDim _ _ _ (realAll_broadcastInDim _ _ _ (real_dinv d))

theorem realAll_agg (feat : FVec Ideal S100000x64 .f32) (s d : IVec S1000000 32) (h : RealAll feat) :
    RealAll (agg (F := Ideal) feat s d) :=
  realAll_mulf _ _ (real_dinvFull d)
    (realAll_scatterAdd _ _ _ _
      (realAll_broadcastInDim _ _ _ (realAll_constant _ isReal_lit_zero))
      (realAll_gather _ _ _ (realAll_mulf _ _ h (real_dinvFull d))))

theorem real_agg (feat : FVec Ideal S100000x64 .f32) (s d : IVec S1000000 32) (h : Real2 feat) :
    Real2 (agg (F := Ideal) feat s d) :=
  realAll_agg feat s d h

end Cert.Spec

end
-- ==== Proof.PreReal.lean ====
import proofs.«116818_j36043365548320_1_alg».proof.Proof.Gen.Pre_finite_inputs
import proofs.«116818_j36043365548320_1_alg».proof.Proof.Spec
import Idealize.ShloMosaic.Lib.ReduceAll
import Idealize.ShloMosaic.Lib.ValueIdx
import Idealize.ShloMosaic.PureOps.Ideal

namespace Cert.PreReal

open Idealize.ShloMosaic Idealize.ShloMosaic.ValueIdx
open Cert.Pre_finite_inputs

instance : Subsingleton (⟨0, ![]⟩ : Shape).Idx := ⟨fun a b => funext fun d => d.elim0⟩

theorem inf_bits : Ideal.ofBits .f32 0x7F800000#32 = (⊤ : EReal) := by
  simp [Ideal.ofBits, Ideal.ieee]

theorem lt_of_cmp_olt (a b : EReal) (h : Ideal.cmp .olt a b = 1#1) : a < b := by
  by_cases hlt : a < b
  · exact hlt
  · simp [Ideal.cmp, hlt] at h

theorem real_of_abs_lt_top (y : EReal) (h : max y (-y) < (⊤ : EReal)) : ∃ v : ℝ, y = (v : EReal) := by
  induction y using EReal.rec with
  | bot => simp at h
  | top => simp at h
  | coe v => exact ⟨v, rfl⟩

theorem real_of_all {S : Shape} {axes : List (Fin S.rank)} (x : FVec Ideal S .f32)
    (hb : (⟨0, ![]⟩ : Shape).BroadcastsInDim S (![] : Fin 0 → Fin S.rank))
    (hr : S.ReducesTo axes (⟨0, ![]⟩ : Shape)) (hu : 0 < (⟨0, ![]⟩ : Shape).numel)
    (init : IVec (⟨0, ![]⟩ : Shape) 1)
    (e : Host.reduce IntOp.andi
          (cmpf .olt (Host.absf x)
            (broadcastInDim S ![] hb (constant (F := Ideal) (⟨0, ![]⟩ : Shape) .f32 0x7F800000#32)))
          init hr hu ix0 = 1#1) :
    ∀ j, ∃ v : ℝ, x j = (v : EReal) := by
  intro j
  have h1 := Host.reduce_andi_all _ init hr hu ix0 e j
  have h2 : Ideal.cmp .olt (max (x j) (-(x j))) (Ideal.ofBits .f32 0x7F800000#32) = 1#1 := h1
  rw [inf_bits] at h2
  exact real_of_abs_lt_top (x j) (lt_of_cmp_olt _ _ h2)

theorem real_of_pre (x0 : FVec Ideal Cert.Pre_finite_inputs.S100000x64 .f32)
    (x1 x2 : IVec Cert.Pre_finite_inputs.S3x1000000 32) (x3 : FVec Ideal S64x64 .f32) (x4 : FVec Ideal S64 .f32)
    (x5 : FVec Ideal S64x64 .f32) (x6 : FVec Ideal S64 .f32) (x7 : FVec Ideal S128x64 .f32)
    (x8 : FVec Ideal S64 .f32) (x9 : FVec Ideal S128x64 .f32) (x10 : FVec Ideal S64 .f32)
    (x11 : FVec Ideal S128x64 .f32) (x12 : FVec Ideal S64 .f32) (x13 : FVec Ideal S64x2 .f32)
    (x14 : FVec Ideal S2 .f32)
    (h : Cert.Pre_finite_inputs.fn (F := Ideal) x0 x1 x2 x3 x4 x5 x6 x7 x8 x9 x10 x11 x12 x13 x14 = fun _ => 1#1) :
    Cert.Spec.Real2 x0 ∧ Cert.Spec.Real2 x3 ∧ Cert.Spec.Real1 x4 ∧ Cert.Spec.Real2 x5 ∧ Cert.Spec.Real1 x6 ∧ Cert.Spec.Real2 x7 ∧
      Cert.Spec.Real1 x8 ∧ Cert.Spec.Real2 x9 ∧ Cert.Spec.Real1 x10 ∧ Cert.Spec.Real2 x11 ∧ Cert.Spec.Real1 x12 ∧
      Cert.Spec.Real2 x13 ∧ Cert.Spec.Real1 x14 := by
  have h0 := congrFun h ix0
  dsimp only [Cert.Pre_finite_inputs.fn, fn_part1, fn_part2, fn_part3] at h0
  simp only [andi, IntOp.andi_eq_one] at h0
  obtain ⟨⟨⟨⟨⟨⟨⟨⟨⟨⟨⟨⟨e0, e3⟩, e4⟩, e5⟩, e6⟩, e7⟩, e8⟩, e9⟩, e10⟩, e11⟩, e12⟩, e13⟩, e14⟩ := h0
  exact ⟨real_of_all x0 _ _ _ _ e0, real_of_all x3 _ _ _ _ e3, real_of_all x4 _ _ _ _ e4,
    real_of_all x5 _ _ _ _ e5, real_of_all x6 _ _ _ _ e6, real_of_all x7 _ _ _ _ e7,
    real_of_all x8 _ _ _ _ e8, real_of_all x9 _ _ _ _ e9, real_of_all x10 _ _ _ _ e10,
    real_of_all x11 _ _ _ _ e11, real_of_all x12 _ _ _ _ e12, real_of_all x13 _ _ _ _ e13,
    real_of_all x14 _ _ _ _ e14⟩

end Cert.PreReal
-- ==== Proof.lean ====
import proofs.«116818_j36043365548320_1_alg».proof.Defs
import proofs.«116818_j36043365548320_1_alg».proof.Proof.Gen.Kernel
import proofs.«116818_j36043365548320_1_alg».proof.Proof.Gen.Kernel.Frame
import proofs.«116818_j36043365548320_1_alg».proof.Proof.Gen.KernelIdeal
import proofs.«116818_j36043365548320_1_alg».proof.Proof.Gen.ReferenceIdeal
import proofs.«116818_j36043365548320_1_alg».proof.Proof.Gen.Pre_finite_inputs
import proofs.«116818_j36043365548320_1_alg».proof.Proof.KRun
import proofs.«116818_j36043365548320_1_alg».proof.Proof.KValue
import proofs.«116818_j36043365548320_1_alg».proof.Proof.RefFrame
import proofs.«116818_j36043365548320_1_alg».proof.Proof.RValue
import proofs.«116818_j36043365548320_1_alg».proof.Proof.NetEq
import proofs.«116818_j36043365548320_1_alg».proof.Proof.AggReal
import proofs.«116818_j36043365548320_1_alg».proof.Proof.PreReal

noncomputable section

namespace Cert.Proof

open Idealize.ShloMosaic Idealize.ShloMosaic.TcCoe Idealize.SL.Sem Idealize.ShloMosaic.StableHlo

open Cert.ReferenceIdeal Cert.ReferenceIdeal.Val in
-- The kernel program ends at outK of its arguments, the reference at outR of its own; on real arguments, which the
-- precondition gives, the two networks are one function.
theorem algebraic : Cert.algebraic_KernelIdeal_ReferenceIdeal := by
  intro m ρ m' ρ' hpre hagree
  refine ⟨_, (θ_run Cert.KernelIdeal.defs _ _).mono
    (fun r h c => ⟨(h c).1.trans (Cert.KernelIdeal.Val.kernel_value m ρ c), (h c).2⟩)
    (Cert.KernelIdeal.Val.run_result (F := Ideal) m ρ), ?_⟩
  refine (θ_run defs _ _).mono (fun r h c => ?_) (run_main (F := Ideal) m' ρ')
  obtain ⟨e0, e1, e2, e3, e4, e5, e6, e7, e8, e9, e10, e11, e12, e13, e14⟩ := hagree c
  obtain ⟨r0, r3, r4, r5, r6, r7, r8, r9, r10, r11, r12, -, -⟩ := Cert.PreReal.real_of_pre _ _ _ _ _ _ _ _ _ _ _ _ _ _ _ (hpre c)
  refine ⟨(h c main_v243).trans ((ref_value (launchContents m' c)).trans ?_),
    (h c main_arg0).trans (arg_kept _ _ (by decide)), (h c main_arg1).trans (arg_kept _ _ (by decide)), (h c main_arg2).trans (arg_kept _ _ (by decide)),
    (h c main_arg3).trans (arg_kept _ _ (by decide)), (h c main_arg4).trans (arg_kept _ _ (by decide)), (h c main_arg5).trans (arg_kept _ _ (by decide)),
    (h c main_arg6).trans (arg_kept _ _ (by decide)), (h c main_arg7).trans (arg_kept _ _ (by decide)), (h c main_arg8).trans (arg_kept _ _ (by decide)),
    (h c main_arg9).trans (arg_kept _ _ (by decide)), (h c main_arg10).trans (arg_kept _ _ (by decide)), (h c main_arg11).trans (arg_kept _ _ (by decide)),
    (h c main_arg12).trans (arg_kept _ _ (by decide)), (h c main_arg13).trans (arg_kept _ _ (by decide)), (h c main_arg14).trans (arg_kept _ _ (by decide))⟩
  dsimp only [launchContents]
  rw [e0, e1, e2, e3, e4, e5, e6, e7, e8, e9, e10, e11, e12, e13, e14]
  exact (Cert.Spec.outK_eq_outR Cert.Spec.real_agg _ _ _ _ _ _ _ _ _ _ _ _ _ _ _ r0 r3 r4 r5 r6 r7 r8 r9 r10 r11 r12).symm

theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ, fun m ρ _ => Cert.KernelIdeal.Gen.frame m ρ, Cert.ReferenceIdeal.Val.frame,
    trivial, algebraic⟩

end Cert.Proof

end
